-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S1x128 : Shape := ⟨2, ![1, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_arg10 : FVec F S128x128 .f32) (main_arg11 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg0 main_v44
  let main_c_17 : IVec S_ 32 := constantI S_ 32 1#32
  let main_v46 : IVec S50000 32 := broadcastInDim S50000 ![] bcast_S_S50000 main_c_17
  let main_v47 : IVec S50000 1 := cmpi .slt main_arg0 main_v46
  let main_v48 : IVec S50000 1 := andi main_v45 main_v47
  let main_c_18 : IVec S_ 1 := constantI S_ 1 1#1
  let main_v49 : IVec S_ 1 := (fun x v => Host.reduce IntOp.andi x v reducesTo_S50000_S_d0 h_S_) main_v48 main_c_18
  let main_v50 : IVec S_ 1 := andi main_v43 main_v49
  main_v50

def fn_part1 {F : FTy → Type} [FloatOps F] (main_arg0 : IVec S50000 32) (main_arg7 : FVec F S3x128 .f32) (main_arg8 : FVec F S128x128 .f32) (main_arg9 : FVec F S128 .f32) (main_arg10 : FVec F S128x128 .f32) (main_arg11 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg10 main_arg11 main_v33

def fn {F : FTy → Type} [FloatOps F] (main_arg0 : IVec S50000 32) (main_arg1 : IVec S2x800000 32) (main_arg2 : IVec S50000 32) (main_arg3 : FVec F S1x128 .f32) (main_arg4 : FVec F S3x128x128 .f32) (main_arg5 : FVec F S3x128 .f32) (main_arg6 : FVec F S3x128x128 .f32) (main_arg7 : FVec F S3x128 .f32) (main_arg8 : FVec F S128x128 .f32) (main_arg9 : FVec F S128 .f32) (main_arg10 : FVec F S128x128 .f32) (main_arg11 : FVec F S128 .f32) : IVec S_ 1 :=
  let main_v0 : FVec F S1x128 .f32 := Host.absf main_arg3
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg0 main_arg7 main_arg8 main_arg9 main_arg10 main_arg11 main_v13 main_v16
-- ==== Kernel.lean ====
abbrev S50000 : Shape := ⟨1, ![50000]⟩
abbrev S2x800000 : Shape := ⟨2, ![2, 800000]⟩
abbrev S1x128 : Shape := ⟨2, ![1, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S50000x128 : Shape := ⟨2, ![50000, 128]⟩
abbrev S1x128x128 : Shape := ⟨3, ![1, 128, 128]⟩
abbrev S2000x128 : Shape := ⟨2, ![2000, 128]⟩
abbrev S800000x128 : Shape := ⟨2, ![800000, 128]⟩
abbrev S2000x1 : Shape := ⟨2, ![2000, 1]⟩

abbrev nBuf : Space → Nat
  | .hbm => 165
  | .vmem => 62
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1x128, .f32⟩
  | 4 => ⟨S3x128x128, .f32⟩
  | 5 => ⟨S3x128, .f32⟩
  | 6 => ⟨S3x128x128, .f32⟩
  | 7 => ⟨S3x128, .f32⟩
  | 8 => ⟨S128x128, .f32⟩
  | 9 => ⟨S128, .f32⟩
  | 10 => ⟨S128x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S50000x1, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S800000x1, .f32⟩
  | 47 => ⟨S50000, .f32⟩
  | 48 => ⟨S50000x1, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S1, .i32⟩
  | 58 => ⟨S_, .i32⟩
  | 59 => ⟨S50000x1, .i32⟩
  | 60 => ⟨S50000x1, .i1⟩
  | 61 => ⟨S1x1, .i32⟩
  | 62 => ⟨S50000x1, .i32⟩
  | 63 => ⟨S50000x1, .i1⟩
  | 64 => ⟨S50000x1, .i1⟩
  | 65 => ⟨S_, .i1⟩
  | 66 => ⟨S50000, .i1⟩
  | 67 => ⟨S50000x128, .f32⟩
  | 68 => ⟨S50000x128, .i1⟩
  | 69 => ⟨S_, .f32⟩
  | 70 => ⟨S50000x128, .f32⟩
  | 71 => ⟨S50000x128, .f32⟩
  | 72 => ⟨S1x128x128, .f32⟩
  | 73 => ⟨S128x128, .f32⟩
  | 74 => ⟨S50000x128, .bf16⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .bf16⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128, .f32⟩
  | 92 => ⟨S128, .f32⟩
  | 93 => ⟨S1x128, .f32⟩
  | 94 => ⟨S1x128x128, .f32⟩
  | 95 => ⟨S128x128, .f32⟩
  | 96 => ⟨S1x128, .f32⟩
  | 97 => ⟨S128, .f32⟩
  | 98 => ⟨S1x128, .f32⟩
  | 99 => ⟨S50000x128, .f32⟩
  | 100 => ⟨S1x128x128, .f32⟩
  | 101 => ⟨S128x128, .f32⟩
  | 102 => ⟨S50000x128, .bf16⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .bf16⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1x128, .f32⟩
  | 120 => ⟨S128, .f32⟩
  | 121 => ⟨S1x128, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S50000x128, .f32⟩
  | _ => ⟨S50000, .i32⟩

abbrev hbmTy0_1 (i : Nat) : BufTy := match i % 128 with
  | 0 => ⟨S1x128x128, .f32⟩
  | 1 => ⟨S128x128, .f32⟩
  | 2 => ⟨S50000x128, .bf16⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .bf16⟩
  | 12 => ⟨S800000x128, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S1x128, .f32⟩
  | 20 => ⟨S128, .f32⟩
  | 21 => ⟨S1x128, .f32⟩
  | 22 => ⟨S1x128x128, .f32⟩
  | 23 => ⟨S128x128, .f32⟩
  | 24 => ⟨S1x128, .f32⟩
  | 25 => ⟨S128, .f32⟩
  | 26 => ⟨S1x128, .f32⟩
  | 27 => ⟨S50000x128, .f32⟩
  | 28 => ⟨S1x128, .f32⟩
  | 29 => ⟨S128x128, .f32⟩
  | 30 => ⟨S128x128, .f32⟩
  | 31 => ⟨S1x128, .f32⟩
  | 32 => ⟨S128x128, .f32⟩
  | 33 => ⟨S128x128, .f32⟩
  | 34 => ⟨S_, .f32⟩
  | 35 => ⟨S128x128, .f32⟩
  | 36 => ⟨S128x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x128, .bf16⟩
  | .local _ .vmem, ⟨22, _⟩ => ⟨S2000x128, .bf16⟩
  | .local _ .vmem, ⟨23, _⟩ => ⟨S2000x128, .f32⟩
  | .local _ .vmem, ⟨24, _⟩ => ⟨S2000x128, .f32⟩
  | .local _ .vmem, ⟨25, _⟩ => ⟨S2000x128, .bf16⟩
  | .local _ .vmem, ⟨26, _⟩ => ⟨S2000x128, .bf16⟩
  | .local _ .vmem, ⟨27, _⟩ => ⟨S2000x1, .f32⟩
  | .local _ .vmem, ⟨28, _⟩ => ⟨S2000x1, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S2000x128, .bf16⟩
  | .local _ .vmem, ⟨40, _⟩ => ⟨S2000x128, .bf16⟩
  | .local _ .vmem, ⟨41, _⟩ => ⟨S2000x128, .f32⟩
  | .local _ .vmem, ⟨42, _⟩ => ⟨S2000x128, .f32⟩
  | .local _ .vmem, ⟨43, _⟩ => ⟨S2000x128, .bf16⟩
  | .local _ .vmem, ⟨44, _⟩ => ⟨S2000x128, .bf16⟩
  | .local _ .vmem, ⟨45, _⟩ => ⟨S2000x1, .f32⟩
  | .local _ .vmem, ⟨46, _⟩ => ⟨S2000x1, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S1x128, .f32⟩
  | .local _ .vmem, ⟨58, _⟩ => ⟨S2000x1, .i32⟩
  | .local _ .vmem, ⟨59, _⟩ => ⟨S2000x1, .i32⟩
  | .local _ .vmem, ⟨60, _⟩ => ⟨S128x128, .f32⟩
  | .local _ .vmem, ⟨61, _⟩ => ⟨S128x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_c_1 : Ref sig .tc := ⟨.hbm, 57, rfl⟩
abbrev main_call0_c_2 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_3 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_cst : Ref sig .tc := ⟨.hbm, 69, rfl⟩
abbrev main_call0_v15 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_5 : Ref sig .tc := ⟨.hbm, 75, rfl⟩
abbrev main_v34 : Ref sig .tc := ⟨.hbm, 76, rfl⟩
abbrev main_v35 : Ref sig .tc := ⟨.hbm, 77, rfl⟩
abbrev main_c_6 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_7 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_8 : Ref sig .tc := ⟨.hbm, 103, rfl⟩
abbrev main_v59 : Ref sig .tc := ⟨.hbm, 104, rfl⟩
abbrev main_v60 : Ref sig .tc := ⟨.hbm, 105, rfl⟩
abbrev main_c_9 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_10 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_11 : Ref sig .tc := ⟨.hbm, 131, rfl⟩
abbrev main_v84 : Ref sig .tc := ⟨.hbm, 132, rfl⟩
abbrev main_v85 : Ref sig .tc := ⟨.hbm, 133, rfl⟩
abbrev main_c_12 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_13 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_14 : Ref sig .tc := ⟨.hbm, 162, rfl⟩
abbrev main_v112 : Ref sig .tc := ⟨.hbm, 163, rfl⟩
abbrev main_v113 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_scratch0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc5_sem7_0 : DmaSem sig := 52
abbrev cc5_sem7_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v34 : BitVec 1 := Scalar.cmpi .eq arg0 c24_i32
  let v35 : BitVec 32 := Scalar.extui v34
  let c0_i32_15 : BitVec 32 := 0#32
  let v36 : BitVec 1 := Scalar.cmpi .ne v35 c0_i32_15
  v36

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x1 .i32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S800000_S800000x1 : S800000.ShapeCasts S800000x1
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  bcast_S800000x1_S800000x128_0_1 : S800000x1.BroadcastsInDim S800000x128 (![0, 1] : Fin 2 → Fin S800000x128.rank)
  slices_S3x128_S1x128_0_0 : S3x128.Slices ![0, 0] S1x128
  shapeCasts_S1x128_S128 : S1x128.ShapeCasts S128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  iota_S2000x128_d1_w32 : S2000x128.Iotas .tc 32 [1]
  natLt_1_32 : 1 < 32
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S1x128_S50000x1_S50000x128_1_0_n_n_0_1_1128_wf : GatherDims.WF S1x128 S50000x1 S50000x128 [1] [0] [] [0] [] 1 ![1, 128]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S2000x128_S128x128_0_0_1_1_n_n_wf : DotDims.WF S2000x128 S2000x128 S128x128 [0] [0] [1] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .bf16 = 32 ∨ (Rect.block (s := S50000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .bf16 = 32 ∨ (Rect.block (s := S50000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S50000x128.size a
  hwx5_7 : ∀ i : grid5.Coords, EltTy.bits .f32 = 32 ∨ (Rect.block (s := S50000x128) S2000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S50000x1.size a
  hwx6_3 : ∀ i : grid6.Coords, EltTy.bits .i32 = 32 ∨ (Rect.block (s := S50000x1) S2000x1.size (cc6_transform_3 i) (hinb6_3 i)).WholeWords (EltTy.packing .i32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S1x128_S50000x1_S50000x128_1_0_n_n_0_1_1128 : GatherDims S1x128 S50000x1 S50000x128 where
  offsetDims := [1]
  collapsedSliceDims := [0]
  operandBatchingDims := []
  startIndicesBatchingDims := []
  startIndexMap := [0]
  indexVectorDim := 1
  sliceSizes := ![1, 128]
  wf := gather_S1x128_S50000x1_S50000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v55) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S2000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v80) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v80) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v96) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v29) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v99) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v80) S2000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v105) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v105) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v106) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v4) S2000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v107) S128x128.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S50000 : Shape := ⟨1, ![50000]⟩
abbrev S2x800000 : Shape := ⟨2, ![2, 800000]⟩
abbrev S1x128 : Shape := ⟨2, ![1, 128]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x128 : Shape := ⟨2, ![50000, 128]⟩
abbrev S1x128x128 : Shape := ⟨3, ![1, 128, 128]⟩
abbrev S800000x128 : Shape := ⟨2, ![800000, 128]⟩

abbrev nBuf : Space → Nat
  | .hbm => 240
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S1x128, .f32⟩
  | 4 => ⟨S3x128x128, .f32⟩
  | 5 => ⟨S3x128, .f32⟩
  | 6 => ⟨S3x128x128, .f32⟩
  | 7 => ⟨S3x128, .f32⟩
  | 8 => ⟨S128x128, .f32⟩
  | 9 => ⟨S128, .f32⟩
  | 10 => ⟨S128x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000, .f32⟩
  | 47 => ⟨S50000x1, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000x128, .f32⟩
  | 57 => ⟨S1x128x128, .f32⟩
  | 58 => ⟨S128x128, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S800000x128, .f32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S1x128x128, .f32⟩
  | 84 => ⟨S128x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .i1⟩
  | 95 => ⟨S_, .f32⟩
  | 96 => ⟨S50000x128, .f32⟩
  | 97 => ⟨S50000x128, .i1⟩
  | 98 => ⟨S_, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S50000x128, .f32⟩
  | _ => ⟨S50000, .i32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S1x128x128, .f32⟩
  | 7 => ⟨S128x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .i1⟩
  | 21 => ⟨S_, .f32⟩
  | 22 => ⟨S_, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .i1⟩
  | 69 => ⟨S_, .f32⟩
  | 70 => ⟨S50000x128, .f32⟩
  | 71 => ⟨S50000x128, .i1⟩
  | 72 => ⟨S_, .f32⟩
  | 73 => ⟨S_, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .i1⟩
  | 89 => ⟨S_, .f32⟩
  | 90 => ⟨S50000x128, .f32⟩
  | 91 => ⟨S50000x128, .i1⟩
  | 92 => ⟨S_, .f32⟩
  | 93 => ⟨S_, .f32⟩
  | 94 => ⟨S50000x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S128x128, .f32⟩
  | 103 => ⟨S50000x1, .i32⟩
  | 104 => ⟨S128x128, .f32⟩
  | 105 => ⟨S128x128, .f32⟩
  | 106 => ⟨S1x128, .f32⟩
  | 107 => ⟨S128x128, .f32⟩
  | 108 => ⟨S128x128, .f32⟩
  | 109 => ⟨S_, .f32⟩
  | 110 => ⟨S128x128, .f32⟩
  | 111 => ⟨S128x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call0_cst : Ref sig .tc := ⟨.hbm, 92, rfl⟩
abbrev main_call0_v0 : Ref sig .tc := ⟨.hbm, 93, rfl⟩
abbrev main_call0_v1 : Ref sig .tc := ⟨.hbm, 94, rfl⟩
abbrev main_call0_cst_0 : Ref sig .tc := ⟨.hbm, 95, rfl⟩
abbrev main_call0_v2 : Ref sig .tc := ⟨.hbm, 96, rfl⟩
abbrev main_call0_v3 : Ref sig .tc := ⟨.hbm, 97, rfl⟩
abbrev main_call0_cst_1 : Ref sig .tc := ⟨.hbm, 98, rfl⟩
abbrev main_call0_call0_v0 : Ref sig .tc := ⟨.hbm, 99, rfl⟩
abbrev main_call0_call0_v1 : Ref sig .tc := ⟨.hbm, 100, rfl⟩
abbrev main_call0_v4 : Ref sig .tc := ⟨.hbm, 101, rfl⟩
abbrev main_call0_v5 : Ref sig .tc := ⟨.hbm, 102, rfl⟩
abbrev main_call0_cst_2 : Ref sig .tc := ⟨.hbm, 103, rfl⟩
abbrev main_call0_v6 : Ref sig .tc := ⟨.hbm, 104, rfl⟩
abbrev main_call0_v7 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_10 : Ref sig .tc := ⟨.hbm, 111, rfl⟩
abbrev main_v73 : Ref sig .tc := ⟨.hbm, 112, rfl⟩
abbrev main_v74 : Ref sig .tc := ⟨.hbm, 113, rfl⟩
abbrev main_c_11 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_12 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_cst_0 : Ref sig .tc := ⟨.hbm, 146, rfl⟩
abbrev main_call1_v2 : Ref sig .tc := ⟨.hbm, 147, rfl⟩
abbrev main_call1_v3 : Ref sig .tc := ⟨.hbm, 148, rfl⟩
abbrev main_call1_cst_1 : Ref sig .tc := ⟨.hbm, 149, rfl⟩
abbrev main_call1_call0_v0 : Ref sig .tc := ⟨.hbm, 150, rfl⟩
abbrev main_call1_call0_v1 : Ref sig .tc := ⟨.hbm, 151, rfl⟩
abbrev main_call1_v4 : Ref sig .tc := ⟨.hbm, 152, rfl⟩
abbrev main_call1_v5 : Ref sig .tc := ⟨.hbm, 153, rfl⟩
abbrev main_call1_cst_2 : Ref sig .tc := ⟨.hbm, 154, rfl⟩
abbrev main_call1_v6 : Ref sig .tc := ⟨.hbm, 155, rfl⟩
abbrev main_call1_v7 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_13 : Ref sig .tc := ⟨.hbm, 162, rfl⟩
abbrev main_v107 : Ref sig .tc := ⟨.hbm, 163, rfl⟩
abbrev main_v108 : Ref sig .tc := ⟨.hbm, 164, rfl⟩
abbrev main_c_14 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_15 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_call2_cst : Ref sig .tc := ⟨.hbm, 194, rfl⟩
abbrev main_call2_v0 : Ref sig .tc := ⟨.hbm, 195, rfl⟩
abbrev main_call2_v1 : Ref sig .tc := ⟨.hbm, 196, rfl⟩
abbrev main_call2_cst_0 : Ref sig .tc := ⟨.hbm, 197, rfl⟩
abbrev main_call2_v2 : Ref sig .tc := ⟨.hbm, 198, rfl⟩
abbrev main_call2_v3 : Ref sig .tc := ⟨.hbm, 199, rfl⟩
abbrev main_call2_cst_1 : Ref sig .tc := ⟨.hbm, 200, rfl⟩
abbrev main_call2_call0_v0 : Ref sig .tc := ⟨.hbm, 201, rfl⟩
abbrev main_call2_call0_v1 : Ref sig .tc := ⟨.hbm, 202, rfl⟩
abbrev main_call2_v4 : Ref sig .tc := ⟨.hbm, 203, rfl⟩
abbrev main_call2_v5 : Ref sig .tc := ⟨.hbm, 204, rfl⟩
abbrev main_call2_cst_2 : Ref sig .tc := ⟨.hbm, 205, rfl⟩
abbrev main_call2_v6 : Ref sig .tc := ⟨.hbm, 206, rfl⟩
abbrev main_call2_v7 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_call3_cst : Ref sig .tc := ⟨.hbm, 214, rfl⟩
abbrev main_call3_v0 : Ref sig .tc := ⟨.hbm, 215, rfl⟩
abbrev main_call3_v1 : Ref sig .tc := ⟨.hbm, 216, rfl⟩
abbrev main_call3_cst_0 : Ref sig .tc := ⟨.hbm, 217, rfl⟩
abbrev main_call3_v2 : Ref sig .tc := ⟨.hbm, 218, rfl⟩
abbrev main_call3_v3 : Ref sig .tc := ⟨.hbm, 219, rfl⟩
abbrev main_call3_cst_1 : Ref sig .tc := ⟨.hbm, 220, rfl⟩
abbrev main_call3_call0_v0 : Ref sig .tc := ⟨.hbm, 221, rfl⟩
abbrev main_call3_call0_v1 : Ref sig .tc := ⟨.hbm, 222, rfl⟩
abbrev main_call3_v4 : Ref sig .tc := ⟨.hbm, 223, rfl⟩
abbrev main_call3_v5 : Ref sig .tc := ⟨.hbm, 224, rfl⟩
abbrev main_call3_cst_2 : Ref sig .tc := ⟨.hbm, 225, rfl⟩
abbrev main_call3_v6 : Ref sig .tc := ⟨.hbm, 226, rfl⟩
abbrev main_call3_v7 : Ref sig .tc := ⟨.hbm, 227, rfl⟩
abbrev main_v142 : Ref sig .tc := ⟨.hbm, 228, rfl⟩
abbrev main_cst_16 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_cst_17 : Ref sig .tc := ⟨.hbm, 237, rfl⟩
abbrev main_v150 : Ref sig .tc := ⟨.hbm, 238, rfl⟩
abbrev main_v151 : Ref sig .tc := ⟨.hbm, 239, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S1x128_S128x128_0_1 : S1x128.BroadcastsInDim S128x128 (![0, 1] : Fin 2 → Fin S128x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S1x128_S50000x1_S50000x128_1_0_n_n_0_1_1128_wf : GatherDims.WF S1x128 S50000x1 S50000x128 [1] [0] [] [0] [] 1 ![1, 128]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S1x128_S50000x1_S50000x128_1_0_n_n_0_1_1128 : GatherDims S1x128 S50000x1 S50000x128 where
  offsetDims := [1]
  collapsedSliceDims := [0]
  operandBatchingDims := []
  startIndicesBatchingDims := []
  startIndexMap := [0]
  indexVectorDim := 1
  sliceSizes := ![1, 128]
  wf := gather_S1x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.K.RegMM.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

def out0_2 (x0 : Vec F S2000x128 .f32) (x1 : Vec F S128x128 .f32) : Vec F S2000x128 .bf16 :=
  View.canon [⟨r0_0, k0_pay1 (View.ld x0 r0_0) (View.ld x1 r0_1)⟩]

theorem cover0_2 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

set_option maxHeartbeats 1000000 in
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_xw_kernel i arg1 harg1 arg2 harg2 arg3 harg3) K := by
  simp only [cc0__matmul_xw_kernel_eq_skeleton]; unfold cc0__matmul_xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.RegCB.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

def out1_7 (x0 : Vec F S2000x128 .f32) (x1 : Vec F S2000x128 .bf16) (x2 : Vec F S2000x1 .f32) (x3 : Vec F S1x128 .f32)
    (x4 : Vec F S128x128 .f32) (x5 : Vec F S1x128 .f32) (x6 : Vec F S2000x128 .f32) : Vec F S2000x128 .f32 :=
  View.canon [⟨r1_0, k1_pay1 (View.ld x1 r1_0) (View.ld x0 r1_0) (View.ld x2 r1_1) (View.ld x6 r1_0) (View.ld x4 r1_3)
    (View.ld x3 r1_2) (View.ld x5 r1_2) (View.ld x6 r1_0)⟩]

theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

set_option maxHeartbeats 1000000 in
theorem sound_kernel1 (c : Dev nD) (E : Set ℕ) (i : grid1.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x128 .f32) (harg8 : arg8.IsWhole)
    (x0 : Vec F S2000x128 .f32) (x1 : Vec F S2000x128 .bf16) (x2 : Vec F S2000x1 .f32) (x3 : Vec F S1x128 .f32) (x4 : Vec F S128x128 .f32) (x5 : Vec F S1x128 .f32) (x6 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__combine_kernel i arg1 harg1 arg2 harg2 arg3 harg3 arg4 harg4 arg5 harg5 arg6 harg6 arg7 harg7 arg8 harg8) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.RegMM2.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0

def out2_2 (x0 : Vec F S2000x128 .f32) (x1 : Vec F S128x128 .f32) : Vec F S2000x128 .bf16 :=
  View.canon [⟨r2_0, k2_pay1 (View.ld x0 r2_0) (View.ld x1 r2_1)⟩]

theorem cover2_2 (p0 : Vec F S2000x128 .bf16) (y : S2000x128.Idx) :
    ∃ pc ∈ ([⟨r2_0, p0⟩] : List (View.Piece (Elt F) S2000x128 .bf16)), y ∈ pc.1.set :=
  View.cover_of_tiled [⟨r2_0, p0⟩] S2000x128.size (by rfl) y

set_option maxHeartbeats 1000000 in
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_xw_kernel i arg1 harg1 arg2 harg2 arg3 harg3) K := by
  simp only [cc2__matmul_xw_kernel_eq_skeleton]; unfold cc2__matmul_xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.K.RegCB3.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S2000x1 := Rect.unit (s := S2000x1) ![0, 0] S2000x1.size inb_S2000x1_S2000x1_0_0
abbrev r3_2 : Rect S1x128 := Rect.unit (s := S1x128) ![0, 0] S1x128.size inb_S1x128_S1x128_0_0
abbrev r3_3 : Rect S128x128 := Rect.unit (s := S128x128) ![0, 0] S128x128.size inb_S128x128_S128x128_0_0

def out3_7 (x0 : Vec F S2000x128 .f32) (x1 : Vec F S2000x128 .bf16) (x2 : Vec F S2000x1 .f32) (x3 : Vec F S1x128 .f32)
    (x4 : Vec F S128x128 .f32) (x5 : Vec F S1x128 .f32) (x6 : Vec F S2000x128 .f32) : Vec F S2000x128 .f32 :=
  View.canon [⟨r3_0, k3_pay1 (View.ld x1 r3_0) (View.ld x0 r3_0) (View.ld x2 r3_1) (View.ld x6 r3_0) (View.ld x4 r3_3)
    (View.ld x3 r3_2) (View.ld x5 r3_2) (View.ld x6 r3_0)⟩]

theorem cover3_7 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by
  dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)

set_option maxHeartbeats 1000000 in
theorem sound_kernel3 (c : Dev nD) (E : Set ℕ) (i : grid3.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x128 .f32) (harg8 : arg8.IsWhole)
    (x0 : Vec F S2000x128 .f32) (x1 : Vec F S2000x128 .bf16) (x2 : Vec F S2000x1 .f32) (x3 : Vec F S1x128 .f32) (x4 : Vec F S128x128 .f32) (x5 : Vec F S1x128 .f32) (x6 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E
          (cc3__combine_kernel i arg1 harg1 arg2 harg2 arg3 harg3 arg4 harg4 arg5 harg5 arg6 harg6 arg7 harg7 arg8 harg8) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.RegMM4.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0

def out4_2 (x0 : Vec F S2000x128 .f32) (x1 : Vec F S128x128 .f32) : Vec F S2000x128 .bf16 :=
  View.canon [⟨r4_0, k4_pay1 (View.ld x0 r4_0) (View.ld x1 r4_1)⟩]

theorem cover4_2 (p0 : Vec F S2000x128 .bf16) (y : S2000x128.Idx) :
    ∃ pc ∈ ([⟨r4_0, p0⟩] : List (View.Piece (Elt F) S2000x128 .bf16)), y ∈ pc.1.set :=
  View.cover_of_tiled [⟨r4_0, p0⟩] S2000x128.size (by rfl) y

set_option maxHeartbeats 1000000 in
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_xw_kernel i arg1 harg1 arg2 harg2 arg3 harg3) K := by
  simp only [cc4__matmul_xw_kernel_eq_skeleton]; unfold cc4__matmul_xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.RegCB5.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S2000x1 := Rect.unit (s := S2000x1) ![0, 0] S2000x1.size inb_S2000x1_S2000x1_0_0
abbrev r5_2 : Rect S1x128 := Rect.unit (s := S1x128) ![0, 0] S1x128.size inb_S1x128_S1x128_0_0
abbrev r5_3 : Rect S128x128 := Rect.unit (s := S128x128) ![0, 0] S128x128.size inb_S128x128_S128x128_0_0

def out5_7 (x0 : Vec F S2000x128 .f32) (x1 : Vec F S2000x128 .bf16) (x2 : Vec F S2000x1 .f32) (x3 : Vec F S1x128 .f32)
    (x4 : Vec F S128x128 .f32) (x5 : Vec F S1x128 .f32) (x6 : Vec F S2000x128 .f32) : Vec F S2000x128 .f32 :=
  View.canon [⟨r5_0, k5_pay1 (View.ld x1 r5_0) (View.ld x0 r5_0) (View.ld x2 r5_1) (View.ld x6 r5_0) (View.ld x4 r5_3)
    (View.ld x3 r5_2) (View.ld x5 r5_2) (View.ld x6 r5_0)⟩]

theorem cover5_7 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by
  dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)

set_option maxHeartbeats 1000000 in
theorem sound_kernel5 (c : Dev nD) (E : Set ℕ) (i : grid5.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x128 .f32) (harg8 : arg8.IsWhole)
    (x0 : Vec F S2000x128 .f32) (x1 : Vec F S2000x128 .bf16) (x2 : Vec F S2000x1 .f32) (x3 : Vec F S1x128 .f32) (x4 : Vec F S128x128 .f32) (x5 : Vec F S1x128 .f32) (x6 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out5_7 x0 x1 x2 x3 x4 x5 x6)) -∗ K ⟨⟩))
      ⊢ wp frame (wpE (defs₀ (F := F)) Variants.none c none) E
          (cc5__combine_kernel i arg1 harg1 arg2 harg2 arg3 harg3 arg4 harg4 arg5 harg5 arg6 harg6 arg7 harg7 arg8 harg8) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.RegPool.lean ====
import proofs.«401955_j22634477650042_2_alg».proof.Proof.Gen.Kernel.Launch
import proofs.«401955_j22634477650042_2_alg».proof.Proof.Gen.Kernel.Skeleton
import proofs.«401955_j22634477650042_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xblk6 (c : Dev nD) (t : Fin cfg6.N) : Vec F S2000x128 .f32 := iblk6 V c 0 t
abbrev wblk6 (c : Dev nD) (t : Fin cfg6.N) : Vec F S128x128 .f32 := iblk6 V c 1 t
abbrev bblk6 (c : Dev nD) (t : Fin cfg6.N) : Vec F S1x128 .f32 := iblk6 V c 2 t
abbrev gblk6 (c : Dev nD) (t : Fin cfg6.N) : Vec F S2000x1 .i32 := iblk6 V c 3 t

def upd6 (c : Dev nD) (t : Fin cfg6.N) (s : Vec F S128x128 .f32) : Vec F S128x128 .f32 :=
  k6_pay2 (xblk6 V c t) (wblk6 V c t) (bblk6 V c t) (gblk6 V c t) s

def sc6 (c : Dev nD) : ℕ → Vec F S128x128 .f32
  | 0 => k6_pay1
  | n + 1 => if h : n < cfg6.N then upd6 V c ⟨n, h⟩ (sc6 c n) else sc6 c n

theorem sc6_zero (c : Dev nD) : sc6 V c 0 = k6_pay1 := rfl

theorem sc6_succ (c : Dev nD) (t : Fin cfg6.N) : sc6 V c (t.val + 1) = upd6 V c t (sc6 V c t.val) := by
  obtain ⟨n, hn⟩ := t
  exact (dif_pos hn)

abbrev scM6 : Memref sig .tc .vmem S128x128 .f32 := Memref.whole cc6_scratch0

def Phi6 (c : Dev nD) : ℕ → sProp 𝕄
  | 0 => Pipeline.ΦA spec6 c
  | n + 1 => iprop(owns (c : Thread nD τ) scM6 fullShare (sc6 V c (n + 1))
      ∗ Pipeline.scopedRestBut (Ix := Unit) (Name := ℕ) (U := UR sig nD τ) (Lvl := ℕ) (Val := Elt F) spec6 c [cc6_scratch0]
      ∗ ∃ r, prngReg c r)

theorem Phi6_succ (c : Dev nD) (n : ℕ) :
    Phi6 V c (n + 1) = iprop(owns (c : Thread nD τ) scM6 fullShare (sc6 V c (n + 1))
      ∗ Pipeline.scopedRestBut (Ix := Unit) (Name := ℕ) (U := UR sig nD τ) (Lvl := ℕ) (Val := Elt F) spec6 c [cc6_scratch0]
      ∗ ∃ r, prngReg c r) := rfl

theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0])
        ∗ ∃ r, prngReg c r) := by
  unfold Pipeline.ΦA; rw [scopedRest6_split]; simp only [scM6, owns_whole]; rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => sc6 V c (t.val + 1)
  Φ t := Phi6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = sc6 V c (t.val + 1) := by dsimp only [dat6]

theorem Phi6_at (c : Dev nD) (t : Fin (cfg6.N + 1)) : (dat6 V c).Φ t = Phi6 V c t.val := by dsimp only [dat6]

theorem Φ6_in (c : Dev nD) : Pipeline.ΦA spec6 c ⊢ (dat6 V c).Φ 0 := by
  rw [Phi6_at]; exact Idealize.SL.BI.Entails.refl _

theorem Φ6_out (c : Dev nD) : (dat6 V c).Φ (Fin.last cfg6.N) ⊢ Pipeline.ΦA spec6 c := by
  rw [Phi6_at, show (Fin.last cfg6.N).val = 24 + 1 from by rw [Fin.val_last]; exact N_6, Phi6_succ, PhiA6_eq]
  iintro ⟨HS, Hrest, Hg⟩
  isplitl [HS Hrest]
  · isplitl [HS]
    · iexists _; iexact HS
    iexact Hrest
  iexact Hg

abbrev cond6_0 (i : grid6.Coords) : Prop :=
  (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1
theorem hcond6_1 : ∀ t : Fin cfg6.N, cond6_1 (grid6.coords t) ↔ t.val = 24 :=
  (by decide +kernel : ∀ t : Fin grid6.N, cond6_1 (grid6.coords t) ↔ t.val = 24)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem idleAt6_4 : ∀ t : Fin cfg6.N, ¬cond6_1 (grid6.coords t) → cfg6.idle 4 (grid6.coords t) = true :=
  (by decide +kernel : ∀ t : Fin grid6.N, ¬cond6_1 (grid6.coords t) → idle6 4 (grid6.coords t) = true)
theorem noFlush6_4 : ∀ t : Fin cfg6.N, ¬cond6_1 (grid6.coords t) → (cfg6.win 4).flush t = false :=
  (by decide +kernel : ∀ t : Fin grid6.N, ¬cond6_1 (grid6.coords t) → win6_4.flush t = false)
theorem liveAt6_4 : ∀ t : Fin cfg6.N, cond6_1 (grid6.coords t) → cfg6.idle 4 (grid6.coords t) = false :=
  (by decide +kernel : ∀ t : Fin grid6.N, cond6_1 (grid6.coords t) → idle6 4 (grid6.coords t) = false)

theorem hz_x : (![0, 0] : Fin S2000x128.rank → ℕ) = fun _ => 0 := funext fun a => by fin_cases a <;> rfl
theorem hz_w : (![0, 0] : Fin S128x128.rank → ℕ) = fun _ => 0 := funext fun a => by fin_cases a <;> rfl
theorem hz_b : (![0, 0] : Fin S1x128.rank → ℕ) = fun _ => 0 := funext fun a => by fin_cases a <;> rfl
theorem hz_g : (![0, 0] : Fin S2000x1.rank → ℕ) = fun _ => 0 := funext fun a => by fin_cases a <;> rfl

theorem cover_w (p : Vec F S128x128 .f32) (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L), y ∈ pc.1.set :=
  ⟨_, List.mem_cons_self, View.mem_set_unit_zero hz_w inb_S128x128_S128x128_0_0 y⟩

set_option maxHeartbeats 2000000 in
theorem sound_mid6 (c : Dev nD) (E : Set ℕ) (i : grid6.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (a6 : Memref sig .tc .vmem S128x128 .f32) (h6 : a6.IsWhole)
    (hc0 : ¬cond6_0 i) (hc1 : ¬cond6_1 i)
    (x0 : Vec F S2000x128 .f32) (x1 : Vec F S128x128 .f32) (x2 : Vec F S1x128 .f32) (x3 : Vec F S2000x1 .i32)
    (xi : Vec F S128x128 .f32) (xs : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ owns (c : Thread nD τ) a6 fullShare xs
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi
            ∗ owns (c : Thread nD τ) a6 fullShare (k6_pay2 x0 x1 x2 x3 xs)) -∗ K ⟨⟩))
      ⊢ wp frame (wpE (defs₀ (F := F)) Variants.none c none) E (cc6__mlp_pool_kernel i a1 h1 a2 h2 a3 h3 a4 h4 a5 h5 a6 h6) K := by
  simp only [cc6__mlp_pool_kernel_eq_skeleton]; unfold cc6__mlp_pool_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  iexists _; isplitr
  swap; · iexact H5
  ipureintro
  rw [View.read_writes_eq_canon _ _ _ (cover_w _ _), View.canon_unit_zero (S := S128x128) hz_w]
  simp only [View.readAt_eq_ld, h1.read_unread, h2.read_unread, h3.read_unread, h4.read_unread, h6.read_unread,
    View.readCov_unit_zero (S := S128x128) _ hz_w,
    View.ld_unit_zero (S := S2000x128) hz_x, View.ld_unit_zero (S := S128x128) hz_w, View.ld_unit_zero (S := S1x128) hz_b,
    View.ld_unit_zero (S := S2000x1) hz_g]

set_option maxHeartbeats 2000000 in
theorem sound_first6 (c : Dev nD) (E : Set ℕ) (i : grid6.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (a6 : Memref sig .tc .vmem S128x128 .f32) (h6 : a6.IsWhole)
    (hc0 : cond6_0 i) (hc1 : ¬cond6_1 i)
    (x0 : Vec F S2000x128 .f32) (x1 : Vec F S128x128 .f32) (x2 : Vec F S1x128 .f32) (x3 : Vec F S2000x1 .i32)
    (xi : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ (∃ d, owns (c : Thread nD τ) a6 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi
            ∗ owns (c : Thread nD τ) a6 fullShare (k6_pay2 x0 x1 x2 x3 k6_pay1)) -∗ K ⟨⟩))
      ⊢ wp frame (wpE (defs₀ (F := F)) Variants.none c none) E (cc6__mlp_pool_kernel i a1 h1 a2 h2 a3 h3 a4 h4 a5 h5 a6 h6) K := by
  simp only [cc6__mlp_pool_kernel_eq_skeleton]; unfold cc6__mlp_pool_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := h1.eq_unread hf0; obtain rfl := h2.eq_unread hf1; obtain rfl := h3.eq_unread hf2
  obtain rfl := h4.eq_unread hf3; obtain rfl := h5.eq_unread hf4
  sl_exec (disch := first | exact hc0 | exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  iexists _; isplitr
  swap; · iexact H5
  ipureintro
  rw [View.read_writes_eq_canon _ _ _ (cover_w _ _), View.canon_cons_unit_zero (S := S128x128) hz_w]
  sl_unfold_words
  simp only [View.readAt_eq_ld, h1.read_unread, h2.read_unread, h3.read_unread, h4.read_unread,
    View.readCov_unit_zero (S := S128x128) _ hz_w,
    View.ld_unit_zero (S := S2000x128) hz_x, View.ld_unit_zero (S := S128x128) hz_w, View.ld_unit_zero (S := S1x128) hz_b,
    View.ld_unit_zero (S := S2000x1) hz_g]

set_option maxHeartbeats 2000000 in
theorem sound_last6 (c : Dev nD) (E : Set ℕ) (i : grid6.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (a6 : Memref sig .tc .vmem S128x128 .f32) (h6 : a6.IsWhole)
    (hc0 : ¬cond6_0 i) (hc1 : cond6_1 i)
    (x0 : Vec F S2000x128 .f32) (x1 : Vec F S128x128 .f32) (x2 : Vec F S1x128 .f32) (x3 : Vec F S2000x1 .i32)
    (xs : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare xs
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare (k6_pay2 x0 x1 x2 x3 xs)
            ∗ owns (c : Thread nD τ) a6 fullShare (k6_pay2 x0 x1 x2 x3 xs)) -∗ K ⟨⟩))
      ⊢ wp frame (wpE (defs₀ (F := F)) Variants.none c none) E (cc6__mlp_pool_kernel i a1 h1 a2 h2 a3 h3 a4 h4 a5 h5 a6 h6) K := by
  simp only [cc6__mlp_pool_kernel_eq_skeleton]; unfold cc6__mlp_pool_kernel_skel
  simp only [k6_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := h1.eq_unread hf0; obtain rfl := h2.eq_unread hf1; obtain rfl := h3.eq_unread hf2
  obtain rfl := h4.eq_unread hf3; obtain rfl := h6.eq_unread hf5
  sl_exec (disch := first | exact hc0 | exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr
    swap; · iexact H4
    ipureintro
    rw [View.read_writes_eq_canon _ _ _ (cover_w _ _), View.canon_unit_zero (S := S128x128) hz_w]
    sl_unfold_words
    simp only [View.readAt_eq_ld, h1.read_unread, h2.read_unread, h3.read_unread, h4.read_unread, h6.read_unread,
      View.readCov_unit_zero (S := S128x128) _ hz_w,
      View.ld_unit_zero (S := S2000x128) hz_x, View.ld_unit_zero (S := S128x128) hz_w, View.ld_unit_zero (S := S1x128) hz_b,
      View.ld_unit_zero (S := S2000x1) hz_g]
  iexists _; isplitr
  swap; · iexact H5
  ipureintro
  sl_unfold_words
  rw [View.read_writes_eq_canon _ _ _ (cover_w _ _), View.canon_unit_zero (S := S128x128) hz_w]
  simp only [View.readAt_eq_ld, h1.read_unread, h2.read_unread, h3.read_unread, h4.read_unread, h6.read_unread,
    View.readCov_unit_zero (S := S128x128) _ hz_w,
    View.ld_unit_zero (S := S2000x128) hz_x, View.ld_unit_zero (S := S128x128) hz_w, View.ld_unit_zero (S := S1x128) hz_b,
    View.ld_unit_zero (S := S2000x1) hz_g]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
      (fun t => by rw [after6_3]; unfold Dat.blockOf iblk6; rw [A_eq6]; try rfl) t d).trans
    (by unfold Dat.fetched Dat.blockOf iblk6; rw [A_eq6]; try rfl)

theorem Phi6_of_zero (c : Dev nD) (n : ℕ) (h : n = 0) : Phi6 V c n = Pipeline.ΦA spec6 c := by subst h; rfl

theorem Phi6_of_pos (c : Dev nD) (n : ℕ) (h : n ≠ 0) :
    Phi6 V c n = iprop(owns (c : Thread nD τ) scM6 fullShare (sc6 V c n)
      ∗ Pipeline.scopedRestBut (Ix := Unit) (Name := ℕ) (U := UR sig nD τ) (Lvl := ℕ) (Val := Elt F) spec6 c [cc6_scratch0]
      ∗ ∃ r, prngReg c r) := by
  cases n with
  | zero => exact absurd rfl h
  | succ n => rfl

theorem sc6_of_zero (c : Dev nD) (n : ℕ) (h : n = 0) : sc6 V c n = k6_pay1 := by subst h; rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = Phi6 V c (t.val + 1) from rfl, Phi6_succ, sc6_succ]
  rw [show (dat6 V c).Φ t.castSucc = Phi6 V c t.val from rfl]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  unfold upd6
  have hN : t.val < 25 := lt_of_lt_of_eq t.isLt (show cfg6.N = 25 from N_6)
  by_cases hz : t.val = 0
  · have hc0 : cond6_0 (grid6.coords t) := (hcond6_0 t).mpr hz
    have hc1 : ¬cond6_1 (grid6.coords t) := fun h => by have := (hcond6_1 t).mp h; omega
    rw [Dat.leavesExact_idle (dat6 V c) 4 t (idleAt6_4 t hc1) (noFlush6_4 t hc1)]
    rw [Phi6_of_zero V c _ hz, PhiA6_eq, sc6_of_zero V c _ hz]
    iintro ⟨⟨⟨HS, Hrest⟩, Hg⟩, Ho, ⟨%d0, H0⟩, ⟨%d1, H1⟩, ⟨%d2, H2⟩, ⟨%d3, H3⟩, ⟨%d4, H4⟩⟩
    iapply (sound_first6 c Set.univ (grid6.coords t) _ _ _ _ _ _ _ _ _ _ _ _ hc0 hc1
      (xblk6 V c t) (wblk6 V c t) (bblk6 V c t) (gblk6 V c t) ((dat6 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    iexists _; iexact H4
  · have hc0 : ¬cond6_0 (grid6.coords t) := fun h => hz ((hcond6_0 t).mp h)
    rw [Phi6_of_pos V c _ hz]
    by_cases hl : t.val = 24
    · have hc1 : cond6_1 (grid6.coords t) := (hcond6_1 t).mpr hl
      rw [show (dat6 V c).leavesExact 4 t = owns (c : Thread nD τ) (st6_4 t) fullShare ((dat6 V c).after 4 t) from by
        unfold Dat.leavesExact; rw [liveAt6_4 t hc1], after6_4, sc6_succ]
      unfold upd6
      iintro ⟨⟨HS, Hrest, Hg⟩, Ho, ⟨%d0, H0⟩, ⟨%d1, H1⟩, ⟨%d2, H2⟩, ⟨%d3, H3⟩, ⟨%d4, H4⟩⟩
      iapply (sound_last6 c Set.univ (grid6.coords t) _ _ _ _ _ _ _ _ _ _ _ _ hc0 hc1
        (xblk6 V c t) (wblk6 V c t) (bblk6 V c t) (gblk6 V c t) (sc6 V c t.val) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc1 : ¬cond6_1 (grid6.coords t) := fun h => hl ((hcond6_1 t).mp h)
      rw [Dat.leavesExact_idle (dat6 V c) 4 t (idleAt6_4 t hc1) (noFlush6_4 t hc1)]
      iintro ⟨⟨HS, Hrest, Hg⟩, Ho, ⟨%d0, H0⟩, ⟨%d1, H1⟩, ⟨%d2, H2⟩, ⟨%d3, H3⟩, ⟨%d4, H4⟩⟩
      iapply (sound_mid6 c Set.univ (grid6.coords t) _ _ _ _ _ _ _ _ _ _ _ _ hc0 hc1
        (xblk6 V c t) (wblk6 V c t) (bblk6 V c t) (gblk6 V c t) ((dat6 V c).before 4 t d4) (sc6 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Run.lean ====
import proofs.«401955_j22634477650042_2_alg».proof.Proof.Gen.Kernel.Regions
import proofs.«401955_j22634477650042_2_alg».proof.Proof.K.RegMM
import proofs.«401955_j22634477650042_2_alg».proof.Proof.K.RegCB
import proofs.«401955_j22634477650042_2_alg».proof.Proof.K.RegMM2
import proofs.«401955_j22634477650042_2_alg».proof.Proof.K.RegCB3
import proofs.«401955_j22634477650042_2_alg».proof.Proof.K.RegMM4
import proofs.«401955_j22634477650042_2_alg».proof.Proof.K.RegCB5
import proofs.«401955_j22634477650042_2_alg».proof.Proof.K.RegPool
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) := fun c b => W c b

def o4 : (r : Ref sig .tc) → (c : Dev nD) → Buf (Elt F) ((c : Thread nD τ).loc r) := fun r c =>
  Function.update (β := fun r : Ref sig .tc => Buf (Elt F) ((c : Thread nD τ).loc r)) (fun r => V3 m c r) main_v33
    ((dat0 (atTc (V3 m)) c).arrAt 2 cfg0.N) r
def po4 : Outs (F := F) := fun J => match J with | _ => o4 m

def o6 : (r : Ref sig .tc) → (c : Dev nD) → Buf (Elt F) ((c : Thread nD τ).loc r) := fun r c =>
  Function.update (β := fun r : Ref sig .tc => Buf (Elt F) ((c : Thread nD τ).loc r)) (fun r => V5 m (po4 m) c r) main_v55
    ((dat1 (atTc (V5 m (po4 m))) c).arrAt 7 cfg1.N) r
def po6 : Outs (F := F) := fun J => match J with | 4 => o4 m | _ => o6 m

def o8 : (r : Ref sig .tc) → (c : Dev nD) → Buf (Elt F) ((c : Thread nD τ).loc r) := fun r c =>
  Function.update (β := fun r : Ref sig .tc => Buf (Elt F) ((c : Thread nD τ).loc r)) (fun r => V7 m (po6 m) c r) main_v58
    ((dat2 (atTc (V7 m (po6 m))) c).arrAt 2 cfg2.N) r
def po8 : Outs (F := F) := fun J => match J with | 4 => o4 m | 6 => o6 m | _ => o8 m

def o10 : (r : Ref sig .tc) → (c : Dev nD) → Buf (Elt F) ((c : Thread nD τ).loc r) := fun r c =>
  Function.update (β := fun r : Ref sig .tc => Buf (Elt F) ((c : Thread nD τ).loc r)) (fun r => V9 m (po8 m) c r) main_v80
    ((dat3 (atTc (V9 m (po8 m))) c).arrAt 7 cfg3.N) r
def po10 : Outs (F := F) := fun J => match J with | 4 => o4 m | 6 => o6 m | 8 => o8 m | _ => o10 m

def o12 : (r : Ref sig .tc) → (c : Dev nD) → Buf (Elt F) ((c : Thread nD τ).loc r) := fun r c =>
  Function.update (β := fun r : Ref sig .tc => Buf (Elt F) ((c : Thread nD τ).loc r)) (fun r => V11 m (po10 m) c r) main_v83
    ((dat4 (atTc (V11 m (po10 m))) c).arrAt 2 cfg4.N) r
def po12 : Outs (F := F) := fun J => match J with | 4 => o4 m | 6 => o6 m | 8 => o8 m | 10 => o10 m | _ => o12 m

def o14 : (r : Ref sig .tc) → (c : Dev nD) → Buf (Elt F) ((c : Thread nD τ).loc r) := fun r c =>
  Function.update (β := fun r : Ref sig .tc => Buf (Elt F) ((c : Thread nD τ).loc r)) (fun r => V13 m (po12 m) c r) main_v105
    ((dat5 (atTc (V13 m (po12 m))) c).arrAt 7 cfg5.N) r
def po14 : Outs (F := F) := fun J => match J with | 4 => o4 m | 6 => o6 m | 8 => o8 m | 10 => o10 m | 12 => o12 m | _ => o14 m

def o16 : (r : Ref sig .tc) → (c : Dev nD) → Buf (Elt F) ((c : Thread nD τ).loc r) := fun r c =>
  Function.update (β := fun r : Ref sig .tc => Buf (Elt F) ((c : Thread nD τ).loc r)) (fun r => V15 m (po14 m) c r) main_v107
    ((dat6 (atTc (V15 m (po14 m))) c).arrAt 4 cfg6.N) r
def po16 : Outs (F := F) := fun J => match J with | 4 => o4 m | 6 => o6 m | 8 => o8 m | 10 => o10 m | 12 => o12 m | 14 => o14 m | _ => o16 m

def outs : Outs (F := F) := po16 m

theorem outs_4 (c : Dev nD) : outs m 4 main_v33 c = (dat0 (atTc (V3 m)) c).arrAt 2 cfg0.N :=
  Function.update_self (β := fun r : Ref sig .tc => Buf (Elt F) ((c : Thread nD τ).loc r)) main_v33
    ((dat0 (atTc (V3 m)) c).arrAt 2 cfg0.N) (fun r => V3 m c r)
theorem outs_6 (c : Dev nD) : outs m 6 main_v55 c = (dat1 (atTc (V5 m (outs m))) c).arrAt 7 cfg1.N :=
  Function.update_self (β := fun r : Ref sig .tc => Buf (Elt F) ((c : Thread nD τ).loc r)) main_v55
    ((dat1 (atTc (V5 m (outs m))) c).arrAt 7 cfg1.N) (fun r => V5 m (outs m) c r)
theorem outs_8 (c : Dev nD) : outs m 8 main_v58 c = (dat2 (atTc (V7 m (outs m))) c).arrAt 2 cfg2.N :=
  Function.update_self (β := fun r : Ref sig .tc => Buf (Elt F) ((c : Thread nD τ).loc r)) main_v58
    ((dat2 (atTc (V7 m (outs m))) c).arrAt 2 cfg2.N) (fun r => V7 m (outs m) c r)
theorem outs_10 (c : Dev nD) : outs m 10 main_v80 c = (dat3 (atTc (V9 m (outs m))) c).arrAt 7 cfg3.N :=
  Function.update_self (β := fun r : Ref sig .tc => Buf (Elt F) ((c : Thread nD τ).loc r)) main_v80
    ((dat3 (atTc (V9 m (outs m))) c).arrAt 7 cfg3.N) (fun r => V9 m (outs m) c r)
theorem outs_12 (c : Dev nD) : outs m 12 main_v83 c = (dat4 (atTc (V11 m (outs m))) c).arrAt 2 cfg4.N :=
  Function.update_self (β := fun r : Ref sig .tc => Buf (Elt F) ((c : Thread nD τ).loc r)) main_v83
    ((dat4 (atTc (V11 m (outs m))) c).arrAt 2 cfg4.N) (fun r => V11 m (outs m) c r)
theorem outs_14 (c : Dev nD) : outs m 14 main_v105 c = (dat5 (atTc (V13 m (outs m))) c).arrAt 7 cfg5.N :=
  Function.update_self (β := fun r : Ref sig .tc => Buf (Elt F) ((c : Thread nD τ).loc r)) main_v105
    ((dat5 (atTc (V13 m (outs m))) c).arrAt 7 cfg5.N) (fun r => V13 m (outs m) c r)
theorem outs_16 (c : Dev nD) : outs m 16 main_v107 c = (dat6 (atTc (V15 m (outs m))) c).arrAt 4 cfg6.N :=
  Function.update_self (β := fun r : Ref sig .tc => Buf (Elt F) ((c : Thread nD τ).loc r)) main_v107
    ((dat6 (atTc (V15 m (outs m))) c).arrAt 4 cfg6.N) (fun r => V15 m (outs m) c r)

theorem arrAt_exit {cfg : Cfg sig Λ₀} {c : Dev nD} (dat : Dat τ (Elt F) Unit ℕ (UR sig nD τ) ℕ cfg c)
    (Vin Vout : (b : Ref sig .tc) → Buf (Elt F) ((c : Thread nD τ).loc b)) (ow : Fin cfg.W)
    (hA : ∀ w, dat.A w = Vin (Pipeline.arrRef cfg.spec w))
    (hin : ∀ w, w ≠ ow → (cfg.win w).isOut = false)
    (hne : ∀ w, w ≠ ow → Vout (Pipeline.arrRef cfg.spec w) = Vin (Pipeline.arrRef cfg.spec w))
    (hout : dat.arrAt ow cfg.N = Vout (Pipeline.arrRef cfg.spec ow)) (w : Fin cfg.W) :
    dat.arrAt w cfg.N = Vout (Pipeline.arrRef cfg.spec w) := by
  by_cases hw : w = ow
  · subst hw; exact hout
  · exact ((dat.arrAt_in w (hin w hw) _).trans (hA w)).trans (hne w hw).symm

theorem V4_at (c : Dev nD) : V4 m (outs m) c main_v33 = outs m 4 main_v33 c :=
  Function.update_self (β := fun b : DevRef τ sig => Buf (Elt F) ((c : Thread nD τ).1, b)) _ _ _
theorem hF0 (c : Dev nD) : ∀ w : Fin cfg0.W, (dat0 (atTc (V3 m)) c).arrAt w cfg0.N = atTc (V4 m (outs m)) c (Pipeline.arrRef spec0 w) :=
  arrAt_exit (dat0 (atTc (V3 m)) c) (atTc (V3 m) c) (atTc (V4 m (outs m)) c) 2 (fun _ => rfl) (by decide)
    (fun w hw => V4_of m (outs m) c _ fun h => hw (launch0.win.arr_inj (a₂ := 2) (List.mem_singleton.mp h)))
    ((outs_4 m c).symm.trans (V4_at m c).symm)
theorem hrest0 (c : Dev nD) : ∀ b, b ∉ Finset.univ.image (Pipeline.arrRef spec0) → atTc (V4 m (outs m)) c b = atTc (V3 m) c b :=
  fun b hb => V4_of m (outs m) c b fun h => hb (Finset.mem_image.mpr ⟨2, Finset.mem_univ _, (List.mem_singleton.mp h).symm⟩)

theorem V6_at (c : Dev nD) : V6 m (outs m) c main_v55 = outs m 6 main_v55 c :=
  Function.update_self (β := fun b : DevRef τ sig => Buf (Elt F) ((c : Thread nD τ).1, b)) _ _ _
theorem hF1 (c : Dev nD) : ∀ w : Fin cfg1.W, (dat1 (atTc (V5 m (outs m))) c).arrAt w cfg1.N = atTc (V6 m (outs m)) c (Pipeline.arrRef spec1 w) :=
  arrAt_exit (dat1 (atTc (V5 m (outs m))) c) (atTc (V5 m (outs m)) c) (atTc (V6 m (outs m)) c) 7 (fun _ => rfl) (by decide)
    (fun w hw => V6_of m (outs m) c _ fun h => hw (launch1.win.arr_inj (a₂ := 7) (List.mem_singleton.mp h)))
    ((outs_6 m c).symm.trans (V6_at m c).symm)
theorem hrest1 (c : Dev nD) : ∀ b, b ∉ Finset.univ.image (Pipeline.arrRef spec1) → atTc (V6 m (outs m)) c b = atTc (V5 m (outs m)) c b :=
  fun b hb => V6_of m (outs m) c b fun h => hb (Finset.mem_image.mpr ⟨7, Finset.mem_univ _, (List.mem_singleton.mp h).symm⟩)

theorem V8_at (c : Dev nD) : V8 m (outs m) c main_v58 = outs m 8 main_v58 c :=
  Function.update_self (β := fun b : DevRef τ sig => Buf (Elt F) ((c : Thread nD τ).1, b)) _ _ _
theorem hF2 (c : Dev nD) : ∀ w : Fin cfg2.W, (dat2 (atTc (V7 m (outs m))) c).arrAt w cfg2.N = atTc (V8 m (outs m)) c (Pipeline.arrRef spec2 w) :=
  arrAt_exit (dat2 (atTc (V7 m (outs m))) c) (atTc (V7 m (outs m)) c) (atTc (V8 m (outs m)) c) 2 (fun _ => rfl) (by decide)
    (fun w hw => V8_of m (outs m) c _ fun h => hw (launch2.win.arr_inj (a₂ := 2) (List.mem_singleton.mp h)))
    ((outs_8 m c).symm.trans (V8_at m c).symm)
theorem hrest2 (c : Dev nD) : ∀ b, b ∉ Finset.univ.image (Pipeline.arrRef spec2) → atTc (V8 m (outs m)) c b = atTc (V7 m (outs m)) c b :=
  fun b hb => V8_of m (outs m) c b fun h => hb (Finset.mem_image.mpr ⟨2, Finset.mem_univ _, (List.mem_singleton.mp h).symm⟩)

theorem V10_at (c : Dev nD) : V10 m (outs m) c main_v80 = outs m 10 main_v80 c :=
  Function.update_self (β := fun b : DevRef τ sig => Buf (Elt F) ((c : Thread nD τ).1, b)) _ _ _
theorem hF3 (c : Dev nD) : ∀ w : Fin cfg3.W, (dat3 (atTc (V9 m (outs m))) c).arrAt w cfg3.N = atTc (V10 m (outs m)) c (Pipeline.arrRef spec3 w) :=
  arrAt_exit (dat3 (atTc (V9 m (outs m))) c) (atTc (V9 m (outs m)) c) (atTc (V10 m (outs m)) c) 7 (fun _ => rfl) (by decide)
    (fun w hw => V10_of m (outs m) c _ fun h => hw (launch3.win.arr_inj (a₂ := 7) (List.mem_singleton.mp h)))
    ((outs_10 m c).symm.trans (V10_at m c).symm)
theorem hrest3 (c : Dev nD) : ∀ b, b ∉ Finset.univ.image (Pipeline.arrRef spec3) → atTc (V10 m (outs m)) c b = atTc (V9 m (outs m)) c b :=
  fun b hb => V10_of m (outs m) c b fun h => hb (Finset.mem_image.mpr ⟨7, Finset.mem_univ _, (List.mem_singleton.mp h).symm⟩)

theorem V12_at (c : Dev nD) : V12 m (outs m) c main_v83 = outs m 12 main_v83 c :=
  Function.update_self (β := fun b : DevRef τ sig => Buf (Elt F) ((c : Thread nD τ).1, b)) _ _ _
theorem hF4 (c : Dev nD) : ∀ w : Fin cfg4.W, (dat4 (atTc (V11 m (outs m))) c).arrAt w cfg4.N = atTc (V12 m (outs m)) c (Pipeline.arrRef spec4 w) :=
  arrAt_exit (dat4 (atTc (V11 m (outs m))) c) (atTc (V11 m (outs m)) c) (atTc (V12 m (outs m)) c) 2 (fun _ => rfl) (by decide)
    (fun w hw => V12_of m (outs m) c _ fun h => hw (launch4.win.arr_inj (a₂ := 2) (List.mem_singleton.mp h)))
    ((outs_12 m c).symm.trans (V12_at m c).symm)
theorem hrest4 (c : Dev nD) : ∀ b, b ∉ Finset.univ.image (Pipeline.arrRef spec4) → atTc (V12 m (outs m)) c b = atTc (V11 m (outs m)) c b :=
  fun b hb => V12_of m (outs m) c b fun h => hb (Finset.mem_image.mpr ⟨2, Finset.mem_univ _, (List.mem_singleton.mp h).symm⟩)

theorem V14_at (c : Dev nD) : V14 m (outs m) c main_v105 = outs m 14 main_v105 c :=
  Function.update_self (β := fun b : DevRef τ sig => Buf (Elt F) ((c : Thread nD τ).1, b)) _ _ _
theorem hF5 (c : Dev nD) : ∀ w : Fin cfg5.W, (dat5 (atTc (V13 m (outs m))) c).arrAt w cfg5.N = atTc (V14 m (outs m)) c (Pipeline.arrRef spec5 w) :=
  arrAt_exit (dat5 (atTc (V13 m (outs m))) c) (atTc (V13 m (outs m)) c) (atTc (V14 m (outs m)) c) 7 (fun _ => rfl) (by decide)
    (fun w hw => V14_of m (outs m) c _ fun h => hw (launch5.win.arr_inj (a₂ := 7) (List.mem_singleton.mp h)))
    ((outs_14 m c).symm.trans (V14_at m c).symm)
theorem hrest5 (c : Dev nD) : ∀ b, b ∉ Finset.univ.image (Pipeline.arrRef spec5) → atTc (V14 m (outs m)) c b = atTc (V13 m (outs m)) c b :=
  fun b hb => V14_of m (outs m) c b fun h => hb (Finset.mem_image.mpr ⟨7, Finset.mem_univ _, (List.mem_singleton.mp h).symm⟩)

theorem V16_at (c : Dev nD) : V16 m (outs m) c main_v107 = outs m 16 main_v107 c :=
  Function.update_self (β := fun b : DevRef τ sig => Buf (Elt F) ((c : Thread nD τ).1, b)) _ _ _
theorem hF6 (c : Dev nD) : ∀ w : Fin cfg6.W, (dat6 (atTc (V15 m (outs m))) c).arrAt w cfg6.N = atTc (V16 m (outs m)) c (Pipeline.arrRef spec6 w) :=
  arrAt_exit (dat6 (atTc (V15 m (outs m))) c) (atTc (V15 m (outs m)) c) (atTc (V16 m (outs m)) c) 4 (fun _ => rfl) (by decide)
    (fun w hw => V16_of m (outs m) c _ fun h => hw (launch6.win.arr_inj (a₂ := 4) (List.mem_singleton.mp h)))
    ((outs_16 m c).symm.trans (V16_at m c).symm)
theorem hrest6 (c : Dev nD) : ∀ b, b ∉ Finset.univ.image (Pipeline.arrRef spec6) → atTc (V16 m (outs m)) c b = atTc (V15 m (outs m)) c b :=
  fun b hb => V16_of m (outs m) c b fun h => hb (Finset.mem_image.mpr ⟨4, Finset.mem_univ _, (List.mem_singleton.mp h).symm⟩)

def pdats : (p : Fin 7) → (c : Dev nD) → Dat τ (Elt F) Unit ℕ (UR sig nD τ) ℕ (cfgs p) c
  | ⟨0, _⟩ => fun c => dat0 (atTc (V3 m)) c
  | ⟨1, _⟩ => fun c => dat1 (atTc (V5 m (outs m))) c
  | ⟨2, _⟩ => fun c => dat2 (atTc (V7 m (outs m))) c
  | ⟨3, _⟩ => fun c => dat3 (atTc (V9 m (outs m))) c
  | ⟨4, _⟩ => fun c => dat4 (atTc (V11 m (outs m))) c
  | ⟨5, _⟩ => fun c => dat5 (atTc (V13 m (outs m))) c
  | ⟨6, _⟩ => fun c => dat6 (atTc (V15 m (outs m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 8 → Dev nD → sProp 𝕄 := fun _ c => R (F := F) c

set_option backward.isDefEq.respectTransparency.types false in
def mkReg (p : Fin 7) (hl : Pipeline.LaunchFacts (nD := nD) (τ := τ) cfgs p) (Vin Vout : Dev nD → Valuation τ sig (Elt F))
    (hb : ∀ c, BodyObligation (pdats m p c) (defs₀ (F := F)) 𝒱₀ () Set.univ)
    (hq : ∀ c w, (pdats m p c).q w = fullShare)
    (hA : ∀ c w, (pdats m p c).A w = atTc Vin c (Pipeline.arrRef (cfgs p).spec w))
    (howed : ∀ c t, (pdats m p c).owed t = 0) (hrec : ∀ c, (pdats m p c).recorded 0 = Set.univ)
    (hΦin : ∀ c, Pipeline.ΦA (cfgs p).spec c ⊢ (pdats m p c).Φ 0)
    (hΦout : ∀ c, (pdats m p c).Φ (Fin.last _) ⊢ Pipeline.ΦA (cfgs p).spec c)
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) hl.win hl.arr_whole c
      ((pdats m p c).share_full (hq c)) (atTc Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c ▸ trivial)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Vin c) (atTc Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := mkReg m 0 launch0 (V3 m) (V4 m (outs m)) (body_obligation0 (atTc (V3 m)))
  (fun _ _ => rfl) (fun _ _ => rfl) (fun _ _ => rfl) (fun _ => rfl) (fun _ => .rfl) (fun _ => .rfl) (hF0 m) (hrest0 m)

def reg1 := mkReg m 1 launch1 (V5 m (outs m)) (V6 m (outs m)) (body_obligation1 (atTc (V5 m (outs m))))
  (fun _ _ => rfl) (fun _ _ => rfl) (fun _ _ => rfl) (fun _ => rfl) (fun _ => .rfl) (fun _ => .rfl) (hF1 m) (hrest1 m)

def reg2 := mkReg m 2 launch2 (V7 m (outs m)) (V8 m (outs m)) (body_obligation2 (atTc (V7 m (outs m))))
  (fun _ _ => rfl) (fun _ _ => rfl) (fun _ _ => rfl) (fun _ => rfl) (fun _ => .rfl) (fun _ => .rfl) (hF2 m) (hrest2 m)

def reg3 := mkReg m 3 launch3 (V9 m (outs m)) (V10 m (outs m)) (body_obligation3 (atTc (V9 m (outs m))))
  (fun _ _ => rfl) (fun _ _ => rfl) (fun _ _ => rfl) (fun _ => rfl) (fun _ => .rfl) (fun _ => .rfl) (hF3 m) (hrest3 m)

def reg4 := mkReg m 4 launch4 (V11 m (outs m)) (V12 m (outs m)) (body_obligation4 (atTc (V11 m (outs m))))
  (fun _ _ => rfl) (fun _ _ => rfl) (fun _ _ => rfl) (fun _ => rfl) (fun _ => .rfl) (fun _ => .rfl) (hF4 m) (hrest4 m)

def reg5 := mkReg m 5 launch5 (V13 m (outs m)) (V14 m (outs m)) (body_obligation5 (atTc (V13 m (outs m))))
  (fun _ _ => rfl) (fun _ _ => rfl) (fun _ _ => rfl) (fun _ => rfl) (fun _ => .rfl) (fun _ => .rfl) (hF5 m) (hrest5 m)

def reg6 := mkReg m 6 launch6 (V15 m (outs m)) (V16 m (outs m)) (body_obligation6 (atTc (V15 m (outs m))))
  (fun _ _ => rfl) (fun _ _ => rfl) (fun _ _ => rfl) (fun _ => rfl) (Φ6_in _) (Φ6_out _) (hF6 m) (hrest6 m)

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)

end Cert.Kernel.Hand

end
-- ==== Proof.KI.RegMM.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

def out0_2 (x0 : Vec F S2000x128 .f32) (x1 : Vec F S128x128 .f32) : Vec F S2000x128 .bf16 :=
  View.canon [⟨r0_0, k0_pay1 (View.ld x0 r0_0) (View.ld x1 r0_1)⟩]

theorem cover0_2 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

set_option maxHeartbeats 1000000 in
theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_xw_kernel i arg1 harg1 arg2 harg2 arg3 harg3) K := by
  simp only [cc0__matmul_xw_kernel_eq_skeleton]; unfold cc0__matmul_xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.RegCB.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S2000x1 := Rect.unit (s := S2000x1) ![0, 0] S2000x1.size inb_S2000x1_S2000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

def out1_7 (x0 : Vec F S2000x128 .f32) (x1 : Vec F S2000x128 .bf16) (x2 : Vec F S2000x1 .f32) (x3 : Vec F S1x128 .f32)
    (x4 : Vec F S128x128 .f32) (x5 : Vec F S1x128 .f32) (x6 : Vec F S2000x128 .f32) : Vec F S2000x128 .f32 :=
  View.canon [⟨r1_0, k1_pay1 (View.ld x1 r1_0) (View.ld x0 r1_0) (View.ld x2 r1_1) (View.ld x6 r1_0) (View.ld x4 r1_3)
    (View.ld x3 r1_2) (View.ld x5 r1_2) (View.ld x6 r1_0)⟩]

theorem cover1_7 (p0 : Vec F S2000x128 .f32) (y : S2000x128.Idx) :
    ∃ pc ∈ ([⟨r1_0, p0⟩] : List (View.Piece (Elt F) S2000x128 .f32)), y ∈ pc.1.set :=
  View.cover_of_tiled [⟨r1_0, p0⟩] S2000x128.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

set_option maxHeartbeats 1000000 in
theorem sound_kernel1 (c : Dev nD) (E : Set ℕ) (i : grid1.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x128 .f32) (harg8 : arg8.IsWhole)
    (x0 : Vec F S2000x128 .f32) (x1 : Vec F S2000x128 .bf16) (x2 : Vec F S2000x1 .f32) (x3 : Vec F S1x128 .f32) (x4 : Vec F S128x128 .f32) (x5 : Vec F S1x128 .f32) (x6 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__combine_kernel i arg1 harg1 arg2 harg2 arg3 harg3 arg4 harg4 arg5 harg5 arg6 harg6 arg7 harg7 arg8 harg8) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegMM2.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0

def out2_2 (x0 : Vec F S2000x128 .f32) (x1 : Vec F S128x128 .f32) : Vec F S2000x128 .bf16 :=
  View.canon [⟨r2_0, k2_pay1 (View.ld x0 r2_0) (View.ld x1 r2_1)⟩]

theorem cover2_2 (p0 : Vec F S2000x128 .bf16) (y : S2000x128.Idx) :
    ∃ pc ∈ ([⟨r2_0, p0⟩] : List (View.Piece (Elt F) S2000x128 .bf16)), y ∈ pc.1.set :=
  View.cover_of_tiled [⟨r2_0, p0⟩] S2000x128.size (by rfl) y

set_option maxHeartbeats 1000000 in
theorem sound_kernel2 (c : Dev nD) (E : Set ℕ) (i : grid2.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__matmul_xw_kernel i arg1 harg1 arg2 harg2 arg3 harg3) K := by
  simp only [cc2__matmul_xw_kernel_eq_skeleton]; unfold cc2__matmul_xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.RegCB3.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x128 := Rect.unit (s := S2000x128) ![0, 0] S2000x128.size inb_S2000x128_S2000x128_0_0
abbrev r3_1 : Rect S2000x1 := Rect.unit (s := S2000x1) ![0, 0] S2000x1.size inb_S2000x1_S2000x1_0_0
abbrev r3_2 : Rect S1x128 := Rect.unit (s := S1x128) ![0, 0] S1x128.size inb_S1x128_S1x128_0_0
abbrev r3_3 : Rect S128x128 := Rect.unit (s := S128x128) ![0, 0] S128x128.size inb_S128x128_S128x128_0_0

def out3_7 (x0 : Vec F S2000x128 .f32) (x1 : Vec F S2000x128 .bf16) (x2 : Vec F S2000x1 .f32) (x3 : Vec F S1x128 .f32)
    (x4 : Vec F S128x128 .f32) (x5 : Vec F S1x128 .f32) (x6 : Vec F S2000x128 .f32) : Vec F S2000x128 .f32 :=
  View.canon [⟨r3_0, k3_pay1 (View.ld x1 r3_0) (View.ld x0 r3_0) (View.ld x2 r3_1) (View.ld x6 r3_0) (View.ld x4 r3_3)
    (View.ld x3 r3_2) (View.ld x5 r3_2) (View.ld x6 r3_0)⟩]

theorem cover3_7 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t =
    out3_7 (iblk3 V c 0 t) (iblk3 V c 1 t) (iblk3 V c 2 t) (iblk3 V c 3 t) (iblk3 V c 4 t) (iblk3 V c 5 t) (iblk3 V c 6 t) := by
  dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)

set_option maxHeartbeats 1000000 in
theorem sound_kernel3 (c : Dev nD) (E : Set ℕ) (i : grid3.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x128 .f32) (harg8 : arg8.IsWhole)
    (x0 : Vec F S2000x128 .f32) (x1 : Vec F S2000x128 .bf16) (x2 : Vec F S2000x1 .f32) (x3 : Vec F S1x128 .f32) (x4 : Vec F S128x128 .f32) (x5 : Vec F S1x128 .f32) (x6 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out3_7 x0 x1 x2 x3 x4 x5 x6)) -∗ K ⟨⟩))
      ⊢ wp frame (wpE (defs₀ (F := F)) Variants.none c none) E
          (cc3__combine_kernel i arg1 harg1 arg2 harg2 arg3 harg3 arg4 harg4 arg5 harg5 arg6 harg6 arg7 harg7 arg8 harg8) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RegMM4.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S2000x128 := Rect.unit (s := S2000x128) ![0, 0] S2000x128.size inb_S2000x128_S2000x128_0_0
abbrev r4_1 : Rect S128x128 := Rect.unit (s := S128x128) ![0, 0] S128x128.size inb_S128x128_S128x128_0_0

def out4_2 (x0 : Vec F S2000x128 .f32) (x1 : Vec F S128x128 .f32) : Vec F S2000x128 .bf16 :=
  View.canon [⟨r4_0, k4_pay1 (View.ld x0 r4_0) (View.ld x1 r4_1)⟩]

theorem cover4_2 (p0 : Vec F S2000x128 .bf16) (y : S2000x128.Idx) :
    ∃ pc ∈ ([⟨r4_0, p0⟩] : List (View.Piece (Elt F) S2000x128 .bf16)), y ∈ pc.1.set :=
  View.cover_of_tiled [⟨r4_0, p0⟩] S2000x128.size (by rfl) y

set_option maxHeartbeats 1000000 in
theorem sound_kernel4 (c : Dev nD) (E : Set ℕ) (i : grid4.Coords)
    (arg1 : Memref sig .tc .vmem S2000x128 .f32) (harg1 : arg1.IsWhole)
    (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out4_2 x0 x1)) -∗ K ⟨⟩))
      ⊢ wp frame (wpE (defs₀ (F := F)) Variants.none c none) E (cc4__matmul_xw_kernel i arg1 harg1 arg2 harg2 arg3 harg3) K := by
  simp only [cc4__matmul_xw_kernel_eq_skeleton]; unfold cc4__matmul_xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.RegCB5.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x128 := Rect.unit (s := S2000x128) ![0, 0] S2000x128.size inb_S2000x128_S2000x128_0_0
abbrev r5_1 : Rect S2000x1 := Rect.unit (s := S2000x1) ![0, 0] S2000x1.size inb_S2000x1_S2000x1_0_0
abbrev r5_2 : Rect S1x128 := Rect.unit (s := S1x128) ![0, 0] S1x128.size inb_S1x128_S1x128_0_0
abbrev r5_3 : Rect S128x128 := Rect.unit (s := S128x128) ![0, 0] S128x128.size inb_S128x128_S128x128_0_0

def out5_7 (x0 : Vec F S2000x128 .f32) (x1 : Vec F S2000x128 .bf16) (x2 : Vec F S2000x1 .f32) (x3 : Vec F S1x128 .f32)
    (x4 : Vec F S128x128 .f32) (x5 : Vec F S1x128 .f32) (x6 : Vec F S2000x128 .f32) : Vec F S2000x128 .f32 :=
  View.canon [⟨r5_0, k5_pay1 (View.ld x1 r5_0) (View.ld x0 r5_0) (View.ld x2 r5_1) (View.ld x6 r5_0) (View.ld x4 r5_3)
    (View.ld x3 r5_2) (View.ld x5 r5_2) (View.ld x6 r5_0)⟩]

theorem cover5_7 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t =
    out5_7 (iblk5 V c 0 t) (iblk5 V c 1 t) (iblk5 V c 2 t) (iblk5 V c 3 t) (iblk5 V c 4 t) (iblk5 V c 5 t) (iblk5 V c 6 t) := by
  dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)

set_option maxHeartbeats 1000000 in
theorem sound_kernel5 (c : Dev nD) (E : Set ℕ) (i : grid5.Coords)
    (arg1 : Memref sig .tc .vmem S2000x128 .f32) (harg1 : arg1.IsWhole)
    (arg2 : Memref sig .tc .vmem S2000x128 .bf16) (harg2 : arg2.IsWhole)
    (arg3 : Memref sig .tc .vmem S2000x1 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x128 .f32) (harg8 : arg8.IsWhole)
    (x0 : Vec F S2000x128 .f32) (x1 : Vec F S2000x128 .bf16) (x2 : Vec F S2000x1 .f32) (x3 : Vec F S1x128 .f32) (x4 : Vec F S128x128 .f32) (x5 : Vec F S1x128 .f32) (x6 : Vec F S2000x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out5_7 x0 x1 x2 x3 x4 x5 x6)) -∗ K ⟨⟩))
      ⊢ wp frame (wpE (defs₀ (F := F)) Variants.none c none) E
          (cc5__combine_kernel i arg1 harg1 arg2 harg2 arg3 harg3 arg4 harg4 arg5 harg5 arg6 harg6 arg7 harg7 arg8 harg8) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover5_7 _)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel5 c Set.univ _ _ _ _ _ _ _ _ _ _ _ _ _ _ _ _ _
    (iblk5 V c 0 t) (iblk5 V c 1 t) (iblk5 V c 2 t) (iblk5 V c 3 t) (iblk5 V c 4 t) (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RegPool.lean ====
import proofs.«401955_j22634477650042_2_alg».proof.Proof.Gen.KernelIdeal.Launch
import proofs.«401955_j22634477650042_2_alg».proof.Proof.Gen.KernelIdeal.Skeleton
import proofs.«401955_j22634477650042_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xblk6 (c : Dev nD) (t : Fin cfg6.N) : Vec F S2000x128 .f32 := iblk6 V c 0 t
abbrev wblk6 (c : Dev nD) (t : Fin cfg6.N) : Vec F S128x128 .f32 := iblk6 V c 1 t
abbrev bblk6 (c : Dev nD) (t : Fin cfg6.N) : Vec F S1x128 .f32 := iblk6 V c 2 t
abbrev gblk6 (c : Dev nD) (t : Fin cfg6.N) : Vec F S2000x1 .i32 := iblk6 V c 3 t

def upd6 (c : Dev nD) (t : Fin cfg6.N) (s : Vec F S128x128 .f32) : Vec F S128x128 .f32 :=
  k6_pay2 (xblk6 V c t) (wblk6 V c t) (bblk6 V c t) (gblk6 V c t) s

def sc6 (c : Dev nD) : ℕ → Vec F S128x128 .f32
  | 0 => k6_pay1
  | n + 1 => if h : n < cfg6.N then upd6 V c ⟨n, h⟩ (sc6 c n) else sc6 c n

theorem sc6_zero (c : Dev nD) : sc6 V c 0 = k6_pay1 := rfl

theorem sc6_succ (c : Dev nD) (t : Fin cfg6.N) : sc6 V c (t.val + 1) = upd6 V c t (sc6 V c t.val) := by
  obtain ⟨n, hn⟩ := t
  exact (dif_pos hn)

abbrev scM6 : Memref sig .tc .vmem S128x128 .f32 := Memref.whole cc6_scratch0

def Phi6 (c : Dev nD) : ℕ → sProp 𝕄
  | 0 => Pipeline.ΦA spec6 c
  | n + 1 => iprop(owns (c : Thread nD τ) scM6 fullShare (sc6 V c (n + 1))
      ∗ Pipeline.scopedRestBut (Ix := Unit) (Name := ℕ) (U := UR sig nD τ) (Lvl := ℕ) (Val := Elt F) spec6 c [cc6_scratch0]
      ∗ ∃ r, prngReg c r)

theorem Phi6_succ (c : Dev nD) (n : ℕ) :
    Phi6 V c (n + 1) = iprop(owns (c : Thread nD τ) scM6 fullShare (sc6 V c (n + 1))
      ∗ Pipeline.scopedRestBut (Ix := Unit) (Name := ℕ) (U := UR sig nD τ) (Lvl := ℕ) (Val := Elt F) spec6 c [cc6_scratch0]
      ∗ ∃ r, prngReg c r) := rfl

theorem PhiA6_eq (c : Dev nD) :
    (Pipeline.ΦA spec6 c : sProp 𝕄)
      = iprop(iprop((∃ d, owns (c : Thread nD τ) scM6 fullShare d)
          ∗ Pipeline.scopedRestBut (Ix := Unit) (Name := ℕ) (U := UR sig nD τ) (Lvl := ℕ) (Val := Elt F) spec6 c [cc6_scratch0])
        ∗ ∃ r, prngReg c r) := by
  unfold Pipeline.ΦA; rw [scopedRest6_split]; simp only [scM6, owns_whole]; rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => sc6 V c (t.val + 1)
  Φ t := Phi6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = sc6 V c (t.val + 1) := by dsimp only [dat6]

theorem Phi6_at (c : Dev nD) (t : Fin (cfg6.N + 1)) : (dat6 V c).Φ t = Phi6 V c t.val := by dsimp only [dat6]

theorem Φ6_in (c : Dev nD) : Pipeline.ΦA spec6 c ⊢ (dat6 V c).Φ 0 := by
  rw [Phi6_at]; exact Idealize.SL.BI.Entails.refl _

theorem Φ6_out (c : Dev nD) : (dat6 V c).Φ (Fin.last cfg6.N) ⊢ Pipeline.ΦA spec6 c := by
  rw [Phi6_at, show (Fin.last cfg6.N).val = 24 + 1 from by rw [Fin.val_last]; exact N_6, Phi6_succ, PhiA6_eq]
  iintro ⟨HS, Hrest, Hg⟩
  isplitl [HS Hrest]
  · isplitl [HS]
    · iexists _; iexact HS
    iexact Hrest
  iexact Hg

abbrev cond6_0 (i : grid6.Coords) : Prop :=
  (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1
theorem hcond6_1 : ∀ t : Fin cfg6.N, cond6_1 (grid6.coords t) ↔ t.val = 24 :=
  (by decide +kernel : ∀ t : Fin grid6.N, cond6_1 (grid6.coords t) ↔ t.val = 24)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem idleAt6_4 : ∀ t : Fin cfg6.N, ¬cond6_1 (grid6.coords t) → cfg6.idle 4 (grid6.coords t) = true :=
  (by decide +kernel : ∀ t : Fin grid6.N, ¬cond6_1 (grid6.coords t) → idle6 4 (grid6.coords t) = true)
theorem noFlush6_4 : ∀ t : Fin cfg6.N, ¬cond6_1 (grid6.coords t) → (cfg6.win 4).flush t = false :=
  (by decide +kernel : ∀ t : Fin grid6.N, ¬cond6_1 (grid6.coords t) → win6_4.flush t = false)
theorem liveAt6_4 : ∀ t : Fin cfg6.N, cond6_1 (grid6.coords t) → cfg6.idle 4 (grid6.coords t) = false :=
  (by decide +kernel : ∀ t : Fin grid6.N, cond6_1 (grid6.coords t) → idle6 4 (grid6.coords t) = false)

theorem hz_x : (![0, 0] : Fin S2000x128.rank → ℕ) = fun _ => 0 := funext fun a => by fin_cases a <;> rfl
theorem hz_w : (![0, 0] : Fin S128x128.rank → ℕ) = fun _ => 0 := funext fun a => by fin_cases a <;> rfl
theorem hz_b : (![0, 0] : Fin S1x128.rank → ℕ) = fun _ => 0 := funext fun a => by fin_cases a <;> rfl
theorem hz_g : (![0, 0] : Fin S2000x1.rank → ℕ) = fun _ => 0 := funext fun a => by fin_cases a <;> rfl

theorem cover_w (p : Vec F S128x128 .f32) (L : List (View.Piece (Elt F) S128x128 .f32)) (y : S128x128.Idx) :
    ∃ pc ∈ ((⟨Rect.unit (s := S128x128) ![0, 0] S128x128.size inb_S128x128_S128x128_0_0, p⟩ : View.Piece (Elt F) S128x128 .f32) :: L), y ∈ pc.1.set :=
  ⟨_, List.mem_cons_self, View.mem_set_unit_zero hz_w inb_S128x128_S128x128_0_0 y⟩

set_option maxHeartbeats 2000000 in
theorem sound_mid6 (c : Dev nD) (E : Set ℕ) (i : grid6.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (a6 : Memref sig .tc .vmem S128x128 .f32) (h6 : a6.IsWhole)
    (hc0 : ¬cond6_0 i) (hc1 : ¬cond6_1 i)
    (x0 : Vec F S2000x128 .f32) (x1 : Vec F S128x128 .f32) (x2 : Vec F S1x128 .f32) (x3 : Vec F S2000x1 .i32)
    (xi : Vec F S128x128 .f32) (xs : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ owns (c : Thread nD τ) a6 fullShare xs
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi
            ∗ owns (c : Thread nD τ) a6 fullShare (k6_pay2 x0 x1 x2 x3 xs)) -∗ K ⟨⟩))
      ⊢ wp frame (wpE (defs₀ (F := F)) Variants.none c none) E (cc6__mlp_pool_kernel i a1 h1 a2 h2 a3 h3 a4 h4 a5 h5 a6 h6) K := by
  simp only [cc6__mlp_pool_kernel_eq_skeleton]; unfold cc6__mlp_pool_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | exact hc0 | exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  iexists _; isplitr
  swap; · iexact H5
  ipureintro
  rw [View.read_writes_eq_canon _ _ _ (cover_w _ _), View.canon_unit_zero (S := S128x128) hz_w]
  simp only [View.readAt_eq_ld, h1.read_unread, h2.read_unread, h3.read_unread, h4.read_unread, h6.read_unread,
    View.readCov_unit_zero (S := S128x128) _ hz_w,
    View.ld_unit_zero (S := S2000x128) hz_x, View.ld_unit_zero (S := S128x128) hz_w, View.ld_unit_zero (S := S1x128) hz_b,
    View.ld_unit_zero (S := S2000x1) hz_g]

set_option maxHeartbeats 2000000 in
theorem sound_first6 (c : Dev nD) (E : Set ℕ) (i : grid6.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (a6 : Memref sig .tc .vmem S128x128 .f32) (h6 : a6.IsWhole)
    (hc0 : cond6_0 i) (hc1 : ¬cond6_1 i)
    (x0 : Vec F S2000x128 .f32) (x1 : Vec F S128x128 .f32) (x2 : Vec F S1x128 .f32) (x3 : Vec F S2000x1 .i32)
    (xi : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi ∗ (∃ d, owns (c : Thread nD τ) a6 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare xi
            ∗ owns (c : Thread nD τ) a6 fullShare (k6_pay2 x0 x1 x2 x3 k6_pay1)) -∗ K ⟨⟩))
      ⊢ wp frame (wpE (defs₀ (F := F)) Variants.none c none) E (cc6__mlp_pool_kernel i a1 h1 a2 h2 a3 h3 a4 h4 a5 h5 a6 h6) K := by
  simp only [cc6__mlp_pool_kernel_eq_skeleton]; unfold cc6__mlp_pool_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := h1.eq_unread hf0; obtain rfl := h2.eq_unread hf1; obtain rfl := h3.eq_unread hf2
  obtain rfl := h4.eq_unread hf3; obtain rfl := h5.eq_unread hf4
  sl_exec (disch := first | exact hc0 | exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  iexists _; isplitr
  swap; · iexact H5
  ipureintro
  rw [View.read_writes_eq_canon _ _ _ (cover_w _ _), View.canon_cons_unit_zero (S := S128x128) hz_w]
  sl_unfold_words
  simp only [View.readAt_eq_ld, h1.read_unread, h2.read_unread, h3.read_unread, h4.read_unread,
    View.readCov_unit_zero (S := S128x128) _ hz_w,
    View.ld_unit_zero (S := S2000x128) hz_x, View.ld_unit_zero (S := S128x128) hz_w, View.ld_unit_zero (S := S1x128) hz_b,
    View.ld_unit_zero (S := S2000x1) hz_g]

set_option maxHeartbeats 2000000 in
theorem sound_last6 (c : Dev nD) (E : Set ℕ) (i : grid6.Coords)
    (a1 : Memref sig .tc .vmem S2000x128 .f32) (h1 : a1.IsWhole) (a2 : Memref sig .tc .vmem S128x128 .f32) (h2 : a2.IsWhole)
    (a3 : Memref sig .tc .vmem S1x128 .f32) (h3 : a3.IsWhole) (a4 : Memref sig .tc .vmem S2000x1 .i32) (h4 : a4.IsWhole)
    (a5 : Memref sig .tc .vmem S128x128 .f32) (h5 : a5.IsWhole) (a6 : Memref sig .tc .vmem S128x128 .f32) (h6 : a6.IsWhole)
    (hc0 : ¬cond6_0 i) (hc1 : cond6_1 i)
    (x0 : Vec F S2000x128 .f32) (x1 : Vec F S128x128 .f32) (x2 : Vec F S1x128 .f32) (x3 : Vec F S2000x1 .i32)
    (xs : Vec F S128x128 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d) ∗ owns (c : Thread nD τ) a6 fullShare xs
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare (k6_pay2 x0 x1 x2 x3 xs)
            ∗ owns (c : Thread nD τ) a6 fullShare (k6_pay2 x0 x1 x2 x3 xs)) -∗ K ⟨⟩))
      ⊢ wp frame (wpE (defs₀ (F := F)) Variants.none c none) E (cc6__mlp_pool_kernel i a1 h1 a2 h2 a3 h3 a4 h4 a5 h5 a6 h6) K := by
  simp only [cc6__mlp_pool_kernel_eq_skeleton]; unfold cc6__mlp_pool_kernel_skel
  simp only [k6_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := h1.eq_unread hf0; obtain rfl := h2.eq_unread hf1; obtain rfl := h3.eq_unread hf2
  obtain rfl := h4.eq_unread hf3; obtain rfl := h6.eq_unread hf5
  sl_exec (disch := first | exact hc0 | exact hc1)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr
    swap; · iexact H4
    ipureintro
    rw [View.read_writes_eq_canon _ _ _ (cover_w _ _), View.canon_unit_zero (S := S128x128) hz_w]
    sl_unfold_words
    simp only [View.readAt_eq_ld, h1.read_unread, h2.read_unread, h3.read_unread, h4.read_unread, h6.read_unread,
      View.readCov_unit_zero (S := S128x128) _ hz_w,
      View.ld_unit_zero (S := S2000x128) hz_x, View.ld_unit_zero (S := S128x128) hz_w, View.ld_unit_zero (S := S1x128) hz_b,
      View.ld_unit_zero (S := S2000x1) hz_g]
  iexists _; isplitr
  swap; · iexact H5
  ipureintro
  sl_unfold_words
  rw [View.read_writes_eq_canon _ _ _ (cover_w _ _), View.canon_unit_zero (S := S128x128) hz_w]
  simp only [View.readAt_eq_ld, h1.read_unread, h2.read_unread, h3.read_unread, h4.read_unread, h6.read_unread,
    View.readCov_unit_zero (S := S128x128) _ hz_w,
    View.ld_unit_zero (S := S2000x128) hz_x, View.ld_unit_zero (S := S128x128) hz_w, View.ld_unit_zero (S := S1x128) hz_b,
    View.ld_unit_zero (S := S2000x1) hz_g]

theorem before6_0 (c : Dev nD) (t : Fin cfg6.N) (d) : (dat6 V c).before 0 t d = iblk6 V c 0 t :=
  ((dat6 V c).before_in_eq_fetched 0 rfl (fun _ => rfl) (fun _ _ _ => rfl)
      (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
      (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
      (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
      (fun t => by rw [after6_3]; unfold Dat.blockOf iblk6; rw [A_eq6]; try rfl) t d).trans
    (by unfold Dat.fetched Dat.blockOf iblk6; rw [A_eq6]; try rfl)

theorem Phi6_of_zero (c : Dev nD) (n : ℕ) (h : n = 0) : Phi6 V c n = Pipeline.ΦA spec6 c := by subst h; rfl

theorem Phi6_of_pos (c : Dev nD) (n : ℕ) (h : n ≠ 0) :
    Phi6 V c n = iprop(owns (c : Thread nD τ) scM6 fullShare (sc6 V c n)
      ∗ Pipeline.scopedRestBut (Ix := Unit) (Name := ℕ) (U := UR sig nD τ) (Lvl := ℕ) (Val := Elt F) spec6 c [cc6_scratch0]
      ∗ ∃ r, prngReg c r) := by
  cases n with
  | zero => exact absurd rfl h
  | succ n => rfl

theorem sc6_of_zero (c : Dev nD) (n : ℕ) (h : n = 0) : sc6 V c n = k6_pay1 := by subst h; rfl

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 4000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = Phi6 V c (t.val + 1) from rfl, Phi6_succ, sc6_succ]
  rw [show (dat6 V c).Φ t.castSucc = Phi6 V c t.val from rfl]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  unfold upd6
  have hN : t.val < 25 := lt_of_lt_of_eq t.isLt (show cfg6.N = 25 from N_6)
  by_cases hz : t.val = 0
  · have hc0 : cond6_0 (grid6.coords t) := (hcond6_0 t).mpr hz
    have hc1 : ¬cond6_1 (grid6.coords t) := fun h => by have := (hcond6_1 t).mp h; omega
    rw [Dat.leavesExact_idle (dat6 V c) 4 t (idleAt6_4 t hc1) (noFlush6_4 t hc1)]
    rw [Phi6_of_zero V c _ hz, PhiA6_eq, sc6_of_zero V c _ hz]
    iintro ⟨⟨⟨HS, Hrest⟩, Hg⟩, Ho, ⟨%d0, H0⟩, ⟨%d1, H1⟩, ⟨%d2, H2⟩, ⟨%d3, H3⟩, ⟨%d4, H4⟩⟩
    iapply (sound_first6 c Set.univ (grid6.coords t) _ _ _ _ _ _ _ _ _ _ _ _ hc0 hc1
      (xblk6 V c t) (wblk6 V c t) (bblk6 V c t) (gblk6 V c t) ((dat6 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hrest Hg]
    · isplitl [HS]; · iexact HS
      isplitl [Hrest]; · iexact Hrest
      iexact Hg
    isplitl [Ho]; · iexact Ho
    isplitl [H0]; · iexact H0
    isplitl [H1]; · iexact H1
    isplitl [H2]; · iexact H2
    isplitl [H3]; · iexact H3
    iexists _; iexact H4
  · have hc0 : ¬cond6_0 (grid6.coords t) := fun h => hz ((hcond6_0 t).mp h)
    rw [Phi6_of_pos V c _ hz]
    by_cases hl : t.val = 24
    · have hc1 : cond6_1 (grid6.coords t) := (hcond6_1 t).mpr hl
      rw [show (dat6 V c).leavesExact 4 t = owns (c : Thread nD τ) (st6_4 t) fullShare ((dat6 V c).after 4 t) from by
        unfold Dat.leavesExact; rw [liveAt6_4 t hc1], after6_4, sc6_succ]
      unfold upd6
      iintro ⟨⟨HS, Hrest, Hg⟩, Ho, ⟨%d0, H0⟩, ⟨%d1, H1⟩, ⟨%d2, H2⟩, ⟨%d3, H3⟩, ⟨%d4, H4⟩⟩
      iapply (sound_last6 c Set.univ (grid6.coords t) _ _ _ _ _ _ _ _ _ _ _ _ hc0 hc1
        (xblk6 V c t) (wblk6 V c t) (bblk6 V c t) (gblk6 V c t) (sc6 V c t.val) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexact H4
    · have hc1 : ¬cond6_1 (grid6.coords t) := fun h => hl ((hcond6_1 t).mp h)
      rw [Dat.leavesExact_idle (dat6 V c) 4 t (idleAt6_4 t hc1) (noFlush6_4 t hc1)]
      iintro ⟨⟨HS, Hrest, Hg⟩, Ho, ⟨%d0, H0⟩, ⟨%d1, H1⟩, ⟨%d2, H2⟩, ⟨%d3, H3⟩, ⟨%d4, H4⟩⟩
      iapply (sound_mid6 c Set.univ (grid6.coords t) _ _ _ _ _ _ _ _ _ _ _ _ hc0 hc1
        (xblk6 V c t) (wblk6 V c t) (bblk6 V c t) (gblk6 V c t) ((dat6 V c).before 4 t d4) (sc6 V c t.val) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hrest Hg]
      · isplitl [HS]; · iexact HS
        isplitl [Hrest]; · iexact Hrest
        iexact Hg
      isplitl [Ho]; · iexact Ho
      isplitl [H0]; · iexact H0
      isplitl [H1]; · iexact H1
      isplitl [H2]; · iexact H2
      isplitl [H3]; · iexact H3
      iexists _; iexact H4

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
import proofs.«401955_j22634477650042_2_alg».proof.Proof.KI.RunCond
import proofs.«401955_j22634477650042_2_alg».proof.Proof.KI.RegMM
import proofs.«401955_j22634477650042_2_alg».proof.Proof.KI.RegCB
import proofs.«401955_j22634477650042_2_alg».proof.Proof.KI.RegMM2
import proofs.«401955_j22634477650042_2_alg».proof.Proof.KI.RegCB3
import proofs.«401955_j22634477650042_2_alg».proof.Proof.KI.RegMM4
import proofs.«401955_j22634477650042_2_alg».proof.Proof.KI.RegCB5
import proofs.«401955_j22634477650042_2_alg».proof.Proof.KI.RegPool
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) := fun c b => W c b

def o4 : (r : Ref sig .tc) → (c : Dev nD) → Buf (Elt F) ((c : Thread nD τ).loc r) := fun r c =>
  Function.update (β := fun r : Ref sig .tc => Buf (Elt F) ((c : Thread nD τ).loc r)) (fun r => V3 m c r) main_v33
    ((dat0 (atTc (V3 m)) c).arrAt 2 cfg0.N) r
def po4 : Outs (F := F) := fun J => match J with | _ => o4 m

def o6 : (r : Ref sig .tc) → (c : Dev nD) → Buf (Elt F) ((c : Thread nD τ).loc r) := fun r c =>
  Function.update (β := fun r : Ref sig .tc => Buf (Elt F) ((c : Thread nD τ).loc r)) (fun r => V5 m (po4 m) c r) main_v55
    ((dat1 (atTc (V5 m (po4 m))) c).arrAt 7 cfg1.N) r
def po6 : Outs (F := F) := fun J => match J with | 4 => o4 m | _ => o6 m

def o8 : (r : Ref sig .tc) → (c : Dev nD) → Buf (Elt F) ((c : Thread nD τ).loc r) := fun r c =>
  Function.update (β := fun r : Ref sig .tc => Buf (Elt F) ((c : Thread nD τ).loc r)) (fun r => V7 m (po6 m) c r) main_v58
    ((dat2 (atTc (V7 m (po6 m))) c).arrAt 2 cfg2.N) r
def po8 : Outs (F := F) := fun J => match J with | 4 => o4 m | 6 => o6 m | _ => o8 m

def o10 : (r : Ref sig .tc) → (c : Dev nD) → Buf (Elt F) ((c : Thread nD τ).loc r) := fun r c =>
  Function.update (β := fun r : Ref sig .tc => Buf (Elt F) ((c : Thread nD τ).loc r)) (fun r => V9 m (po8 m) c r) main_v80
    ((dat3 (atTc (V9 m (po8 m))) c).arrAt 7 cfg3.N) r
def po10 : Outs (F := F) := fun J => match J with | 4 => o4 m | 6 => o6 m | 8 => o8 m | _ => o10 m

def o12 : (r : Ref sig .tc) → (c : Dev nD) → Buf (Elt F) ((c : Thread nD τ).loc r) := fun r c =>
  Function.update (β := fun r : Ref sig .tc => Buf (Elt F) ((c : Thread nD τ).loc r)) (fun r => V11 m (po10 m) c r) main_v83
    ((dat4 (atTc (V11 m (po10 m))) c).arrAt 2 cfg4.N) r
def po12 : Outs (F := F) := fun J => match J with | 4 => o4 m | 6 => o6 m | 8 => o8 m | 10 => o10 m | _ => o12 m

def o14 : (r : Ref sig .tc) → (c : Dev nD) → Buf (Elt F) ((c : Thread nD τ).loc r) := fun r c =>
  Function.update (β := fun r : Ref sig .tc => Buf (Elt F) ((c : Thread nD τ).loc r)) (fun r => V13 m (po12 m) c r) main_v105
    ((dat5 (atTc (V13 m (po12 m))) c).arrAt 7 cfg5.N) r
def po14 : Outs (F := F) := fun J => match J with | 4 => o4 m | 6 => o6 m | 8 => o8 m | 10 => o10 m | 12 => o12 m | _ => o14 m

def o16 : (r : Ref sig .tc) → (c : Dev nD) → Buf (Elt F) ((c : Thread nD τ).loc r) := fun r c =>
  Function.update (β := fun r : Ref sig .tc => Buf (Elt F) ((c : Thread nD τ).loc r)) (fun r => V15 m (po14 m) c r) main_v107
    ((dat6 (atTc (V15 m (po14 m))) c).arrAt 4 cfg6.N) r
def po16 : Outs (F := F) := fun J => match J with | 4 => o4 m | 6 => o6 m | 8 => o8 m | 10 => o10 m | 12 => o12 m | 14 => o14 m | _ => o16 m

def outs : Outs (F := F) := po16 m

theorem outs_4 (c : Dev nD) : outs m 4 main_v33 c = (dat0 (atTc (V3 m)) c).arrAt 2 cfg0.N :=
  Function.update_self (β := fun r : Ref sig .tc => Buf (Elt F) ((c : Thread nD τ).loc r)) main_v33
    ((dat0 (atTc (V3 m)) c).arrAt 2 cfg0.N) (fun r => V3 m c r)
theorem outs_6 (c : Dev nD) : outs m 6 main_v55 c = (dat1 (atTc (V5 m (outs m))) c).arrAt 7 cfg1.N :=
  Function.update_self (β := fun r : Ref sig .tc => Buf (Elt F) ((c : Thread nD τ).loc r)) main_v55
    ((dat1 (atTc (V5 m (outs m))) c).arrAt 7 cfg1.N) (fun r => V5 m (outs m) c r)
theorem outs_8 (c : Dev nD) : outs m 8 main_v58 c = (dat2 (atTc (V7 m (outs m))) c).arrAt 2 cfg2.N :=
  Function.update_self (β := fun r : Ref sig .tc => Buf (Elt F) ((c : Thread nD τ).loc r)) main_v58
    ((dat2 (atTc (V7 m (outs m))) c).arrAt 2 cfg2.N) (fun r => V7 m (outs m) c r)
theorem outs_10 (c : Dev nD) : outs m 10 main_v80 c = (dat3 (atTc (V9 m (outs m))) c).arrAt 7 cfg3.N :=
  Function.update_self (β := fun r : Ref sig .tc => Buf (Elt F) ((c : Thread nD τ).loc r)) main_v80
    ((dat3 (atTc (V9 m (outs m))) c).arrAt 7 cfg3.N) (fun r => V9 m (outs m) c r)
theorem outs_12 (c : Dev nD) : outs m 12 main_v83 c = (dat4 (atTc (V11 m (outs m))) c).arrAt 2 cfg4.N :=
  Function.update_self (β := fun r : Ref sig .tc => Buf (Elt F) ((c : Thread nD τ).loc r)) main_v83
    ((dat4 (atTc (V11 m (outs m))) c).arrAt 2 cfg4.N) (fun r => V11 m (outs m) c r)
theorem outs_14 (c : Dev nD) : outs m 14 main_v105 c = (dat5 (atTc (V13 m (outs m))) c).arrAt 7 cfg5.N :=
  Function.update_self (β := fun r : Ref sig .tc => Buf (Elt F) ((c : Thread nD τ).loc r)) main_v105
    ((dat5 (atTc (V13 m (outs m))) c).arrAt 7 cfg5.N) (fun r => V13 m (outs m) c r)
theorem outs_16 (c : Dev nD) : outs m 16 main_v107 c = (dat6 (atTc (V15 m (outs m))) c).arrAt 4 cfg6.N :=
  Function.update_self (β := fun r : Ref sig .tc => Buf (Elt F) ((c : Thread nD τ).loc r)) main_v107
    ((dat6 (atTc (V15 m (outs m))) c).arrAt 4 cfg6.N) (fun r => V15 m (outs m) c r)

theorem arrAt_exit {cfg : Cfg sig Λ₀} {c : Dev nD} (dat : Dat τ (Elt F) Unit ℕ (UR sig nD τ) ℕ cfg c)
    (Vin Vout : (b : Ref sig .tc) → Buf (Elt F) ((c : Thread nD τ).loc b)) (ow : Fin cfg.W)
    (hA : ∀ w, dat.A w = Vin (Pipeline.arrRef cfg.spec w))
    (hin : ∀ w, w ≠ ow → (cfg.win w).isOut = false)
    (hne : ∀ w, w ≠ ow → Vout (Pipeline.arrRef cfg.spec w) = Vin (Pipeline.arrRef cfg.spec w))
    (hout : dat.arrAt ow cfg.N = Vout (Pipeline.arrRef cfg.spec ow)) (w : Fin cfg.W) :
    dat.arrAt w cfg.N = Vout (Pipeline.arrRef cfg.spec w) := by
  by_cases hw : w = ow
  · subst hw; exact hout
  · exact ((dat.arrAt_in w (hin w hw) _).trans (hA w)).trans (hne w hw).symm

theorem V4_at (c : Dev nD) : V4 m (outs m) c main_v33 = outs m 4 main_v33 c :=
  Function.update_self (β := fun b : DevRef τ sig => Buf (Elt F) ((c : Thread nD τ).1, b)) _ _ _
theorem hF0 (c : Dev nD) : ∀ w : Fin cfg0.W, (dat0 (atTc (V3 m)) c).arrAt w cfg0.N = atTc (V4 m (outs m)) c (Pipeline.arrRef spec0 w) :=
  arrAt_exit (dat0 (atTc (V3 m)) c) (atTc (V3 m) c) (atTc (V4 m (outs m)) c) 2 (fun _ => rfl) (by decide)
    (fun w hw => V4_of m (outs m) c _ fun h => hw (launch0.win.arr_inj (a₂ := 2) (List.mem_singleton.mp h)))
    ((outs_4 m c).symm.trans (V4_at m c).symm)
theorem hrest0 (c : Dev nD) : ∀ b, b ∉ Finset.univ.image (Pipeline.arrRef spec0) → atTc (V4 m (outs m)) c b = atTc (V3 m) c b :=
  fun b hb => V4_of m (outs m) c b fun h => hb (Finset.mem_image.mpr ⟨2, Finset.mem_univ _, (List.mem_singleton.mp h).symm⟩)

theorem V6_at (c : Dev nD) : V6 m (outs m) c main_v55 = outs m 6 main_v55 c :=
  Function.update_self (β := fun b : DevRef τ sig => Buf (Elt F) ((c : Thread nD τ).1, b)) _ _ _
theorem hF1 (c : Dev nD) : ∀ w : Fin cfg1.W, (dat1 (atTc (V5 m (outs m))) c).arrAt w cfg1.N = atTc (V6 m (outs m)) c (Pipeline.arrRef spec1 w) :=
  arrAt_exit (dat1 (atTc (V5 m (outs m))) c) (atTc (V5 m (outs m)) c) (atTc (V6 m (outs m)) c) 7 (fun _ => rfl) (by decide)
    (fun w hw => V6_of m (outs m) c _ fun h => hw (launch1.win.arr_inj (a₂ := 7) (List.mem_singleton.mp h)))
    ((outs_6 m c).symm.trans (V6_at m c).symm)
theorem hrest1 (c : Dev nD) : ∀ b, b ∉ Finset.univ.image (Pipeline.arrRef spec1) → atTc (V6 m (outs m)) c b = atTc (V5 m (outs m)) c b :=
  fun b hb => V6_of m (outs m) c b fun h => hb (Finset.mem_image.mpr ⟨7, Finset.mem_univ _, (List.mem_singleton.mp h).symm⟩)

theorem V8_at (c : Dev nD) : V8 m (outs m) c main_v58 = outs m 8 main_v58 c :=
  Function.update_self (β := fun b : DevRef τ sig => Buf (Elt F) ((c : Thread nD τ).1, b)) _ _ _
theorem hF2 (c : Dev nD) : ∀ w : Fin cfg2.W, (dat2 (atTc (V7 m (outs m))) c).arrAt w cfg2.N = atTc (V8 m (outs m)) c (Pipeline.arrRef spec2 w) :=
  arrAt_exit (dat2 (atTc (V7 m (outs m))) c) (atTc (V7 m (outs m)) c) (atTc (V8 m (outs m)) c) 2 (fun _ => rfl) (by decide)
    (fun w hw => V8_of m (outs m) c _ fun h => hw (launch2.win.arr_inj (a₂ := 2) (List.mem_singleton.mp h)))
    ((outs_8 m c).symm.trans (V8_at m c).symm)
theorem hrest2 (c : Dev nD) : ∀ b, b ∉ Finset.univ.image (Pipeline.arrRef spec2) → atTc (V8 m (outs m)) c b = atTc (V7 m (outs m)) c b :=
  fun b hb => V8_of m (outs m) c b fun h => hb (Finset.mem_image.mpr ⟨2, Finset.mem_univ _, (List.mem_singleton.mp h).symm⟩)

theorem V10_at (c : Dev nD) : V10 m (outs m) c main_v80 = outs m 10 main_v80 c :=
  Function.update_self (β := fun b : DevRef τ sig => Buf (Elt F) ((c : Thread nD τ).1, b)) _ _ _
theorem hF3 (c : Dev nD) : ∀ w : Fin cfg3.W, (dat3 (atTc (V9 m (outs m))) c).arrAt w cfg3.N = atTc (V10 m (outs m)) c (Pipeline.arrRef spec3 w) :=
  arrAt_exit (dat3 (atTc (V9 m (outs m))) c) (atTc (V9 m (outs m)) c) (atTc (V10 m (outs m)) c) 7 (fun _ => rfl) (by decide)
    (fun w hw => V10_of m (outs m) c _ fun h => hw (launch3.win.arr_inj (a₂ := 7) (List.mem_singleton.mp h)))
    ((outs_10 m c).symm.trans (V10_at m c).symm)
theorem hrest3 (c : Dev nD) : ∀ b, b ∉ Finset.univ.image (Pipeline.arrRef spec3) → atTc (V10 m (outs m)) c b = atTc (V9 m (outs m)) c b :=
  fun b hb => V10_of m (outs m) c b fun h => hb (Finset.mem_image.mpr ⟨7, Finset.mem_univ _, (List.mem_singleton.mp h).symm⟩)

theorem V12_at (c : Dev nD) : V12 m (outs m) c main_v83 = outs m 12 main_v83 c :=
  Function.update_self (β := fun b : DevRef τ sig => Buf (Elt F) ((c : Thread nD τ).1, b)) _ _ _
theorem hF4 (c : Dev nD) : ∀ w : Fin cfg4.W, (dat4 (atTc (V11 m (outs m))) c).arrAt w cfg4.N = atTc (V12 m (outs m)) c (Pipeline.arrRef spec4 w) :=
  arrAt_exit (dat4 (atTc (V11 m (outs m))) c) (atTc (V11 m (outs m)) c) (atTc (V12 m (outs m)) c) 2 (fun _ => rfl) (by decide)
    (fun w hw => V12_of m (outs m) c _ fun h => hw (launch4.win.arr_inj (a₂ := 2) (List.mem_singleton.mp h)))
    ((outs_12 m c).symm.trans (V12_at m c).symm)
theorem hrest4 (c : Dev nD) : ∀ b, b ∉ Finset.univ.image (Pipeline.arrRef spec4) → atTc (V12 m (outs m)) c b = atTc (V11 m (outs m)) c b :=
  fun b hb => V12_of m (outs m) c b fun h => hb (Finset.mem_image.mpr ⟨2, Finset.mem_univ _, (List.mem_singleton.mp h).symm⟩)

theorem V14_at (c : Dev nD) : V14 m (outs m) c main_v105 = outs m 14 main_v105 c :=
  Function.update_self (β := fun b : DevRef τ sig => Buf (Elt F) ((c : Thread nD τ).1, b)) _ _ _
theorem hF5 (c : Dev nD) : ∀ w : Fin cfg5.W, (dat5 (atTc (V13 m (outs m))) c).arrAt w cfg5.N = atTc (V14 m (outs m)) c (Pipeline.arrRef spec5 w) :=
  arrAt_exit (dat5 (atTc (V13 m (outs m))) c) (atTc (V13 m (outs m)) c) (atTc (V14 m (outs m)) c) 7 (fun _ => rfl) (by decide)
    (fun w hw => V14_of m (outs m) c _ fun h => hw (launch5.win.arr_inj (a₂ := 7) (List.mem_singleton.mp h)))
    ((outs_14 m c).symm.trans (V14_at m c).symm)
theorem hrest5 (c : Dev nD) : ∀ b, b ∉ Finset.univ.image (Pipeline.arrRef spec5) → atTc (V14 m (outs m)) c b = atTc (V13 m (outs m)) c b :=
  fun b hb => V14_of m (outs m) c b fun h => hb (Finset.mem_image.mpr ⟨7, Finset.mem_univ _, (List.mem_singleton.mp h).symm⟩)

theorem V16_at (c : Dev nD) : V16 m (outs m) c main_v107 = outs m 16 main_v107 c :=
  Function.update_self (β := fun b : DevRef τ sig => Buf (Elt F) ((c : Thread nD τ).1, b)) _ _ _
theorem hF6 (c : Dev nD) : ∀ w : Fin cfg6.W, (dat6 (atTc (V15 m (outs m))) c).arrAt w cfg6.N = atTc (V16 m (outs m)) c (Pipeline.arrRef spec6 w) :=
  arrAt_exit (dat6 (atTc (V15 m (outs m))) c) (atTc (V15 m (outs m)) c) (atTc (V16 m (outs m)) c) 4 (fun _ => rfl) (by decide)
    (fun w hw => V16_of m (outs m) c _ fun h => hw (launch6.win.arr_inj (a₂ := 4) (List.mem_singleton.mp h)))
    ((outs_16 m c).symm.trans (V16_at m c).symm)
theorem hrest6 (c : Dev nD) : ∀ b, b ∉ Finset.univ.image (Pipeline.arrRef spec6) → atTc (V16 m (outs m)) c b = atTc (V15 m (outs m)) c b :=
  fun b hb => V16_of m (outs m) c b fun h => hb (Finset.mem_image.mpr ⟨4, Finset.mem_univ _, (List.mem_singleton.mp h).symm⟩)

def pdats : (p : Fin 7) → (c : Dev nD) → Dat τ (Elt F) Unit ℕ (UR sig nD τ) ℕ (cfgs p) c
  | ⟨0, _⟩ => fun c => dat0 (atTc (V3 m)) c
  | ⟨1, _⟩ => fun c => dat1 (atTc (V5 m (outs m))) c
  | ⟨2, _⟩ => fun c => dat2 (atTc (V7 m (outs m))) c
  | ⟨3, _⟩ => fun c => dat3 (atTc (V9 m (outs m))) c
  | ⟨4, _⟩ => fun c => dat4 (atTc (V11 m (outs m))) c
  | ⟨5, _⟩ => fun c => dat5 (atTc (V13 m (outs m))) c
  | ⟨6, _⟩ => fun c => dat6 (atTc (V15 m (outs m))) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev E : Fin 8 → Dev nD → sProp 𝕄 := fun _ c => R (F := F) c

set_option backward.isDefEq.respectTransparency.types false in
def mkReg (p : Fin 7) (hl : Pipeline.LaunchFacts (nD := nD) (τ := τ) cfgs p) (Vin Vout : Dev nD → Valuation τ sig (Elt F))
    (hb : ∀ c, BodyObligation (pdats m p c) (defs₀ (F := F)) 𝒱₀ () Set.univ)
    (hq : ∀ c w, (pdats m p c).q w = fullShare)
    (hA : ∀ c w, (pdats m p c).A w = atTc Vin c (Pipeline.arrRef (cfgs p).spec w))
    (howed : ∀ c t, (pdats m p c).owed t = 0) (hrec : ∀ c, (pdats m p c).recorded 0 = Set.univ)
    (hΦin : ∀ c, Pipeline.ΦA (cfgs p).spec c ⊢ (pdats m p c).Φ 0)
    (hΦout : ∀ c, (pdats m p c).Φ (Fin.last _) ⊢ Pipeline.ΦA (cfgs p).spec c)
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) hl.win hl.arr_whole c
      ((pdats m p c).share_full (hq c)) (atTc Vin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (hrec c ▸ trivial)
      iexact HO
    isplitl [Hp]; · iexact Hp
    iexact Hrest
  hin c := by
    refine .trans ?_ (hΦin c)
    unfold Pipeline.ΦA
    iintro ⟨Hp, -, Hr⟩
    isplitl [Hr]; · iexact Hr
    iexact Hp
  hout c := by
    rw [Pipeline.ownSems0_none]
    refine (hΦout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Vin c) (atTc Vout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

def reg0 := mkReg m 0 launch0 (V3 m) (V4 m (outs m)) (body_obligation0 (atTc (V3 m)))
  (fun _ _ => rfl) (fun _ _ => rfl) (fun _ _ => rfl) (fun _ => rfl) (fun _ => .rfl) (fun _ => .rfl) (hF0 m) (hrest0 m)

def reg1 := mkReg m 1 launch1 (V5 m (outs m)) (V6 m (outs m)) (body_obligation1 (atTc (V5 m (outs m))))
  (fun _ _ => rfl) (fun _ _ => rfl) (fun _ _ => rfl) (fun _ => rfl) (fun _ => .rfl) (fun _ => .rfl) (hF1 m) (hrest1 m)

def reg2 := mkReg m 2 launch2 (V7 m (outs m)) (V8 m (outs m)) (body_obligation2 (atTc (V7 m (outs m))))
  (fun _ _ => rfl) (fun _ _ => rfl) (fun _ _ => rfl) (fun _ => rfl) (fun _ => .rfl) (fun _ => .rfl) (hF2 m) (hrest2 m)

def reg3 := mkReg m 3 launch3 (V9 m (outs m)) (V10 m (outs m)) (body_obligation3 (atTc (V9 m (outs m))))
  (fun _ _ => rfl) (fun _ _ => rfl) (fun _ _ => rfl) (fun _ => rfl) (fun _ => .rfl) (fun _ => .rfl) (hF3 m) (hrest3 m)

def reg4 := mkReg m 4 launch4 (V11 m (outs m)) (V12 m (outs m)) (body_obligation4 (atTc (V11 m (outs m))))
  (fun _ _ => rfl) (fun _ _ => rfl) (fun _ _ => rfl) (fun _ => rfl) (fun _ => .rfl) (fun _ => .rfl) (hF4 m) (hrest4 m)

def reg5 := mkReg m 5 launch5 (V13 m (outs m)) (V14 m (outs m)) (body_obligation5 (atTc (V13 m (outs m))))
  (fun _ _ => rfl) (fun _ _ => rfl) (fun _ _ => rfl) (fun _ => rfl) (fun _ => .rfl) (fun _ => .rfl) (hF5 m) (hrest5 m)

def reg6 := mkReg m 6 launch6 (V15 m (outs m)) (V16 m (outs m)) (body_obligation6 (atTc (V15 m (outs m))))
  (fun _ _ => rfl) (fun _ _ => rfl) (fun _ _ => rfl) (fun _ => rfl) (Φ6_in _) (Φ6_out _) (hF6 m) (hrest6 m)

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v113) = V17 m (outs m) c main_v113
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.run_cond m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE7 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)

end Cert.KernelIdeal.Hand

end
-- ==== Proof.Ref.Run.lean ====
import proofs.«401955_j22634477650042_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

abbrev opsPre : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    unary main_v9 main_v10 (Host.rsqrt : (⟨S50000, .f32⟩ : BufTy).Contents (Elt F) → (⟨S50000, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v1 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v1 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v18 (broadcastInDim S800000 ![] bcast_S_S800000 : (⟨S_, .i32⟩ : BufTy).Contents (Elt F) → (⟨S800000, .i32⟩ : BufTy).Contents (Elt F)),
    binary main_v3 main_v18 main_v19 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v20 (broadcastInDim S800000 ![] bcast_S_S800000 : (⟨S_, .i32⟩ : BufTy).Contents (Elt F) → (⟨S800000, .i32⟩ : BufTy).Contents (Elt F)),
    binary main_v3 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v17 main_v24 main_v25 (mulf : (⟨S800000, .f32⟩ : BufTy).Contents (Elt F) → (⟨S800000, .f32⟩ : BufTy).Contents (Elt F) → (⟨S800000, .f32⟩ : BufTy).Contents (Elt F)),
    unary main_v25 main_v26 (broadcastInDim S800000x1 ![0] bcast_S800000_S800000x1_0 : (⟨S800000, .f32⟩ : BufTy).Contents (Elt F) → (⟨S800000x1, .f32⟩ : BufTy).Contents (Elt F)),
    binary main_v10 main_v10 main_v27 (mulf : (⟨S50000, .f32⟩ : BufTy).Contents (Elt F) → (⟨S50000, .f32⟩ : BufTy).Contents (Elt F) → (⟨S50000, .f32⟩ : BufTy).Contents (Elt F)),
    unary main_v27 main_v28 (broadcastInDim S50000x1 ![0] bcast_S50000_S50000x1_0 : (⟨S50000, .f32⟩ : BufTy).Contents (Elt F) → (⟨S50000x1, .f32⟩ : BufTy).Contents (Elt F)),
    nullary main_c_5 (constantI S_ 32 0#32),
    unary main_c_5 main_v29 (broadcastInDim S50000 ![] bcast_S_S50000 : (⟨S_, .i32⟩ : BufTy).Contents (Elt F) → (⟨S50000, .i32⟩ : BufTy).Contents (Elt F)),
    binary main_arg0 main_v29 main_v30 (cmpi .slt : (⟨S50000, .i32⟩ : BufTy).Contents (Elt F) → (⟨S50000, .i32⟩ : BufTy).Contents (Elt F) → (⟨S50000, .i1⟩ : BufTy).Contents (Elt F)),
    nullary main_c_6 (constantI S_ 32 1#32),
    unary main_c_6 main_v31 (broadcastInDim S50000 ![] bcast_S_S50000 : (⟨S_, .i32⟩ : BufTy).Contents (Elt F) → (⟨S50000, .i32⟩ : BufTy).Contents (Elt F)),
    binary main_arg0 main_v31 main_v32 (addi : (⟨S50000, .i32⟩ : BufTy).Contents (Elt F) → (⟨S50000, .i32⟩ : BufTy).Contents (Elt F) → (⟨S50000, .i32⟩ : BufTy).Contents (Elt F)),
    ternary main_v30 main_v32 main_arg0 main_v33 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v33 main_v34 (broadcastInDim S50000x1 ![0] bcast_S50000_S50000x1_0 : (⟨S50000, .i32⟩ : BufTy).Contents (Elt F) → (⟨S50000x1, .i32⟩ : BufTy).Contents (Elt F)),
    binary main_arg3 main_v34 main_v35 ((fun x i => Host.gather gather_S1x128_S50000x1_S50000x128_1_0_n_n_0_1_1128 x i) : (⟨S1x128, .f32⟩ : BufTy).Contents (Elt F) → (⟨S50000x1, .i32⟩ : BufTy).Contents (Elt F) → (⟨S50000x128, .f32⟩ : BufTy).Contents (Elt F)) ]

abbrev opsL0 : List (HloOp τ sig (Elt F)) :=
  [ unary main_arg4 main_v36 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v36 main_v37 rfl shapeCasts_S1x128x128_S128x128,
    binary main_v35 main_v37 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_7 (constantI S_ 32 0#32),
    unary main_c_7 main_v39 (broadcastInDim S800000 ![] bcast_S_S800000 : (⟨S_, .i32⟩ : BufTy).Contents (Elt F) → (⟨S800000, .i32⟩ : BufTy).Contents (Elt F)),
    binary main_v1 main_v39 main_v40 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v41 (broadcastInDim S800000 ![] bcast_S_S800000 : (⟨S_, .i32⟩ : BufTy).Contents (Elt F) → (⟨S800000, .i32⟩ : BufTy).Contents (Elt F)),
    binary main_v1 main_v41 main_v42 (addi : (⟨S800000, .i32⟩ : BufTy).Contents (Elt F) → (⟨S800000, .i32⟩ : BufTy).Contents (Elt F) → (⟨S800000, .i32⟩ : BufTy).Contents (Elt F)),
    ternary main_v40 main_v42 main_v1 main_v43 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v43 main_v44 (broadcastInDim S800000x1 ![0] bcast_S800000_S800000x1_0 : (⟨S800000, .i32⟩ : BufTy).Contents (Elt F) → (⟨S800000x1, .i32⟩ : BufTy).Contents (Elt F)),
    binary main_v38 main_v44 main_v45 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v46 (broadcastInDim S800000x128 ![0, 1] bcast_S800000x1_S800000x128_0_1 : (⟨S800000x1, .f32⟩ : BufTy).Contents (Elt F) → (⟨S800000x128, .f32⟩ : BufTy).Contents (Elt F)),
    binary main_v45 main_v46 main_v47 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v48 (broadcastInDim S50000x128 ![] bcast_S_S50000x128 : (⟨S_, .f32⟩ : BufTy).Contents (Elt F) → (⟨S50000x128, .f32⟩ : BufTy).Contents (Elt F)),
    unary main_v3 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v28 main_v51 (broadcastInDim S50000x128 ![0, 1] bcast_S50000x1_S50000x128_0_1 : (⟨S50000x1, .f32⟩ : BufTy).Contents (Elt F) → (⟨S50000x128, .f32⟩ : BufTy).Contents (Elt F)),
    binary main_v38 main_v51 main_v52 (mulf : (⟨S50000x128, .f32⟩ : BufTy).Contents (Elt F) → (⟨S50000x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    unary main_arg5 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128,
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v53 main_v57 main_v58 (addf : (⟨S50000x128, .f32⟩ : BufTy).Contents (Elt F) → (⟨S50000x128, .f32⟩ : BufTy).Contents (Elt F) → (⟨S50000x128, .f32⟩ : BufTy).Contents (Elt F)),
    unary main_arg6 main_v59 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v59 main_v60 rfl shapeCasts_S1x128x128_S128x128,
    binary main_v35 main_v60 main_v61 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v58 main_v61 main_v62 (addf : (⟨S50000x128, .f32⟩ : BufTy).Contents (Elt F) → (⟨S50000x128, .f32⟩ : BufTy).Contents (Elt F) → (⟨S50000x128, .f32⟩ : BufTy).Contents (Elt F)),
    unary main_arg7 main_v63 ((extractStridedSlice S1x128 ![0, 0] · slices_S3x128_S1x128_0_0) : (⟨S3x128, .f32⟩ : BufTy).Contents (Elt F) → (⟨S1x128, .f32⟩ : BufTy).Contents (Elt F)),
    reshape main_v63 main_v64 rfl shapeCasts_S1x128_S128,
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S50000x128 ![0, 1] bcast_S1x128_S50000x128_0_1 : (⟨S1x128, .f32⟩ : BufTy).Contents (Elt F) → (⟨S50000x128, .f32⟩ : BufTy).Contents (Elt F)),
    binary main_v62 main_v66 main_v67 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v67) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v67) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v67) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v67) main_call0.v7 main_call0.call1.v0 select,
    binary main_v35 main_v68 main_v69 (addf : (⟨S50000x128, .f32⟩ : BufTy).Contents (Elt F) → (⟨S50000x128, .f32⟩ : BufTy).Contents (Elt F) → (⟨S50000x128, .f32⟩ : BufTy).Contents (Elt F)) ]

abbrev opsL1 : List (HloOp τ sig (Elt F)) :=
  [ unary main_arg4 main_v70 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v70 main_v71 rfl shapeCasts_S1x128x128_S128x128,
    binary main_v69 main_v71 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v73 (broadcastInDim S800000 ![] bcast_S_S800000 : (⟨S_, .i32⟩ : BufTy).Contents (Elt F) → (⟨S800000, .i32⟩ : BufTy).Contents (Elt F)),
    binary main_v1 main_v73 main_v74 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v75 (broadcastInDim S800000 ![] bcast_S_S800000 : (⟨S_, .i32⟩ : BufTy).Contents (Elt F) → (⟨S800000, .i32⟩ : BufTy).Contents (Elt F)),
    binary main_v1 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v1 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v72 main_v78 main_v79 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v80 (broadcastInDim S800000x128 ![0, 1] bcast_S800000x1_S800000x128_0_1 : (⟨S800000x1, .f32⟩ : BufTy).Contents (Elt F) → (⟨S800000x128, .f32⟩ : BufTy).Contents (Elt F)),
    binary main_v79 main_v80 main_v81 (mulf : (⟨S800000x128, .f32⟩ : BufTy).Contents (Elt F) → (⟨S800000x128, .f32⟩ : BufTy).Contents (Elt F) → (⟨S800000x128, .f32⟩ : BufTy).Contents (Elt F)),
    nullary main_cst_12 (constant S_ .f32 0x00000000#32),
    unary main_cst_12 main_v82 (broadcastInDim S50000x128 ![] bcast_S_S50000x128 : (⟨S_, .f32⟩ : BufTy).Contents (Elt F) → (⟨S50000x128, .f32⟩ : BufTy).Contents (Elt F)),
    unary main_v3 main_v83 (broadcastInDim S800000x1 ![0] bcast_S800000_S800000x1_0 : (⟨S800000, .i32⟩ : BufTy).Contents (Elt F) → (⟨S800000x1, .i32⟩ : BufTy).Contents (Elt F)),
    ternary main_v82 main_v83 main_v81 main_v84 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v28 main_v85 (broadcastInDim S50000x128 ![0, 1] bcast_S50000x1_S50000x128_0_1 : (⟨S50000x1, .f32⟩ : BufTy).Contents (Elt F) → (⟨S50000x128, .f32⟩ : BufTy).Contents (Elt F)),
    binary main_v72 main_v85 main_v86 (mulf : (⟨S50000x128, .f32⟩ : BufTy).Contents (Elt F) → (⟨S50000x128, .f32⟩ : BufTy).Contents (Elt F) → (⟨S50000x128, .f32⟩ : BufTy).Contents (Elt F)),
    binary main_v84 main_v86 main_v87 (addf : (⟨S50000x128, .f32⟩ : BufTy).Contents (Elt F) → (⟨S50000x128, .f32⟩ : BufTy).Contents (Elt F) → (⟨S50000x128, .f32⟩ : BufTy).Contents (Elt F)),
    unary main_arg5 main_v88 ((extractStridedSlice S1x128 ![1, 0] · slices_S3x128_S1x128_1_0) : (⟨S3x128, .f32⟩ : BufTy).Contents (Elt F) → (⟨S1x128, .f32⟩ : BufTy).Contents (Elt F)),
    reshape main_v88 main_v89 rfl shapeCasts_S1x128_S128,
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v87 main_v91 main_v92 (addf : (⟨S50000x128, .f32⟩ : BufTy).Contents (Elt F) → (⟨S50000x128, .f32⟩ : BufTy).Contents (Elt F) → (⟨S50000x128, .f32⟩ : BufTy).Contents (Elt F)),
    unary main_arg6 main_v93 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v93 main_v94 rfl shapeCasts_S1x128x128_S128x128,
    binary main_v69 main_v94 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v92 main_v95 main_v96 (addf : (⟨S50000x128, .f32⟩ : BufTy).Contents (Elt F) → (⟨S50000x128, .f32⟩ : BufTy).Contents (Elt F) → (⟨S50000x128, .f32⟩ : BufTy).Contents (Elt F)),
    unary main_arg7 main_v97 ((extractStridedSlice S1x128 ![1, 0] · slices_S3x128_S1x128_1_0) : (⟨S3x128, .f32⟩ : BufTy).Contents (Elt F) → (⟨S1x128, .f32⟩ : BufTy).Contents (Elt F)),
    reshape main_v97 main_v98 rfl shapeCasts_S1x128_S128,
    unary main_v98 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v96 main_v100 main_v101 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v101) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v101) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v101) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v101) main_call1.v7 main_call1.call1.v0 select,
    binary main_v69 main_v102 main_v103 (addf : (⟨S50000x128, .f32⟩ : BufTy).Contents (Elt F) → (⟨S50000x128, .f32⟩ : BufTy).Contents (Elt F) → (⟨S50000x128, .f32⟩ : BufTy).Contents (Elt F)) ]

abbrev opsL2 : List (HloOp τ sig (Elt F)) :=
  [ unary main_arg4 main_v104 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v104 main_v105 rfl shapeCasts_S1x128x128_S128x128,
    binary main_v103 main_v105 main_v106 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_13 (constantI S_ 32 0#32),
    unary main_c_13 main_v107 (broadcastInDim S800000 ![] bcast_S_S800000 : (⟨S_, .i32⟩ : BufTy).Contents (Elt F) → (⟨S800000, .i32⟩ : BufTy).Contents (Elt F)),
    binary main_v1 main_v107 main_v108 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v109 (broadcastInDim S800000 ![] bcast_S_S800000 : (⟨S_, .i32⟩ : BufTy).Contents (Elt F) → (⟨S800000, .i32⟩ : BufTy).Contents (Elt F)),
    binary main_v1 main_v109 main_v110 (addi : (⟨S800000, .i32⟩ : BufTy).Contents (Elt F) → (⟨S800000, .i32⟩ : BufTy).Contents (Elt F) → (⟨S800000, .i32⟩ : BufTy).Contents (Elt F)),
    ternary main_v108 main_v110 main_v1 main_v111 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v111 main_v112 (broadcastInDim S800000x1 ![0] bcast_S800000_S800000x1_0 : (⟨S800000, .i32⟩ : BufTy).Contents (Elt F) → (⟨S800000x1, .i32⟩ : BufTy).Contents (Elt F)),
    binary main_v106 main_v112 main_v113 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v114 (broadcastInDim S800000x128 ![0, 1] bcast_S800000x1_S800000x128_0_1 : (⟨S800000x1, .f32⟩ : BufTy).Contents (Elt F) → (⟨S800000x128, .f32⟩ : BufTy).Contents (Elt F)),
    binary main_v113 main_v114 main_v115 (mulf : (⟨S800000x128, .f32⟩ : BufTy).Contents (Elt F) → (⟨S800000x128, .f32⟩ : BufTy).Contents (Elt F) → (⟨S800000x128, .f32⟩ : BufTy).Contents (Elt F)),
    nullary main_cst_15 (constant S_ .f32 0x00000000#32),
    unary main_cst_15 main_v116 (broadcastInDim S50000x128 ![] bcast_S_S50000x128 : (⟨S_, .f32⟩ : BufTy).Contents (Elt F) → (⟨S50000x128, .f32⟩ : BufTy).Contents (Elt F)),
    unary main_v3 main_v117 (broadcastInDim S800000x1 ![0] bcast_S800000_S800000x1_0 : (⟨S800000, .i32⟩ : BufTy).Contents (Elt F) → (⟨S800000x1, .i32⟩ : BufTy).Contents (Elt F)),
    ternary main_v116 main_v117 main_v115 main_v118 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v28 main_v119 (broadcastInDim S50000x128 ![0, 1] bcast_S50000x1_S50000x128_0_1 : (⟨S50000x1, .f32⟩ : BufTy).Contents (Elt F) → (⟨S50000x128, .f32⟩ : BufTy).Contents (Elt F)),
    binary main_v106 main_v119 main_v120 (mulf : (⟨S50000x128, .f32⟩ : BufTy).Contents (Elt F) → (⟨S50000x128, .f32⟩ : BufTy).Contents (Elt F) → (⟨S50000x128, .f32⟩ : BufTy).Contents (Elt F)),
    binary main_v118 main_v120 main_v121 (addf : (⟨S50000x128, .f32⟩ : BufTy).Contents (Elt F) → (⟨S50000x128, .f32⟩ : BufTy).Contents (Elt F) → (⟨S50000x128, .f32⟩ : BufTy).Contents (Elt F)),
    unary main_arg5 main_v122 ((extractStridedSlice S1x128 ![2, 0] · slices_S3x128_S1x128_2_0) : (⟨S3x128, .f32⟩ : BufTy).Contents (Elt F) → (⟨S1x128, .f32⟩ : BufTy).Contents (Elt F)),
    reshape main_v122 main_v123 rfl shapeCasts_S1x128_S128,
    unary main_v123 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v121 main_v125 main_v126 (addf : (⟨S50000x128, .f32⟩ : BufTy).Contents (Elt F) → (⟨S50000x128, .f32⟩ : BufTy).Contents (Elt F) → (⟨S50000x128, .f32⟩ : BufTy).Contents (Elt F)),
    unary main_arg6 main_v127 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v127 main_v128 rfl shapeCasts_S1x128x128_S128x128,
    binary main_v103 main_v128 main_v129 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v126 main_v129 main_v130 (addf : (⟨S50000x128, .f32⟩ : BufTy).Contents (Elt F) → (⟨S50000x128, .f32⟩ : BufTy).Contents (Elt F) → (⟨S50000x128, .f32⟩ : BufTy).Contents (Elt F)),
    unary main_arg7 main_v131 ((extractStridedSlice S1x128 ![2, 0] · slices_S3x128_S1x128_2_0) : (⟨S3x128, .f32⟩ : BufTy).Contents (Elt F) → (⟨S1x128, .f32⟩ : BufTy).Contents (Elt F)),
    reshape main_v131 main_v132 rfl shapeCasts_S1x128_S128,
    unary main_v132 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v130 main_v134 main_v135 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v135) main_call2.v0 main_call2.v1 (cmpf .ogt),
    TRef.nullary main_call2.cst_0 (constant S_ .f32 0x00000000#32),
    TRef.unary main_call2.cst_0 main_call2.v2 (broadcastInDim S50000x128 ![] bcast_S_S50000x128),
    TRef.binary (.of main_v135) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x128 ![] bcast_S_S50000x128),
    TRef.ternary main_call2.v3 main_call2.call0.v1 (.of main_v135) main_call2.call0.v2 select,
    TRef.unary main_call2.call0.v2 main_call2.v5 Host.expm1,
    TRef.nullary main_call2.cst_2 (constant S_ .f32 0x3F800000#32),
    TRef.unary main_call2.cst_2 main_call2.v6 (broadcastInDim S50000x128 ![] bcast_S_S50000x128),
    TRef.binary main_call2.v6 main_call2.v5 main_call2.v7 mulf,
    TRef.ternary main_call2.v1 (.of main_v135) main_call2.v7 main_call2.call1.v0 select,
    binary main_v103 main_v136 main_v137 (addf : (⟨S50000x128, .f32⟩ : BufTy).Contents (Elt F) → (⟨S50000x128, .f32⟩ : BufTy).Contents (Elt F) → (⟨S50000x128, .f32⟩ : BufTy).Contents (Elt F)) ]

abbrev opsTail : List (HloOp τ sig (Elt F)) :=
  [ binary main_v137 main_arg8 main_v138 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v139 (broadcastInDim S1x128 ![1] bcast_S128_S1x128_1 : (⟨S128, .f32⟩ : BufTy).Contents (Elt F) → (⟨S1x128, .f32⟩ : BufTy).Contents (Elt F)),
    unary main_v139 main_v140 (broadcastInDim S50000x128 ![0, 1] bcast_S1x128_S50000x128_0_1 : (⟨S1x128, .f32⟩ : BufTy).Contents (Elt F) → (⟨S50000x128, .f32⟩ : BufTy).Contents (Elt F)),
    binary main_v138 main_v140 main_v141 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v141) main_call3.v0 main_call3.v1 (cmpf .ogt),
    TRef.nullary main_call3.cst_0 (constant S_ .f32 0x00000000#32),
    TRef.unary main_call3.cst_0 main_call3.v2 (broadcastInDim S50000x128 ![] bcast_S_S50000x128),
    TRef.binary (.of main_v141) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S50000x128 ![] bcast_S_S50000x128),
    TRef.ternary main_call3.v3 main_call3.call0.v1 (.of main_v141) main_call3.call0.v2 select,
    TRef.unary main_call3.call0.v2 main_call3.v5 Host.expm1,
    TRef.nullary main_call3.cst_2 (constant S_ .f32 0x3F800000#32),
    TRef.unary main_call3.cst_2 main_call3.v6 (broadcastInDim S50000x128 ![] bcast_S_S50000x128),
    TRef.binary main_call3.v6 main_call3.v5 main_call3.v7 mulf,
    TRef.ternary main_call3.v1 (.of main_v141) main_call3.v7 main_call3.call1.v0 select,
    nullary main_cst_16 (constant S_ .f32 0x00000000#32),
    unary main_cst_16 main_v143 (broadcastInDim S128x128 ![] bcast_S_S128x128 : (⟨S_, .f32⟩ : BufTy).Contents (Elt F) → (⟨S128x128, .f32⟩ : BufTy).Contents (Elt F)),
    unary main_arg2 main_v144 (broadcastInDim S50000x1 ![0] bcast_S50000_S50000x1_0 : (⟨S50000, .i32⟩ : BufTy).Contents (Elt F) → (⟨S50000x1, .i32⟩ : BufTy).Contents (Elt F)),
    ternary main_v143 main_v144 main_v142 main_v145 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    binary main_v145 main_arg10 main_v146 ((fun l r => Host.dotGeneral dot_S128x128_S128x128_S128x128_1_0_0_1_n_n none l r) : (⟨S128x128, .f32⟩ : BufTy).Contents (Elt F) → (⟨S128x128, .f32⟩ : BufTy).Contents (Elt F) → (⟨S128x128, .f32⟩ : BufTy).Contents (Elt F)),
    unary main_arg11 main_v147 (broadcastInDim S1x128 ![1] bcast_S128_S1x128_1 : (⟨S128, .f32⟩ : BufTy).Contents (Elt F) → (⟨S1x128, .f32⟩ : BufTy).Contents (Elt F)),
    unary main_v147 main_v148 (broadcastInDim S128x128 ![0, 1] bcast_S1x128_S128x128_0_1 : (⟨S1x128, .f32⟩ : BufTy).Contents (Elt F) → (⟨S128x128, .f32⟩ : BufTy).Contents (Elt F)),
    binary main_v146 main_v148 main_v149 (addf : (⟨S128x128, .f32⟩ : BufTy).Contents (Elt F) → (⟨S128x128, .f32⟩ : BufTy).Contents (Elt F) → (⟨S128x128, .f32⟩ : BufTy).Contents (Elt F)),
    nullary main_cst_17 (constant S_ .f32 0x41200000#32),
    unary main_cst_17 main_v150 (broadcastInDim S128x128 ![] bcast_S_S128x128 : (⟨S_, .f32⟩ : BufTy).Contents (Elt F) → (⟨S128x128, .f32⟩ : BufTy).Contents (Elt F)),
    binary main_v149 main_v150 main_v151 (Host.divf : (⟨S128x128, .f32⟩ : BufTy).Contents (Elt F) → (⟨S128x128, .f32⟩ : BufTy).Contents (Elt F) → (⟨S128x128, .f32⟩ : BufTy).Contents (Elt F)) ]

abbrev ops : List (HloOp τ sig (Elt F)) := opsPre ++ opsL0 ++ opsL1 ++ opsL2 ++ opsTail

theorem ops_eq : (ops : List (HloOp τ sig (Elt F))) = opsPre ++ opsL0 ++ opsL1 ++ opsL2 ++ opsTail := rfl

set_option maxRecDepth 16384 in
theorem main_eq (c : Dev nD) : main (F := F) c = seq ops := by
  simp only [ops, opsPre, opsL0, opsL1, opsL2, opsTail, List.cons_append, List.nil_append, main, main_part0, main_part1,
    main_part2, fn_where.body, fn_where_0.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsPre, opsL0, opsL1, opsL2, opsTail, List.cons_append, List.nil_append, List.Forall, nullary_bufs_sub,
    unary_bufs_sub, binary_bufs_sub, ternary_bufs_sub, reshape_bufs_sub, and_self]

theorem ops_fresh : ∀ op ∈ (ops : List (HloOp τ sig (Elt F))), op.fresh = ∅ :=
  List.forall_iff_forall_mem.1 (by
    simp only [ops, opsPre, opsL0, opsL1, opsL2, opsTail, List.cons_append, List.nil_append, List.Forall]; repeat' constructor)

theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

abbrev writtenPre : List (Ref sig .tc) :=
  [ main_v0, main_v1, main_v2, main_v3, main_cst, main_v4, main_cst_0, main_v5,
    main_v6, main_v7, main_cst_1, main_v8, main_v9, main_v10, main_c, main_v11,
    main_v12, main_c_2, main_v13, main_v14, main_v15, main_v16, main_v17, main_c_3,
    main_v18, main_v19, main_c_4, main_v20, main_v21, main_v22, main_v23, main_v24,
    main_v25, main_v26, main_v27, main_v28, main_c_5, main_v29, main_v30, main_c_6,
    main_v31, main_v32, main_v33, main_v34, main_v35 ]

theorem opsPre_writes : (opsPre : List (HloOp τ sig (Elt F))).Forall fun op =>
    op.writes ⊆ (writtenPre.map (Proc.devRef (τ := τ) .tc)).toFinset := by
  simp only [List.Forall]; repeat' constructor
  all_goals exact writes_sub_of_mem _ rfl (by decide)

theorem opsPre_keeps (W : Valuation τ sig (Elt F)) {r : Ref sig .tc} (hr : r ∉ writtenPre) :
    after (opsPre (F := F)) W (Proc.devRef .tc r) = W (Proc.devRef .tc r) :=
  after_of_writes_sub opsPre W opsPre_writes hr

abbrev writtenL0 : List (Ref sig .tc) :=
  [ main_v36, main_v37, main_v38, main_c_7, main_v39, main_v40, main_c_8, main_v41,
    main_v42, main_v43, main_v44, main_v45, main_v46, main_v47, main_cst_9, main_v48,
    main_v49, main_v50, main_v51, main_v52, main_v53, main_v54, main_v55, main_v56,
    main_v57, main_v58, main_v59, main_v60, main_v61, main_v62, main_v63, main_v64,
    main_v65, main_v66, main_v67, main_call0.cst.ref, main_call0.v0.ref, main_call0.v1.ref, main_call0.cst_0.ref, main_call0.v2.ref,
    main_call0.v3.ref, main_call0.cst_1.ref, main_call0.call0.v0.ref, main_call0.call0.v1.ref, main_call0.call0.v2.ref, main_call0.v5.ref, main_call0.cst_2.ref, main_call0.v6.ref,
    main_call0.v7.ref, main_call0.call1.v0.ref, main_v69 ]

theorem opsL0_writes : (opsL0 : List (HloOp τ sig (Elt F))).Forall fun op =>
    op.writes ⊆ (writtenL0.map (Proc.devRef (τ := τ) .tc)).toFinset := by
  simp only [List.Forall]; repeat' constructor
  all_goals exact writes_sub_of_mem _ rfl (by decide)

theorem opsL0_keeps (W : Valuation τ sig (Elt F)) {r : Ref sig .tc} (hr : r ∉ writtenL0) :
    after (opsL0 (F := F)) W (Proc.devRef .tc r) = W (Proc.devRef .tc r) :=
  after_of_writes_sub opsL0 W opsL0_writes hr

abbrev writtenL1 : List (Ref sig .tc) :=
  [ main_v70, main_v71, main_v72, main_c_10, main_v73, main_v74, main_c_11, main_v75,
    main_v76, main_v77, main_v78, main_v79, main_v80, main_v81, main_cst_12, main_v82,
    main_v83, main_v84, main_v85, main_v86, main_v87, main_v88, main_v89, main_v90,
    main_v91, main_v92, main_v93, main_v94, main_v95, main_v96, main_v97, main_v98,
    main_v99, main_v100, main_v101, main_call1.cst.ref, main_call1.v0.ref, main_call1.v1.ref, main_call1.cst_0.ref, main_call1.v2.ref,
    main_call1.v3.ref, main_call1.cst_1.ref, main_call1.call0.v0.ref, main_call1.call0.v1.ref, main_call1.call0.v2.ref, main_call1.v5.ref, main_call1.cst_2.ref, main_call1.v6.ref,
    main_call1.v7.ref, main_call1.call1.v0.ref, main_v103 ]

theorem opsL1_writes : (opsL1 : List (HloOp τ sig (Elt F))).Forall fun op =>
    op.writes ⊆ (writtenL1.map (Proc.devRef (τ := τ) .tc)).toFinset := by
  simp only [List.Forall]; repeat' constructor
  all_goals exact writes_sub_of_mem _ rfl (by decide)

theorem opsL1_keeps (W : Valuation τ sig (Elt F)) {r : Ref sig .tc} (hr : r ∉ writtenL1) :
    after (opsL1 (F := F)) W (Proc.devRef .tc r) = W (Proc.devRef .tc r) :=
  after_of_writes_sub opsL1 W opsL1_writes hr

abbrev writtenL2 : List (Ref sig .tc) :=
  [ main_v104, main_v105, main_v106, main_c_13, main_v107, main_v108, main_c_14, main_v109,
    main_v110, main_v111, main_v112, main_v113, main_v114, main_v115, main_cst_15, main_v116,
    main_v117, main_v118, main_v119, main_v120, main_v121, main_v122, main_v123, main_v124,
    main_v125, main_v126, main_v127, main_v128, main_v129, main_v130, main_v131, main_v132,
    main_v133, main_v134, main_v135, main_call2.cst.ref, main_call2.v0.ref, main_call2.v1.ref, main_call2.cst_0.ref, main_call2.v2.ref,
    main_call2.v3.ref, main_call2.cst_1.ref, main_call2.call0.v0.ref, main_call2.call0.v1.ref, main_call2.call0.v2.ref, main_call2.v5.ref, main_call2.cst_2.ref, main_call2.v6.ref,
    main_call2.v7.ref, main_call2.call1.v0.ref, main_v137 ]

theorem opsL2_writes : (opsL2 : List (HloOp τ sig (Elt F))).Forall fun op =>
    op.writes ⊆ (writtenL2.map (Proc.devRef (τ := τ) .tc)).toFinset := by
  simp only [List.Forall]; repeat' constructor
  all_goals exact writes_sub_of_mem _ rfl (by decide)

theorem opsL2_keeps (W : Valuation τ sig (Elt F)) {r : Ref sig .tc} (hr : r ∉ writtenL2) :
    after (opsL2 (F := F)) W (Proc.devRef .tc r) = W (Proc.devRef .tc r) :=
  after_of_writes_sub opsL2 W opsL2_writes hr

abbrev writtenTail : List (Ref sig .tc) :=
  [ main_v138, main_v139, main_v140, main_v141, main_call3.cst.ref, main_call3.v0.ref, main_call3.v1.ref, main_call3.cst_0.ref,
    main_call3.v2.ref, main_call3.v3.ref, main_call3.cst_1.ref, main_call3.call0.v0.ref, main_call3.call0.v1.ref, main_call3.call0.v2.ref, main_call3.v5.ref, main_call3.cst_2.ref,
    main_call3.v6.ref, main_call3.v7.ref, main_call3.call1.v0.ref, main_cst_16, main_v143, main_v144, main_v145, main_v146,
    main_v147, main_v148, main_v149, main_cst_17, main_v150, main_v151 ]

theorem opsTail_writes : (opsTail : List (HloOp τ sig (Elt F))).Forall fun op =>
    op.writes ⊆ (writtenTail.map (Proc.devRef (τ := τ) .tc)).toFinset := by
  simp only [List.Forall]; repeat' constructor
  all_goals exact writes_sub_of_mem _ rfl (by decide)

theorem opsTail_keeps (W : Valuation τ sig (Elt F)) {r : Ref sig .tc} (hr : r ∉ writtenTail) :
    after (opsTail (F := F)) W (Proc.devRef .tc r) = W (Proc.devRef .tc r) :=
  after_of_writes_sub opsTail W opsTail_writes hr

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

abbrev written : List (Ref sig .tc) := writtenPre ++ writtenL0 ++ writtenL1 ++ writtenL2 ++ writtenTail

/-- A buffer no stage writes holds after the five stages what it held before them. -/
theorem arg_keeps (V : Valuation τ sig (Elt F)) {r : Ref sig .tc} (hr : r ∉ written) :
    after (ops (F := F)) V (Proc.devRef .tc r) = V (Proc.devRef .tc r) := by
  simp only [written, List.mem_append, not_or] at hr
  rw [ops_eq, after_app, after_app, after_app, after_app, opsTail_keeps _ hr.2, opsL2_keeps _ hr.1.2,
    opsL1_keeps _ hr.1.1.2, opsL0_keeps _ hr.1.1.1.2, opsPre_keeps _ hr.1.1.1.1]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v151) = after (ops (F := F)) (launchContents m c) (Proc.devRef .tc main_v151)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v151,
      (h c main_arg0).trans (arg_keeps _ (by decide)),
      (h c main_arg1).trans (arg_keeps _ (by decide)),
      (h c main_arg2).trans (arg_keeps _ (by decide)),
      (h c main_arg3).trans (arg_keeps _ (by decide)),
      (h c main_arg4).trans (arg_keeps _ (by decide)),
      (h c main_arg5).trans (arg_keeps _ (by decide)),
      (h c main_arg6).trans (arg_keeps _ (by decide)),
      (h c main_arg7).trans (arg_keeps _ (by decide)),
      (h c main_arg8).trans (arg_keeps _ (by decide)),
      (h c main_arg9).trans (arg_keeps _ (by decide)),
      (h c main_arg10).trans (arg_keeps _ (by decide)),
      (h c main_arg11).trans (arg_keeps _ (by decide))⟩)
    (run_seq scopedRefs_eq scopedSems_eq defs main (fun _ => ops) main_eq (fun _ => ops_sub) m ρ (fun _ => ops_fresh))

end Cert.ReferenceIdeal.RefValue

end
-- ==== Proof.Pre.lean ====
import proofs.«401955_j22634477650042_2_alg».proof.Pre_finite_inputs
import Idealize.ShloMosaic.Lib.Affine
import Idealize.ShloMosaic.Lib.ReduceAll
import Idealize.ShloMosaic.Lib.ValueIdx
import Idealize.ShloMosaic.Lib.IdealHost

namespace Cert.PreFacts

open Idealize.ShloMosaic Cert.Pre_finite_inputs

instance subsingleton_scalar_idx : Subsingleton S_.Idx := ⟨fun a b => funext fun d => d.elim0⟩

theorem word_eq_zero_of_signed_range (x : BitVec 32) (h0 : (0#32 : BitVec 32).toInt ≤ x.toInt)
    (h1 : x.toInt < (1#32 : BitVec 32).toInt) : x = 0#32 := by
  have e0 : (0#32 : BitVec 32).toInt = 0 := by decide
  have e1 : (1#32 : BitVec 32).toInt = 1 := by decide
  rw [e0] at h0
  rw [e1] at h1
  have hx : x.toInt = 0 := by omega
  exact BitVec.toInt_inj.1 (by rw [hx, e0])

theorem x_idx_zero {F : FTy → Type} [FloatOps F] [Cert.Pre_finite_inputs.Facts]
    (a0 : IVec S50000 32) (a1 : IVec S2x800000 32) (a2 : IVec S50000 32) (a3 : FVec F S1x128 .f32)
    (a4 : FVec F S3x128x128 .f32) (a5 : FVec F S3x128 .f32) (a6 : FVec F S3x128x128 .f32) (a7 : FVec F S3x128 .f32)
    (a8 : FVec F S128x128 .f32) (a9 : FVec F S128 .f32) (a10 : FVec F S128x128 .f32) (a11 : FVec F S128 .f32)
    (h : Cert.Pre_finite_inputs.fn (F := F) a0 a1 a2 a3 a4 a5 a6 a7 a8 a9 a10 a11 = fun _ => 1#1) :
    ∀ i : S50000.Idx, a0 i = 0#32 := by
  have h0 := congrFun h ValueIdx.ix0
  dsimp only [Cert.Pre_finite_inputs.fn, Cert.Pre_finite_inputs.fn_part1, Cert.Pre_finite_inputs.fn_part2] at h0
  obtain ⟨-, hall⟩ := IntOp.andi_eq_one.1 h0
  intro i
  have hi := Host.reduce_andi_all _ _ _ _ _ hall i
  obtain ⟨hge, hlt⟩ := IntOp.andi_eq_one.1 hi
  have hge' := IntOp.cmpi_sge.1 hge
  have hlt' := IntOp.cmpi_slt.1 hlt
  rw [ValueIdx.broadcastInDim_scalar_apply] at hge' hlt'
  exact word_eq_zero_of_signed_range (a0 i) hge' hlt'

end Cert.PreFacts
-- ==== Proof.KI.ValMM.lean ====
import proofs.«401955_j22634477650042_2_alg».proof.Proof.KI.RegMM
import Idealize.ShloMosaic.Lib.Pipeline.Value
import Idealize.ShloMosaic.Lib.ValueIdxCoords
import Idealize.ShloMosaic.PureOps.Ideal.Laws

noncomputable section
open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem lhs0_at (p : Fin 2000) (q : Fin 128) (k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have ck := contrEquiv1_symm_val dot_S2000x128_S128x128_S2000x128_1_0_0_1_n_n 128 rfl rfl k
  funext ax; apply Fin.ext
  match ax with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact ck

theorem rhs0_at (p : Fin 2000) (q : Fin 128) (k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have ck := contrEquiv1_symm_val dot_S2000x128_S128x128_S2000x128_1_0_0_1_n_n 128 rfl rfl k
  funext ax; apply Fin.ext
  match ax with
  | ⟨0, _⟩ => simp [DotDims.rhsIdx, dot_S2000x128_S128x128_S2000x128_1_0_0_1_n_n]; exact ck
  | ⟨1, _⟩ => simp [DotDims.rhsIdx, dot_S2000x128_S128x128_S2000x128_1_0_0_1_n_n]; rfl

theorem pay0_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  simp only [shapeCast_self]
  rw [truncf_apply]
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  rw [lhs0_at, rhs0_at, truncf_apply, truncf_apply]

variable (V : (c : Dev nD) → (b : Ref sig .tc) → Buf (Elt Ideal) ((c : Thread nD τ).loc b))

theorem zero_offsets0 : (![0, 0] : Fin 2 → Nat) = fun _ => 0 := funext fun a => by fin_cases a <;> rfl

abbrev lhsArr0 (c : Dev nD) : S50000x128.Idx → Ideal .f32 := V c (Pipeline.arrRef spec0 0)
abbrev rhsArr0 (c : Dev nD) : S128x128.Idx → Ideal .f32 := V c (Pipeline.arrRef spec0 1)

abbrev prodMM0 (a : S50000x128.Idx → Ideal .f32) (w : S128x128.Idx → Ideal .f32) : S50000x128.Idx → Ideal .bf16 :=
  fun i => ∑ k : Fin 128, a (ix2 (i 0) k) * w (ix2 k (i 1))

theorem idx_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (x : S2000x128.Idx) (i : S50000x128.Idx)
    (h0 : (i 0).val = 2000 * t.val + (x 0).val) (h1 : (i 1).val = (x 1).val) :
    (iblk0 V c 0 t : Vec Ideal S2000x128 .f32) x = lhsArr0 V c i := by
  obtain ⟨e0, e1, -⟩ := idx_maps0 t
  unfold iblk0
  rw [View.read_apply]
  refine congrArg (V c (Pipeline.arrRef spec0 0)) ?_
  funext a; apply Fin.ext
  match a with
  | ⟨0, _⟩ => show win0_0.index t (0 : Fin 2) * 2000 + 1 * (x 0).val = (i 0).val; rw [e0, h0]; omega
  | ⟨1, _⟩ => show win0_0.index t (1 : Fin 2) * 128 + 1 * (x 1).val = (i 1).val; rw [e1, h1]; omega

theorem iblk0_1_apply (c : Dev nD) (t : Fin cfg0.N) (x : S128x128.Idx) (i : S128x128.Idx)
    (h0 : (i 0).val = (x 0).val) (h1 : (i 1).val = (x 1).val) :
    (iblk0 V c 1 t : Vec Ideal S128x128 .f32) x = rhsArr0 V c i := by
  obtain ⟨-, -, e2, e3, -⟩ := idx_maps0 t
  unfold iblk0
  rw [View.read_apply]
  refine congrArg (V c (Pipeline.arrRef spec0 1)) ?_
  funext a; apply Fin.ext
  match a with
  | ⟨0, _⟩ => show win0_1.index t (0 : Fin 2) * 128 + 1 * (x 0).val = (i 0).val; rw [e2, h0]; omega
  | ⟨1, _⟩ => show win0_1.index t (1 : Fin 2) * 128 + 1 * (x 1).val = (i 1).val; rw [e3, h1]; omega

theorem emb0_2 (t : Fin cfg0.N) (x : S2000x128.Idx) :
    ((((cfg0.win 2).blk t).view.emb x : S50000x128.Idx) 0).val = 2000 * t.val + (x 0).val
      ∧ ((((cfg0.win 2).blk t).view.emb x : S50000x128.Idx) 1).val = (x 1).val := by
  obtain ⟨-, -, -, -, e4, e5⟩ := idx_maps0 t
  constructor
  · show win0_2.index t (0 : Fin 2) * 2000 + 1 * (x 0).val = _; rw [e4]; omega
  · show win0_2.index t (1 : Fin 2) * 128 + 1 * (x 1).val = _; rw [e5]; omega

theorem flushed0_2 (c : Dev nD) (t : Fin cfg0.N) :
    (dat0 (F := Ideal) V c).flushed 2 t
      = ((cfg0.win 2).blk t).view.read (Elt Ideal) (prodMM0 (lhsArr0 V c) (rhsArr0 V c)) := by
  show (cfg0.win 2).cut (grid0.coords t) ((dat0 (F := Ideal) V c).after 2 t) = _
  rw [after0_2]
  unfold out0_2
  rw [View.canon_unit_zero zero_offsets0]
  simp only [View.ld_unit_zero (S := S2000x128) zero_offsets0, View.ld_unit_zero (S := S128x128) zero_offsets0]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = prodMM0 (lhsArr0 V c) (rhsArr0 V c) (((cfg0.win 2).blk t).view.emb (ix2 p q))
  rw [pay0_apply]
  obtain ⟨r0, r1⟩ := emb0_2 t (ix2 p q)
  refine Finset.sum_congr rfl fun k _ => ?_
  rw [iblk0_0_apply V c t (ix2 p k) (ix2 ((((cfg0.win 2).blk t).view.emb (ix2 p q) : S50000x128.Idx) 0) k) r0 rfl,
    iblk0_1_apply V c t (ix2 k q) (ix2 k ((((cfg0.win 2).blk t).view.emb (ix2 p q) : S50000x128.Idx) 1)) rfl r1]

theorem mem_blk0_2 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

theorem covered0_2 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, e4, e5⟩ := idx_maps0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk0_2]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4']; omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    rw [e5]; omega

theorem arr0_2 (c : Dev nD) : (dat0 (F := Ideal) V c).arrAt 2 cfg0.N = prodMM0 (lhsArr0 V c) (rhsArr0 V c) :=
  (dat0 (F := Ideal) V c).arrAt_eq_of_cover 2 _ (fun t _ => flushed0_2 V c t) covered0_2

theorem arr0_2_apply (c : Dev nD) (r : Fin 50000) (q : Fin 128) :
    (dat0 (F := Ideal) V c).arrAt 2 cfg0.N (ix2 r q)
      = (∑ k : Fin 128, lhsArr0 V c (ix2 r k) * rhsArr0 V c (ix2 k q) : Ideal .bf16) :=
  congrFun (arr0_2 V c) (ix2 r q)

end Cert.KernelIdeal.Hand
-- ==== Proof.KI.ValMM2.lean ====
import proofs.«401955_j22634477650042_2_alg».proof.Proof.KI.RegMM2
import Idealize.ShloMosaic.Lib.Pipeline.Value
import Idealize.ShloMosaic.Lib.ValueIdxCoords
import Idealize.ShloMosaic.PureOps.Ideal.Laws

noncomputable section
open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem lhs2_at (p : Fin 2000) (q : Fin 128) (k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have ck := contrEquiv1_symm_val dot_S2000x128_S128x128_S2000x128_1_0_0_1_n_n 128 rfl rfl k
  funext ax; apply Fin.ext
  match ax with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact ck

theorem rhs2_at (p : Fin 2000) (q : Fin 128) (k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have ck := contrEquiv1_symm_val dot_S2000x128_S128x128_S2000x128_1_0_0_1_n_n 128 rfl rfl k
  funext ax; apply Fin.ext
  match ax with
  | ⟨0, _⟩ => simp [DotDims.rhsIdx, dot_S2000x128_S128x128_S2000x128_1_0_0_1_n_n]; exact ck
  | ⟨1, _⟩ => simp [DotDims.rhsIdx, dot_S2000x128_S128x128_S2000x128_1_0_0_1_n_n]; rfl

theorem pay2_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  simp only [shapeCast_self]
  rw [truncf_apply]
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  rw [lhs2_at, rhs2_at, truncf_apply, truncf_apply]

variable (V : (c : Dev nD) → (b : Ref sig .tc) → Buf (Elt Ideal) ((c : Thread nD τ).loc b))

theorem zero_offsets2 : (![0, 0] : Fin 2 → Nat) = fun _ => 0 := funext fun a => by fin_cases a <;> rfl

abbrev lhsArr2 (c : Dev nD) : S50000x128.Idx → Ideal .f32 := V c (Pipeline.arrRef spec2 0)
abbrev rhsArr2 (c : Dev nD) : S128x128.Idx → Ideal .f32 := V c (Pipeline.arrRef spec2 1)

abbrev prodMM2 (a : S50000x128.Idx → Ideal .f32) (w : S128x128.Idx → Ideal .f32) : S50000x128.Idx → Ideal .bf16 :=
  fun i => ∑ k : Fin 128, a (ix2 (i 0) k) * w (ix2 k (i 1))

theorem idx_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem iblk2_0_apply (c : Dev nD) (t : Fin cfg2.N) (x : S2000x128.Idx) (i : S50000x128.Idx)
    (h0 : (i 0).val = 2000 * t.val + (x 0).val) (h1 : (i 1).val = (x 1).val) :
    (iblk2 V c 0 t : Vec Ideal S2000x128 .f32) x = lhsArr2 V c i := by
  obtain ⟨e0, e1, -⟩ := idx_maps2 t
  unfold iblk2
  rw [View.read_apply]
  refine congrArg (V c (Pipeline.arrRef spec2 0)) ?_
  funext a; apply Fin.ext
  match a with
  | ⟨0, _⟩ => show win2_0.index t (0 : Fin 2) * 2000 + 1 * (x 0).val = (i 0).val; rw [e0, h0]; omega
  | ⟨1, _⟩ => show win2_0.index t (1 : Fin 2) * 128 + 1 * (x 1).val = (i 1).val; rw [e1, h1]; omega

theorem iblk2_1_apply (c : Dev nD) (t : Fin cfg2.N) (x : S128x128.Idx) (i : S128x128.Idx)
    (h0 : (i 0).val = (x 0).val) (h1 : (i 1).val = (x 1).val) :
    (iblk2 V c 1 t : Vec Ideal S128x128 .f32) x = rhsArr2 V c i := by
  obtain ⟨-, -, e2, e3, -⟩ := idx_maps2 t
  unfold iblk2
  rw [View.read_apply]
  refine congrArg (V c (Pipeline.arrRef spec2 1)) ?_
  funext a; apply Fin.ext
  match a with
  | ⟨0, _⟩ => show win2_1.index t (0 : Fin 2) * 128 + 1 * (x 0).val = (i 0).val; rw [e2, h0]; omega
  | ⟨1, _⟩ => show win2_1.index t (1 : Fin 2) * 128 + 1 * (x 1).val = (i 1).val; rw [e3, h1]; omega

theorem emb2_2 (t : Fin cfg2.N) (x : S2000x128.Idx) :
    ((((cfg2.win 2).blk t).view.emb x : S50000x128.Idx) 0).val = 2000 * t.val + (x 0).val
      ∧ ((((cfg2.win 2).blk t).view.emb x : S50000x128.Idx) 1).val = (x 1).val := by
  obtain ⟨-, -, -, -, e4, e5⟩ := idx_maps2 t
  constructor
  · show win2_2.index t (0 : Fin 2) * 2000 + 1 * (x 0).val = _; rw [e4]; omega
  · show win2_2.index t (1 : Fin 2) * 128 + 1 * (x 1).val = _; rw [e5]; omega

theorem flushed2_2 (c : Dev nD) (t : Fin cfg2.N) :
    (dat2 (F := Ideal) V c).flushed 2 t
      = ((cfg2.win 2).blk t).view.read (Elt Ideal) (prodMM2 (lhsArr2 V c) (rhsArr2 V c)) := by
  show (cfg2.win 2).cut (grid2.coords t) ((dat2 (F := Ideal) V c).after 2 t) = _
  rw [after2_2]
  unfold out2_2
  rw [View.canon_unit_zero zero_offsets2]
  simp only [View.ld_unit_zero (S := S2000x128) zero_offsets2, View.ld_unit_zero (S := S128x128) zero_offsets2]
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q)
    = prodMM2 (lhsArr2 V c) (rhsArr2 V c) (((cfg2.win 2).blk t).view.emb (ix2 p q))
  rw [pay2_apply]
  obtain ⟨r0, r1⟩ := emb2_2 t (ix2 p q)
  refine Finset.sum_congr rfl fun k _ => ?_
  rw [iblk2_0_apply V c t (ix2 p k) (ix2 ((((cfg2.win 2).blk t).view.emb (ix2 p q) : S50000x128.Idx) 0) k) r0 rfl,
    iblk2_1_apply V c t (ix2 k q) (ix2 k ((((cfg2.win 2).blk t).view.emb (ix2 p q) : S50000x128.Idx) 1)) rfl r1]

theorem mem_blk2_2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole (Pipeline.arrRef spec2 2)).slice (win2_2.rect t)).set ↔ _
  rw [View.set_slice_whole, Rect.mem_set_unit]
  exact Iff.rfl

theorem covered2_2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, e4, e5⟩ := idx_maps2 ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_blk2_2]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [e4']; omega
  | ⟨1, _⟩ =>
    show win2_2.index ⟨(i 0).val / 2000, hlt⟩ (1 : Fin 2) * 128 ≤ (i 1).val
      ∧ (i 1).val < win2_2.index ⟨(i 0).val / 2000, hlt⟩ (1 : Fin 2) * 128 + 128
    rw [e5]; omega

theorem arr2_2 (c : Dev nD) : (dat2 (F := Ideal) V c).arrAt 2 cfg2.N = prodMM2 (lhsArr2 V c) (rhsArr2 V c) :=
  (dat2 (F := Ideal) V c).arrAt_eq_of_cover 2 _ (fun t _ => flushed2_2 V c t) covered2_2

theorem arr2_2_apply (c : Dev nD) (r : Fin 50000) (q : Fin 128) :
    (dat2 (F := Ideal) V c).arrAt 2 cfg2.N (ix2 r q)
      = (∑ k : Fin 128, lhsArr2 V c (ix2 r k) * rhsArr2 V c (ix2 k q) : Ideal .bf16) :=
  congrFun (arr2_2 V c) (ix2 r q)

end Cert.KernelIdeal.Hand
-- ==== Proof.KI.ValMM4.lean ====
import proofs.«401955_j22634477650042_2_alg».proof.Proof.KI.RegMM4
import Idealize.ShloMosaic.Lib.Pipeline.Value
import Idealize.ShloMosaic.Lib.ValueIdxCoords
import Idealize.ShloMosaic.PureOps.Ideal.Laws

noncomputable section
open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem lhs4_at (p : Fin 2000) (q : Fin 128) (k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have ck := contrEquiv1_symm_val dot_S2000x128_S128x128_S2000x128_1_0_0_1_n_n 128 rfl rfl k
  funext ax; apply Fin.ext
  match ax with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact ck

theorem rhs4_at (p : Fin 2000) (q : Fin 128) (k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have ck := contrEquiv1_symm_val dot_S2000x128_S128x128_S2000x128_1_0_0_1_n_n 128 rfl rfl k
  funext ax; apply Fin.ext
  match ax with
  | ⟨0, _⟩ => simp [DotDims.rhsIdx, dot_S2000x128_S128x128_S2000x128_1_0_0_1_n_n]; exact ck
  | ⟨1, _⟩ => simp [DotDims.rhsIdx, dot_S2000x128_S128x128_S2000x128_1_0_0_1_n_n]; rfl

theorem pay4_apply (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) := by
  unfold k4_pay1
  simp only [shapeCast_self]
  rw [truncf_apply]
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  rw [lhs4_at, rhs4_at, truncf_apply, truncf_apply]

variable (V : (c : Dev nD) → (b : Ref sig .tc) → Buf (Elt Ideal) ((c : Thread nD τ).loc b))

theorem zero_offsets4 : (![0, 0] : Fin 2 → Nat) = fun _ => 0 := funext fun a => by fin_cases a <;> rfl

abbrev lhsArr4 (c : Dev nD) : S50000x128.Idx → Ideal .f32 := V c (Pipeline.arrRef spec4 0)
abbrev rhsArr4 (c : Dev nD) : S128x128.Idx → Ideal .f32 := V c (Pipeline.arrRef spec4 1)

abbrev prodMM4 (a : S50000x128.Idx → Ideal .f32) (w : S128x128.Idx → Ideal .f32) : S50000x128.Idx → Ideal .bf16 :=
  fun i => ∑ k : Fin 128, a (ix2 (i 0) k) * w (ix2 k (i 1))

theorem idx_maps4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem iblk4_0_apply (c : Dev nD) (t : Fin cfg4.N) (x : S2000x128.Idx) (i : S50000x128.Idx)
    (h0 : (i 0).val = 2000 * t.val + (x 0).val) (h1 : (i 1).val = (x 1).val) :
    (iblk4 V c 0 t : Vec Ideal S2000x128 .f32) x = lhsArr4 V c i := by
  obtain ⟨e0, e1, -⟩ := idx_maps4 t
  unfold iblk4
  rw [View.read_apply]
  refine congrArg (V c (Pipeline.arrRef spec4 0)) ?_
  funext a; apply Fin.ext
  match a with
  | ⟨0, _⟩ => show win4_0.index t (0 : Fin 2) * 2000 + 1 * (x 0).val = (i 0).val; rw [e0, h0]; omega
  | ⟨1, _⟩ => show win4_0.index t (1 : Fin 2) * 128 + 1 * (x 1).val = (i 1).val; rw [e1, h1]; omega

theorem iblk4_1_apply (c : Dev nD) (t : Fin cfg4.N) (x : S128x128.Idx) (i : S128x128.Idx)
    (h0 : (i 0).val = (x 0).val) (h1 : (i 1).val = (x 1).val) :
    (iblk4 V c 1 t : Vec Ideal S128x128 .f32) x = rhsArr4 V c i := by
  obtain ⟨-, -, e2, e3, -⟩ := idx_maps4 t
  unfold iblk4
  rw [View.read_apply]
  refine congrArg (V c (Pipeline.arrRef spec4 1)) ?_
  funext a; apply Fin.ext
  match a with
  | ⟨0, _⟩ => show win4_1.index t (0 : Fin 2) * 128 + 1 * (x 0).val = (i 0).val; rw [e2, h0]; omega
  | ⟨1, _⟩ => show win4_1.index t (1 : Fin 2) * 128 + 1 * (x 1).val = (i 1).val; rw [e3, h1]; omega

theorem emb4_2 (t : Fin cfg4.N) (x : S2000x128.Idx) :
    ((((cfg4.win 2).blk t).view.emb x : S50000x128.Idx) 0).val = 2000 * t.val + (x 0).val
      ∧ ((((cfg4.win 2).blk t).view.emb x : S50000x128.Idx) 1).val = (x 1).val := by
  obtain ⟨-, -, -, -, e4, e5⟩ := idx_maps4 t
  constructor
  · show win4_2.index t (0 : Fin 2) * 2000 + 1 * (x 0).val = _; rw [e4]; omega
  · show win4_2.index t (1 : Fin 2) * 128 + 1 * (x 1).val = _; rw [e5]; omega

theorem flushed4_2 (c : Dev nD) (t : Fin cfg4.N) :
    (dat4 (F := Ideal) V c).flushed 2 t
      = ((cfg4.win 2).blk t).view.read (Elt Ideal) (prodMM4 (lhsArr4 V c) (rhsArr4 V c)) := by
  show (cfg4.win 2).cut (grid4.coords t) ((dat4 (F := Ideal) V c).after 2 t) = _
  rw [after4_2]
  unfold out4_2
  rw [View.canon_unit_zero zero_offsets4]
  simp only [View.ld_unit_zero (S := S2000x128) zero_offsets4, View.ld_unit_zero (S := S128x128) zero_offsets4]
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (ix2 p q)
    = prodMM4 (lhsArr4 V c) (rhsArr4 V c) (((cfg4.win 2).blk t).view.emb (ix2 p q))
  rw [pay4_apply]
  obtain ⟨r0, r1⟩ := emb4_2 t (ix2 p q)
  refine Finset.sum_congr rfl fun k _ => ?_
  rw [iblk4_0_apply V c t (ix2 p k) (ix2 ((((cfg4.win 2).blk t).view.emb (ix2 p q) : S50000x128.Idx) 0) k) r0 rfl,
    iblk4_1_apply V c t (ix2 k q) (ix2 k ((((cfg4.win 2).blk t).view.emb (ix2 p q) : S50000x128.Idx) 1)) rfl r1]

theorem mem_blk4_2 (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

theorem covered4_2 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  have hlt : (i 0).val / 2000 < cfg4.N := by rw [hN]; omega
  obtain ⟨-, -, -, -, e4, e5⟩ := idx_maps4 ⟨(i 0).val / 2000, hlt⟩
  have e4' : win4_2.index ⟨(i 0).val / 2000, hlt⟩ (0 : Fin 2) = (i 0).val / 2000 := e4
  refine ⟨⟨(i 0).val / 2000, hlt⟩, flush4_2 _, ?_⟩
  rw [mem_blk4_2]
  intro a
  match a with
  | ⟨0, _⟩ =>
    show win4_2.index ⟨(i 0).val / 2000, hlt⟩ (0 : Fin 2) * 2000 ≤ (i 0).val
      ∧ (i 0).val < win4_2.index ⟨(i 0).val / 2000, hlt⟩ (0 : Fin 2) * 2000 + 2000
    rw [e4']; omega
  | ⟨1, _⟩ =>
    show win4_2.index ⟨(i 0).val / 2000, hlt⟩ (1 : Fin 2) * 128 ≤ (i 1).val
      ∧ (i 1).val < win4_2.index ⟨(i 0).val / 2000, hlt⟩ (1 : Fin 2) * 128 + 128
    rw [e5]; omega

theorem arr4_2 (c : Dev nD) : (dat4 (F := Ideal) V c).arrAt 2 cfg4.N = prodMM4 (lhsArr4 V c) (rhsArr4 V c) :=
  (dat4 (F := Ideal) V c).arrAt_eq_of_cover 2 _ (fun t _ => flushed4_2 V c t) covered4_2

theorem arr4_2_apply (c : Dev nD) (r : Fin 50000) (q : Fin 128) :
    (dat4 (F := Ideal) V c).arrAt 2 cfg4.N (ix2 r q)
      = (∑ k : Fin 128, lhsArr4 V c (ix2 r k) * rhsArr4 V c (ix2 k q) : Ideal .bf16) :=
  congrFun (arr4_2 V c) (ix2 r q)

end Cert.KernelIdeal.Hand
-- ==== Proof.LibKeepdims.lean ====
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.SpecDefs.lean ====
import Idealize.ShloMosaic.PureOps.Ideal

noncomputable section

namespace Cert.Spec

open Idealize.ShloMosaic

def elu (x : EReal) : EReal := if 0 < x then x else Ideal.exp x - 1

def ind (w : BitVec 32) (g : Fin 128) : EReal := if w = BitVec.ofNat 32 g.val then 1 else 0

end Cert.Spec

end
-- ==== Proof.KI.ValCB.lean ====
import proofs.«401955_j22634477650042_2_alg».proof.Proof.KI.RegCB
import proofs.«401955_j22634477650042_2_alg».proof.Proof.LibKeepdims
import proofs.«401955_j22634477650042_2_alg».proof.Proof.SpecDefs
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section
open scoped BigOperators

namespace Cert.KernelIdeal.Hand

open Cert.KernelIdeal Cert.KernelIdeal.Gen
open Idealize.ShloMosaic Idealize.ShloMosaic.TcCoe Idealize.ShloMosaic.ValueIdx Idealize.ShloMosaic.Keepdims
open Idealize.SL Idealize.SL.Sem
open Idealize.ShloMosaic.Pipeline (Dat Cfg Window)

theorem lhs1_at (p : Fin 2000) (q k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  funext a
  refine Fin.ext ?_
  match a with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact hk

theorem rhs1_at (p : Fin 2000) (q k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  funext a
  refine Fin.ext ?_
  match a with
  | ⟨0, _⟩ => simp [DotDims.rhsIdx, dot_S2000x128_S128x128_S2000x128_1_0_0_1_n_n]; exact hk
  | ⟨1, _⟩ => simp [DotDims.rhsIdx, dot_S2000x128_S128x128_S2000x128_1_0_0_1_n_n]; rfl

theorem elu1_select (x : EReal) :
    Scalar.select (Ideal.cmp .ogt x (Ideal.ofBits .f32 0x00000000#32)) x (Ideal.exp x - Ideal.ofBits .f32 0x3F800000#32)
      = Cert.Spec.elu x := by
  rw [Ideal.ofBits_zero_f32, Ideal.ofBits_one_f32]
  unfold Cert.Spec.elu Scalar.select Ideal.cmp
  by_cases h : 0 < x
  · simp [h]
  · simp [h]

theorem pay1_apply (xw : Vec Ideal S2000x128 .bf16) (ag : Vec Ideal S2000x128 .f32) (sn : Vec Ideal S2000x1 .f32)
    (ac : Vec Ideal S2000x128 .f32) (lw : Vec Ideal S128x128 .f32) (cb lb : Vec Ideal S1x128 .f32)
    (ac' : Vec Ideal S2000x128 .f32) (p : Fin 2000) (q : Fin 128) :
    k1_pay1 (F := Ideal) xw ag sn ac lw cb lb ac' (ix2 p q)
      = ac' (ix2 p q) + Cert.Spec.elu ((((ag (ix2 p q) + xw (ix2 p q) * sn (ix2 p (0 : Fin 1))) + cb (ix2 (0 : Fin 1) q))
          + ∑ k : Fin 128, ac (ix2 p k) * lw (ix2 k q)) + lb (ix2 (0 : Fin 1) q)) := by
  have hmm : FloatOps.matmul dot_S2000x128_S128x128_S2000x128_1_0_0_1_n_n none
        (truncf .bf16 ac bitsLt_bf16_f32 : FVec Ideal S2000x128 .bf16) (truncf .bf16 lw bitsLt_bf16_f32 : FVec Ideal S128x128 .bf16)
        (constant S2000x128 .f32 0x00000000#32) (ix2 p q)
      = ∑ k : Fin 128, ac (ix2 p k) * lw (ix2 k q) := by
    rw [Ideal.matmul_constant_zero_apply,
      ← Equiv.sum_comp (contrEquiv1 dot_S2000x128_S128x128_S2000x128_1_0_0_1_n_n 128 rfl rfl).symm]
    refine Finset.sum_congr rfl fun k _ => ?_
    rw [lhs1_at, rhs1_at]; rfl
  have hsn : broadcastTo S2000x128 sn broadcasts_S2000x1_S2000x128 (ix2 p q) = sn (ix2 p (0 : Fin 1)) :=
    broadcastTo_a1_ab_apply sn broadcasts_S2000x1_S2000x128 p q
  have hcb : broadcastTo S2000x128 cb broadcasts_S1x128_S2000x128 (ix2 p q) = cb (ix2 (0 : Fin 1) q) :=
    broadcastTo_1b_ab_apply cb broadcasts_S1x128_S2000x128 p q
  have hlb : broadcastTo S2000x128 lb broadcasts_S1x128_S2000x128 (ix2 p q) = lb (ix2 (0 : Fin 1) q) :=
    broadcastTo_1b_ab_apply lb broadcasts_S1x128_S2000x128 p q
  unfold k1_pay1
  simp only [shapeCast_self]
  rw [← elu1_select, ← hmm, ← hsn, ← hcb, ← hlb]
  rfl

variable (V : (c : Dev nD) → (b : Ref sig .tc) → Buf (Elt Ideal) ((c : Thread nD τ).loc b))

abbrev in1_0 (c : Dev nD) : S50000x128.Idx → EReal := V c (Pipeline.arrRef spec1 0)
abbrev in1_1 (c : Dev nD) : S50000x128.Idx → EReal := V c (Pipeline.arrRef spec1 1)
abbrev in1_2 (c : Dev nD) : S50000x1.Idx → EReal := V c (Pipeline.arrRef spec1 2)
abbrev in1_3 (c : Dev nD) : S1x128.Idx → EReal := V c (Pipeline.arrRef spec1 3)
abbrev in1_4 (c : Dev nD) : S128x128.Idx → EReal := V c (Pipeline.arrRef spec1 4)
abbrev in1_5 (c : Dev nD) : S1x128.Idx → EReal := V c (Pipeline.arrRef spec1 5)
abbrev in1_6 (c : Dev nD) : S50000x128.Idx → EReal := V c (Pipeline.arrRef spec1 6)

def G1_7 (c : Dev nD) : S50000x128.Idx → EReal := fun i =>
  in1_6 V c i + Cert.Spec.elu ((((in1_0 V c i + in1_1 V c i * in1_2 V c (ix2 (i 0) (0 : Fin 1))) + in1_3 V c (ix2 (0 : Fin 1) (i 1)))
    + ∑ k : Fin 128, in1_6 V c (ix2 (i 0) k) * in1_4 V c (ix2 k (i 1))) + in1_5 V c (ix2 (0 : Fin 1) (i 1)))

theorem hz1 : (![0, 0] : Fin 2 → Nat) = fun _ => 0 := funext fun a => by fin_cases a <;> rfl

theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = win1_7.index t (0 : Fin 2) ∧ win1_6.index t (1 : Fin 2) = 0
    ∧ win1_7.index t (1 : Fin 2) = 0 :=
  (by decide +kernel : ∀ t : Fin grid1.N, _)

theorem idx_le1 : ∀ t : Fin cfg1.N, win1_7.index t (0 : Fin 2) ≤ 24 :=
  (by decide +kernel : ∀ t : Fin grid1.N, _)

theorem idx_onto1 : ∀ q0 : Fin 25, ∃ t : Fin cfg1.N, win1_7.index t = ![q0.val, 0] :=
  (by decide +kernel : ∀ q0 : Fin 25, ∃ t : Fin grid1.N, win1_7.index t = ![q0.val, 0])

def row1 (t : Fin cfg1.N) (p : Fin 2000) : Fin 50000 :=
  ⟨win1_7.index t (0 : Fin 2) * 2000 + p.val, by have h := idx_le1 t; have hp := p.isLt; omega⟩

abbrev xb1_0 (c : Dev nD) (t : Fin cfg1.N) : Vec Ideal S2000x128 .f32 := iblk1 V c 0 t
abbrev xb1_1 (c : Dev nD) (t : Fin cfg1.N) : Vec Ideal S2000x128 .bf16 := iblk1 V c 1 t
abbrev xb1_2 (c : Dev nD) (t : Fin cfg1.N) : Vec Ideal S2000x1 .f32 := iblk1 V c 2 t
abbrev xb1_3 (c : Dev nD) (t : Fin cfg1.N) : Vec Ideal S1x128 .f32 := iblk1 V c 3 t
abbrev xb1_4 (c : Dev nD) (t : Fin cfg1.N) : Vec Ideal S128x128 .f32 := iblk1 V c 4 t
abbrev xb1_5 (c : Dev nD) (t : Fin cfg1.N) : Vec Ideal S1x128 .f32 := iblk1 V c 5 t
abbrev xb1_6 (c : Dev nD) (t : Fin cfg1.N) : Vec Ideal S2000x128 .f32 := iblk1 V c 6 t

theorem emb1_7_at (t : Fin cfg1.N) (p : Fin 2000) (q : Fin 128) :
    ((cfg1.win 7).blk t).view.emb (ix2 p q) = (ix2 (row1 t p) q : S50000x128.Idx) := by
  obtain ⟨e00, e01, e10, e11, e20, e21, e30, e31, e40, e41, e50, e51, e60, e61, e71⟩ := idx_facts1 t
  funext a; refine Fin.ext ?_
  match a with
  | ⟨0, _⟩ => show win1_7.index t (0 : Fin 2) * 2000 + 1 * p.val = win1_7.index t (0 : Fin 2) * 2000 + p.val; omega
  | ⟨1, _⟩ => show win1_7.index t (1 : Fin 2) * 128 + 1 * q.val = q.val; omega

theorem blk1_0_at (c : Dev nD) (t : Fin cfg1.N) (p : Fin 2000) (q : Fin 128) :
    xb1_0 V c t (ix2 p q) = in1_0 V c (ix2 (row1 t p) q) := by
  obtain ⟨e00, e01, e10, e11, e20, e21, e30, e31, e40, e41, e50, e51, e60, e61, e71⟩ := idx_facts1 t
  show V c (Pipeline.arrRef spec1 0) (((cfg1.win 0).blk t).view.emb (ix2 p q)) = V c (Pipeline.arrRef spec1 0) (ix2 (row1 t p) q)
  refine congrArg _ (funext fun a => Fin.ext ?_)
  match a with
  | ⟨0, _⟩ => show win1_0.index t (0 : Fin 2) * 2000 + 1 * p.val = win1_7.index t (0 : Fin 2) * 2000 + p.val; omega
  | ⟨1, _⟩ => show win1_0.index t (1 : Fin 2) * 128 + 1 * q.val = q.val; omega

theorem blk1_1_at (c : Dev nD) (t : Fin cfg1.N) (p : Fin 2000) (q : Fin 128) :
    xb1_1 V c t (ix2 p q) = in1_1 V c (ix2 (row1 t p) q) := by
  obtain ⟨e00, e01, e10, e11, e20, e21, e30, e31, e40, e41, e50, e51, e60, e61, e71⟩ := idx_facts1 t
  show V c (Pipeline.arrRef spec1 1) (((cfg1.win 1).blk t).view.emb (ix2 p q)) = V c (Pipeline.arrRef spec1 1) (ix2 (row1 t p) q)
  refine congrArg _ (funext fun a => Fin.ext ?_)
  match a with
  | ⟨0, _⟩ => show win1_1.index t (0 : Fin 2) * 2000 + 1 * p.val = win1_7.index t (0 : Fin 2) * 2000 + p.val; omega
  | ⟨1, _⟩ => show win1_1.index t (1 : Fin 2) * 128 + 1 * q.val = q.val; omega

theorem blk1_2_at (c : Dev nD) (t : Fin cfg1.N) (p : Fin 2000) :
    xb1_2 V c t (ix2 p (0 : Fin 1)) = in1_2 V c (ix2 (row1 t p) (0 : Fin 1)) := by
  obtain ⟨e00, e01, e10, e11, e20, e21, e30, e31, e40, e41, e50, e51, e60, e61, e71⟩ := idx_facts1 t
  show V c (Pipeline.arrRef spec1 2) (((cfg1.win 2).blk t).view.emb (ix2 p (0 : Fin 1))) = V c (Pipeline.arrRef spec1 2) (ix2 (row1 t p) (0 : Fin 1))
  refine congrArg _ (funext fun a => Fin.ext ?_)
  match a with
  | ⟨0, _⟩ => show win1_2.index t (0 : Fin 2) * 2000 + 1 * p.val = win1_7.index t (0 : Fin 2) * 2000 + p.val; omega
  | ⟨1, _⟩ => show win1_2.index t (1 : Fin 2) * 1 + 1 * 0 = 0; omega

theorem blk1_3_at (c : Dev nD) (t : Fin cfg1.N) (q : Fin 128) :
    xb1_3 V c t (ix2 (0 : Fin 1) q) = in1_3 V c (ix2 (0 : Fin 1) q) := by
  obtain ⟨e00, e01, e10, e11, e20, e21, e30, e31, e40, e41, e50, e51, e60, e61, e71⟩ := idx_facts1 t
  show V c (Pipeline.arrRef spec1 3) (((cfg1.win 3).blk t).view.emb (ix2 (0 : Fin 1) q)) = V c (Pipeline.arrRef spec1 3) (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem blk1_4_at (c : Dev nD) (t : Fin cfg1.N) (k q : Fin 128) :
    xb1_4 V c t (ix2 k q) = in1_4 V c (ix2 k q) := by
  obtain ⟨e00, e01, e10, e11, e20, e21, e30, e31, e40, e41, e50, e51, e60, e61, e71⟩ := idx_facts1 t
  show V c (Pipeline.arrRef spec1 4) (((cfg1.win 4).blk t).view.emb (ix2 k q)) = V c (Pipeline.arrRef spec1 4) (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem blk1_5_at (c : Dev nD) (t : Fin cfg1.N) (q : Fin 128) :
    xb1_5 V c t (ix2 (0 : Fin 1) q) = in1_5 V c (ix2 (0 : Fin 1) q) := by
  obtain ⟨e00, e01, e10, e11, e20, e21, e30, e31, e40, e41, e50, e51, e60, e61, e71⟩ := idx_facts1 t
  show V c (Pipeline.arrRef spec1 5) (((cfg1.win 5).blk t).view.emb (ix2 (0 : Fin 1) q)) = V c (Pipeline.arrRef spec1 5) (ix2 (0 : Fin 1) q)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

theorem blk1_6_at (c : Dev nD) (t : Fin cfg1.N) (p : Fin 2000) (q : Fin 128) :
    xb1_6 V c t (ix2 p q) = in1_6 V c (ix2 (row1 t p) q) := by
  obtain ⟨e00, e01, e10, e11, e20, e21, e30, e31, e40, e41, e50, e51, e60, e61, e71⟩ := idx_facts1 t
  show V c (Pipeline.arrRef spec1 6) (((cfg1.win 6).blk t).view.emb (ix2 p q)) = V c (Pipeline.arrRef spec1 6) (ix2 (row1 t p) q)
  refine congrArg _ (funext fun a => Fin.ext ?_)
  match a with
  | ⟨0, _⟩ => show win1_6.index t (0 : Fin 2) * 2000 + 1 * p.val = win1_7.index t (0 : Fin 2) * 2000 + p.val; omega
  | ⟨1, _⟩ => show win1_6.index t (1 : Fin 2) * 128 + 1 * q.val = q.val; omega

theorem flushed1_7_eq (c : Dev nD) (t : Fin cfg1.N) :
    (dat1 (F := Ideal) V c).flushed 7 t = ((cfg1.win 7).blk t).view.read (Elt Ideal) (G1_7 V c) := by
  show (cfg1.win 7).cut (grid1.coords t) ((dat1 (F := Ideal) V c).after 7 t) = _
  rw [after1_7]
  unfold out1_7
  rw [View.canon_unit_zero hz1]
  simp only [View.ld_unit_zero (S := S2000x128) hz1, View.ld_unit_zero (S := S2000x1) hz1,
    View.ld_unit_zero (S := S1x128) hz1, View.ld_unit_zero (S := S128x128) hz1]
  funext j
  obtain ⟨p, q, rfl⟩ : ∃ (p : Fin 2000) (q : Fin 128), j = ix2 p q := ⟨j 0, j 1, eq_ix2 j⟩
  show k1_pay1 (F := Ideal) (xb1_1 V c t) (xb1_0 V c t) (xb1_2 V c t) (xb1_6 V c t) (xb1_4 V c t) (xb1_3 V c t)
      (xb1_5 V c t) (xb1_6 V c t) (ix2 p q) = G1_7 V c (((cfg1.win 7).blk t).view.emb (ix2 p q))
  refine (pay1_apply (xb1_1 V c t) (xb1_0 V c t) (xb1_2 V c t) (xb1_6 V c t) (xb1_4 V c t) (xb1_3 V c t)
      (xb1_5 V c t) (xb1_6 V c t) p q).trans ?_
  have hs : (∑ k : Fin 128, xb1_6 V c t (ix2 p k) * xb1_4 V c t (ix2 k q))
      = ∑ k : Fin 128, in1_6 V c (ix2 (row1 t p) k) * in1_4 V c (ix2 k q) :=
    Finset.sum_congr rfl fun k _ => by rw [blk1_6_at V c t p k, blk1_4_at V c t k q]
  rw [hs, emb1_7_at t p q, blk1_0_at V c t p q, blk1_1_at V c t p q, blk1_2_at V c t p, blk1_3_at V c t q, blk1_5_at V c t q,
    blk1_6_at V c t p q]
  rfl

theorem mem_blk1_7 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole (Pipeline.arrRef spec1 7)).slice (win1_7.rect t)).set ↔ _
  rw [View.set_slice_whole, Rect.mem_set_unit]
  exact Iff.rfl

theorem cover1_7_arr (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := idx_onto1 ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk1_7]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

theorem arr1_7 (c : Dev nD) : (dat1 (F := Ideal) V c).arrAt 7 cfg1.N = G1_7 V c :=
  (dat1 (F := Ideal) V c).arrAt_eq_of_cover 7 (G1_7 V c) (fun t _ => flushed1_7_eq V c t) cover1_7_arr

theorem arr1_7_apply (c : Dev nD) (r : Fin 50000) (q : Fin 128) :
    (dat1 (F := Ideal) V c).arrAt 7 cfg1.N (ix2 r q)
      = in1_6 V c (ix2 r q) + Cert.Spec.elu ((((in1_0 V c (ix2 r q) + in1_1 V c (ix2 r q) * in1_2 V c (ix2 r (0 : Fin 1)))
          + in1_3 V c (ix2 (0 : Fin 1) q)) + ∑ k : Fin 128, in1_6 V c (ix2 r k) * in1_4 V c (ix2 k q)) + in1_5 V c (ix2 (0 : Fin 1) q)) := by
  rw [arr1_7]; rfl

end Cert.KernelIdeal.Hand

end
-- ==== Proof.KI.ValCB3.lean ====
import proofs.«401955_j22634477650042_2_alg».proof.Proof.KI.RegCB3
import proofs.«401955_j22634477650042_2_alg».proof.Proof.LibKeepdims
import proofs.«401955_j22634477650042_2_alg».proof.Proof.SpecDefs
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section
open scoped BigOperators

namespace Cert.KernelIdeal.Hand

open Cert.KernelIdeal Cert.KernelIdeal.Gen
open Idealize.ShloMosaic Idealize.ShloMosaic.TcCoe Idealize.ShloMosaic.ValueIdx Idealize.ShloMosaic.Keepdims
open Idealize.SL Idealize.SL.Sem
open Idealize.ShloMosaic.Pipeline (Dat Cfg Window)

theorem lhs3_at (p : Fin 2000) (q k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  funext a
  refine Fin.ext ?_
  match a with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact hk

theorem rhs3_at (p : Fin 2000) (q k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  funext a
  refine Fin.ext ?_
  match a with
  | ⟨0, _⟩ => simp [DotDims.rhsIdx, dot_S2000x128_S128x128_S2000x128_1_0_0_1_n_n]; exact hk
  | ⟨1, _⟩ => simp [DotDims.rhsIdx, dot_S2000x128_S128x128_S2000x128_1_0_0_1_n_n]; rfl

theorem elu3_select (x : EReal) :
    Scalar.select (Ideal.cmp .ogt x (Ideal.ofBits .f32 0x00000000#32)) x (Ideal.exp x - Ideal.ofBits .f32 0x3F800000#32)
      = Cert.Spec.elu x := by
  rw [Ideal.ofBits_zero_f32, Ideal.ofBits_one_f32]
  unfold Cert.Spec.elu Scalar.select Ideal.cmp
  by_cases h : 0 < x
  · simp [h]
  · simp [h]

theorem pay3_apply (xw : Vec Ideal S2000x128 .bf16) (ag : Vec Ideal S2000x128 .f32) (sn : Vec Ideal S2000x1 .f32)
    (ac : Vec Ideal S2000x128 .f32) (lw : Vec Ideal S128x128 .f32) (cb lb : Vec Ideal S1x128 .f32)
    (ac' : Vec Ideal S2000x128 .f32) (p : Fin 2000) (q : Fin 128) :
    k3_pay1 (F := Ideal) xw ag sn ac lw cb lb ac' (ix2 p q)
      = ac' (ix2 p q) + Cert.Spec.elu ((((ag (ix2 p q) + xw (ix2 p q) * sn (ix2 p (0 : Fin 1))) + cb (ix2 (0 : Fin 1) q))
          + ∑ k : Fin 128, ac (ix2 p k) * lw (ix2 k q)) + lb (ix2 (0 : Fin 1) q)) := by
  have hmm : FloatOps.matmul dot_S2000x128_S128x128_S2000x128_1_0_0_1_n_n none
        (truncf .bf16 ac bitsLt_bf16_f32 : FVec Ideal S2000x128 .bf16) (truncf .bf16 lw bitsLt_bf16_f32 : FVec Ideal S128x128 .bf16)
        (constant S2000x128 .f32 0x00000000#32) (ix2 p q)
      = ∑ k : Fin 128, ac (ix2 p k) * lw (ix2 k q) := by
    rw [Ideal.matmul_constant_zero_apply,
      ← Equiv.sum_comp (contrEquiv1 dot_S2000x128_S128x128_S2000x128_1_0_0_1_n_n 128 rfl rfl).symm]
    refine Finset.sum_congr rfl fun k _ => ?_
    rw [lhs3_at, rhs3_at]; rfl
  have hsn : broadcastTo S2000x128 sn broadcasts_S2000x1_S2000x128 (ix2 p q) = sn (ix2 p (0 : Fin 1)) :=
    broadcastTo_a1_ab_apply sn broadcasts_S2000x1_S2000x128 p q
  have hcb : broadcastTo S2000x128 cb broadcasts_S1x128_S2000x128 (ix2 p q) = cb (ix2 (0 : Fin 1) q) :=
    broadcastTo_1b_ab_apply cb broadcasts_S1x128_S2000x128 p q
  have hlb : broadcastTo S2000x128 lb broadcasts_S1x128_S2000x128 (ix2 p q) = lb (ix2 (0 : Fin 1) q) :=
    broadcastTo_1b_ab_apply lb broadcasts_S1x128_S2000x128 p q
  unfold k3_pay1
  simp only [shapeCast_self]
  rw [← elu3_select, ← hmm, ← hsn, ← hcb, ← hlb]
  rfl

variable (V : (c : Dev nD) → (b : Ref sig .tc) → Buf (Elt Ideal) ((c : Thread nD τ).loc b))

abbrev in3_0 (c : Dev nD) : S50000x128.Idx → EReal := V c (Pipeline.arrRef spec3 0)
abbrev in3_1 (c : Dev nD) : S50000x128.Idx → EReal := V c (Pipeline.arrRef spec3 1)
abbrev in3_2 (c : Dev nD) : S50000x1.Idx → EReal := V c (Pipeline.arrRef spec3 2)
abbrev in3_3 (c : Dev nD) : S1x128.Idx → EReal := V c (Pipeline.arrRef spec3 3)
abbrev in3_4 (c : Dev nD) : S128x128.Idx → EReal := V c (Pipeline.arrRef spec3 4)
abbrev in3_5 (c : Dev nD) : S1x128.Idx → EReal := V c (Pipeline.arrRef spec3 5)
abbrev in3_6 (c : Dev nD) : S50000x128.Idx → EReal := V c (Pipeline.arrRef spec3 6)

def G3_7 (c : Dev nD) : S50000x128.Idx → EReal := fun i =>
  in3_6 V c i + Cert.Spec.elu ((((in3_0 V c i + in3_1 V c i * in3_2 V c (ix2 (i 0) (0 : Fin 1))) + in3_3 V c (ix2 (0 : Fin 1) (i 1)))
    + ∑ k : Fin 128, in3_6 V c (ix2 (i 0) k) * in3_4 V c (ix2 k (i 1))) + in3_5 V c (ix2 (0 : Fin 1) (i 1)))

theorem hz3 : (![0, 0] : Fin 2 → Nat) = fun _ => 0 := funext fun a => by fin_cases a <;> rfl

theorem idx_facts3 : ∀ t : Fin cfg3.N,
    win3_0.index t (0 : Fin 2) = win3_7.index t (0 : Fin 2) ∧ win3_0.index t (1 : Fin 2) = 0
    ∧ win3_1.index t (0 : Fin 2) = win3_7.index t (0 : Fin 2) ∧ win3_1.index t (1 : Fin 2) = 0
    ∧ win3_2.index t (0 : Fin 2) = win3_7.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = win3_7.index t (0 : Fin 2) ∧ win3_6.index t (1 : Fin 2) = 0
    ∧ win3_7.index t (1 : Fin 2) = 0 :=
  (by decide +kernel : ∀ t : Fin grid3.N, _)

theorem idx_le3 : ∀ t : Fin cfg3.N, win3_7.index t (0 : Fin 2) ≤ 24 :=
  (by decide +kernel : ∀ t : Fin grid3.N, _)

theorem idx_onto3 : ∀ q0 : Fin 25, ∃ t : Fin cfg3.N, win3_7.index t = ![q0.val, 0] :=
  (by decide +kernel : ∀ q0 : Fin 25, ∃ t : Fin grid3.N, win3_7.index t = ![q0.val, 0])

def row3 (t : Fin cfg3.N) (p : Fin 2000) : Fin 50000 :=
  ⟨win3_7.index t (0 : Fin 2) * 2000 + p.val, by have h := idx_le3 t; have hp := p.isLt; omega⟩

abbrev xb3_0 (c : Dev nD) (t : Fin cfg3.N) : Vec Ideal S2000x128 .f32 := iblk3 V c 0 t
abbrev xb3_1 (c : Dev nD) (t : Fin cfg3.N) : Vec Ideal S2000x128 .bf16 := iblk3 V c 1 t
abbrev xb3_2 (c : Dev nD) (t : Fin cfg3.N) : Vec Ideal S2000x1 .f32 := iblk3 V c 2 t
abbrev xb3_3 (c : Dev nD) (t : Fin cfg3.N) : Vec Ideal S1x128 .f32 := iblk3 V c 3 t
abbrev xb3_4 (c : Dev nD) (t : Fin cfg3.N) : Vec Ideal S128x128 .f32 := iblk3 V c 4 t
abbrev xb3_5 (c : Dev nD) (t : Fin cfg3.N) : Vec Ideal S1x128 .f32 := iblk3 V c 5 t
abbrev xb3_6 (c : Dev nD) (t : Fin cfg3.N) : Vec Ideal S2000x128 .f32 := iblk3 V c 6 t

theorem emb3_7_at (t : Fin cfg3.N) (p : Fin 2000) (q : Fin 128) :
    ((cfg3.win 7).blk t).view.emb (ix2 p q) = (ix2 (row3 t p) q : S50000x128.Idx) := by
  obtain ⟨e00, e01, e10, e11, e20, e21, e30, e31, e40, e41, e50, e51, e60, e61, e71⟩ := idx_facts3 t
  funext a; refine Fin.ext ?_
  match a with
  | ⟨0, _⟩ => show win3_7.index t (0 : Fin 2) * 2000 + 1 * p.val = win3_7.index t (0 : Fin 2) * 2000 + p.val; omega
  | ⟨1, _⟩ => show win3_7.index t (1 : Fin 2) * 128 + 1 * q.val = q.val; omega

theorem blk3_0_at (c : Dev nD) (t : Fin cfg3.N) (p : Fin 2000) (q : Fin 128) :
    xb3_0 V c t (ix2 p q) = in3_0 V c (ix2 (row3 t p) q) := by
  obtain ⟨e00, e01, e10, e11, e20, e21, e30, e31, e40, e41, e50, e51, e60, e61, e71⟩ := idx_facts3 t
  show V c (Pipeline.arrRef spec3 0) (((cfg3.win 0).blk t).view.emb (ix2 p q)) = V c (Pipeline.arrRef spec3 0) (ix2 (row3 t p) q)
  refine congrArg _ (funext fun a => Fin.ext ?_)
  match a with
  | ⟨0, _⟩ => show win3_0.index t (0 : Fin 2) * 2000 + 1 * p.val = win3_7.index t (0 : Fin 2) * 2000 + p.val; omega
  | ⟨1, _⟩ => show win3_0.index t (1 : Fin 2) * 128 + 1 * q.val = q.val; omega

theorem blk3_1_at (c : Dev nD) (t : Fin cfg3.N) (p : Fin 2000) (q : Fin 128) :
    xb3_1 V c t (ix2 p q) = in3_1 V c (ix2 (row3 t p) q) := by
  obtain ⟨e00, e01, e10, e11, e20, e21, e30, e31, e40, e41, e50, e51, e60, e61, e71⟩ := idx_facts3 t
  show V c (Pipeline.arrRef spec3 1) (((cfg3.win 1).blk t).view.emb (ix2 p q)) = V c (Pipeline.arrRef spec3 1) (ix2 (row3 t p) q)
  refine congrArg _ (funext fun a => Fin.ext ?_)
  match a with
  | ⟨0, _⟩ => show win3_1.index t (0 : Fin 2) * 2000 + 1 * p.val = win3_7.index t (0 : Fin 2) * 2000 + p.val; omega
  | ⟨1, _⟩ => show win3_1.index t (1 : Fin 2) * 128 + 1 * q.val = q.val; omega

theorem blk3_2_at (c : Dev nD) (t : Fin cfg3.N) (p : Fin 2000) :
    xb3_2 V c t (ix2 p (0 : Fin 1)) = in3_2 V c (ix2 (row3 t p) (0 : Fin 1)) := by
  obtain ⟨e00, e01, e10, e11, e20, e21, e30, e31, e40, e41, e50, e51, e60, e61, e71⟩ := idx_facts3 t
  show V c (Pipeline.arrRef spec3 2) (((cfg3.win 2).blk t).view.emb (ix2 p (0 : Fin 1))) = V c (Pipeline.arrRef spec3 2) (ix2 (row3 t p) (0 : Fin 1))
  refine congrArg _ (funext fun a => Fin.ext ?_)
  match a with
  | ⟨0, _⟩ => show win3_2.index t (0 : Fin 2) * 2000 + 1 * p.val = win3_7.index t (0 : Fin 2) * 2000 + p.val; omega
  | ⟨1, _⟩ => show win3_2.index t (1 : Fin 2) * 1 + 1 * 0 = 0; omega

theorem blk3_3_at (c : Dev nD) (t : Fin cfg3.N) (q : Fin 128) :
    xb3_3 V c t (ix2 (0 : Fin 1) q) = in3_3 V c (ix2 (0 : Fin 1) q) := by
  obtain ⟨e00, e01, e10, e11, e20, e21, e30, e31, e40, e41, e50, e51, e60, e61, e71⟩ := idx_facts3 t
  show V c (Pipeline.arrRef spec3 3) (((cfg3.win 3).blk t).view.emb (ix2 (0 : Fin 1) q)) = V c (Pipeline.arrRef spec3 3) (ix2 (0 : Fin 1) q)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

theorem blk3_4_at (c : Dev nD) (t : Fin cfg3.N) (k q : Fin 128) :
    xb3_4 V c t (ix2 k q) = in3_4 V c (ix2 k q) := by
  obtain ⟨e00, e01, e10, e11, e20, e21, e30, e31, e40, e41, e50, e51, e60, e61, e71⟩ := idx_facts3 t
  show V c (Pipeline.arrRef spec3 4) (((cfg3.win 4).blk t).view.emb (ix2 k q)) = V c (Pipeline.arrRef spec3 4) (ix2 k q)
  refine congrArg _ (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

theorem blk3_5_at (c : Dev nD) (t : Fin cfg3.N) (q : Fin 128) :
    xb3_5 V c t (ix2 (0 : Fin 1) q) = in3_5 V c (ix2 (0 : Fin 1) q) := by
  obtain ⟨e00, e01, e10, e11, e20, e21, e30, e31, e40, e41, e50, e51, e60, e61, e71⟩ := idx_facts3 t
  show V c (Pipeline.arrRef spec3 5) (((cfg3.win 5).blk t).view.emb (ix2 (0 : Fin 1) q)) = V c (Pipeline.arrRef spec3 5) (ix2 (0 : Fin 1) q)
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

theorem blk3_6_at (c : Dev nD) (t : Fin cfg3.N) (p : Fin 2000) (q : Fin 128) :
    xb3_6 V c t (ix2 p q) = in3_6 V c (ix2 (row3 t p) q) := by
  obtain ⟨e00, e01, e10, e11, e20, e21, e30, e31, e40, e41, e50, e51, e60, e61, e71⟩ := idx_facts3 t
  show V c (Pipeline.arrRef spec3 6) (((cfg3.win 6).blk t).view.emb (ix2 p q)) = V c (Pipeline.arrRef spec3 6) (ix2 (row3 t p) q)
  refine congrArg _ (funext fun a => Fin.ext ?_)
  match a with
  | ⟨0, _⟩ => show win3_6.index t (0 : Fin 2) * 2000 + 1 * p.val = win3_7.index t (0 : Fin 2) * 2000 + p.val; omega
  | ⟨1, _⟩ => show win3_6.index t (1 : Fin 2) * 128 + 1 * q.val = q.val; omega

theorem flushed3_7_eq (c : Dev nD) (t : Fin cfg3.N) :
    (dat3 (F := Ideal) V c).flushed 7 t = ((cfg3.win 7).blk t).view.read (Elt Ideal) (G3_7 V c) := by
  show (cfg3.win 7).cut (grid3.coords t) ((dat3 (F := Ideal) V c).after 7 t) = _
  rw [after3_7]
  unfold out3_7
  rw [View.canon_unit_zero hz3]
  simp only [View.ld_unit_zero (S := S2000x128) hz3, View.ld_unit_zero (S := S2000x1) hz3,
    View.ld_unit_zero (S := S1x128) hz3, View.ld_unit_zero (S := S128x128) hz3]
  funext j
  obtain ⟨p, q, rfl⟩ : ∃ (p : Fin 2000) (q : Fin 128), j = ix2 p q := ⟨j 0, j 1, eq_ix2 j⟩
  show k3_pay1 (F := Ideal) (xb3_1 V c t) (xb3_0 V c t) (xb3_2 V c t) (xb3_6 V c t) (xb3_4 V c t) (xb3_3 V c t)
      (xb3_5 V c t) (xb3_6 V c t) (ix2 p q) = G3_7 V c (((cfg3.win 7).blk t).view.emb (ix2 p q))
  refine (pay3_apply (xb3_1 V c t) (xb3_0 V c t) (xb3_2 V c t) (xb3_6 V c t) (xb3_4 V c t) (xb3_3 V c t)
      (xb3_5 V c t) (xb3_6 V c t) p q).trans ?_
  have hs : (∑ k : Fin 128, xb3_6 V c t (ix2 p k) * xb3_4 V c t (ix2 k q))
      = ∑ k : Fin 128, in3_6 V c (ix2 (row3 t p) k) * in3_4 V c (ix2 k q) :=
    Finset.sum_congr rfl fun k _ => by rw [blk3_6_at V c t p k, blk3_4_at V c t k q]
  rw [hs, emb3_7_at t p q, blk3_0_at V c t p q, blk3_1_at V c t p q, blk3_2_at V c t p, blk3_3_at V c t q, blk3_5_at V c t q,
    blk3_6_at V c t p q]
  rfl

theorem mem_blk3_7 (t : Fin cfg3.N) (i : S50000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole (Pipeline.arrRef spec3 7)).slice (win3_7.rect t)).set ↔ _
  rw [View.set_slice_whole, Rect.mem_set_unit]
  exact Iff.rfl

theorem cover3_7_arr (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  obtain ⟨t, ht⟩ := idx_onto3 ⟨(i 0).val / 2000, by omega⟩
  have q0 : win3_7.index t (0 : Fin 2) = (i 0).val / 2000 := congrFun ht 0
  have q1 : win3_7.index t (1 : Fin 2) = 0 := congrFun ht 1
  refine ⟨t, flush3_7 t, ?_⟩
  rw [mem_blk3_7]
  intro a
  match a with
  | ⟨0, _⟩ => show win3_7.index t (0 : Fin 2) * 2000 ≤ (i 0).val ∧ (i 0).val < win3_7.index t (0 : Fin 2) * 2000 + 2000; omega
  | ⟨1, _⟩ => show win3_7.index t (1 : Fin 2) * 128 ≤ (i 1).val ∧ (i 1).val < win3_7.index t (1 : Fin 2) * 128 + 128; omega

theorem arr3_7 (c : Dev nD) : (dat3 (F := Ideal) V c).arrAt 7 cfg3.N = G3_7 V c :=
  (dat3 (F := Ideal) V c).arrAt_eq_of_cover 7 (G3_7 V c) (fun t _ => flushed3_7_eq V c t) cover3_7_arr

theorem arr3_7_apply (c : Dev nD) (r : Fin 50000) (q : Fin 128) :
    (dat3 (F := Ideal) V c).arrAt 7 cfg3.N (ix2 r q)
      = in3_6 V c (ix2 r q) + Cert.Spec.elu ((((in3_0 V c (ix2 r q) + in3_1 V c (ix2 r q) * in3_2 V c (ix2 r (0 : Fin 1)))
          + in3_3 V c (ix2 (0 : Fin 1) q)) + ∑ k : Fin 128, in3_6 V c (ix2 r k) * in3_4 V c (ix2 k q)) + in3_5 V c (ix2 (0 : Fin 1) q)) := by
  rw [arr3_7]; rfl

end Cert.KernelIdeal.Hand

end
-- ==== Proof.KI.ValCB5.lean ====
import proofs.«401955_j22634477650042_2_alg».proof.Proof.KI.RegCB5
import proofs.«401955_j22634477650042_2_alg».proof.Proof.LibKeepdims
import proofs.«401955_j22634477650042_2_alg».proof.Proof.SpecDefs
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section
open scoped BigOperators

namespace Cert.KernelIdeal.Hand

open Cert.KernelIdeal Cert.KernelIdeal.Gen
open Idealize.ShloMosaic Idealize.ShloMosaic.TcCoe Idealize.ShloMosaic.ValueIdx Idealize.ShloMosaic.Keepdims
open Idealize.SL Idealize.SL.Sem
open Idealize.ShloMosaic.Pipeline (Dat Cfg Window)

theorem lhs5_at (p : Fin 2000) (q k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  funext a
  refine Fin.ext ?_
  match a with
  | ⟨0, _⟩ => simp [DotDims.lhsIdx, dot_S2000x128_S128x128_S2000x128_1_0_0_1_n_n]; rfl
  | ⟨1, _⟩ => simp [DotDims.lhsIdx, dot_S2000x128_S128x128_S2000x128_1_0_0_1_n_n]; exact hk

theorem rhs5_at (p : Fin 2000) (q k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  funext a
  refine Fin.ext ?_
  match a with
  | ⟨0, _⟩ => simp [DotDims.rhsIdx, dot_S2000x128_S128x128_S2000x128_1_0_0_1_n_n]; exact hk
  | ⟨1, _⟩ => simp [DotDims.rhsIdx, dot_S2000x128_S128x128_S2000x128_1_0_0_1_n_n]; rfl

theorem elu5_select (x : EReal) :
    Scalar.select (Ideal.cmp .ogt x (Ideal.ofBits .f32 0x00000000#32)) x (Ideal.exp x - Ideal.ofBits .f32 0x3F800000#32)
      = Cert.Spec.elu x := by
  rw [Ideal.ofBits_zero_f32, Ideal.ofBits_one_f32]
  unfold Cert.Spec.elu Scalar.select Ideal.cmp
  by_cases h : 0 < x
  · simp [h]
  · simp [h]

theorem pay5_apply (xw : Vec Ideal S2000x128 .bf16) (ag : Vec Ideal S2000x128 .f32) (sn : Vec Ideal S2000x1 .f32)
    (ac : Vec Ideal S2000x128 .f32) (lw : Vec Ideal S128x128 .f32) (cb lb : Vec Ideal S1x128 .f32)
    (ac' : Vec Ideal S2000x128 .f32) (p : Fin 2000) (q : Fin 128) :
    k5_pay1 (F := Ideal) xw ag sn ac lw cb lb ac' (ix2 p q)
      = ac' (ix2 p q) + Cert.Spec.elu ((((ag (ix2 p q) + xw (ix2 p q) * sn (ix2 p (0 : Fin 1))) + cb (ix2 (0 : Fin 1) q))
          + ∑ k : Fin 128, ac (ix2 p k) * lw (ix2 k q)) + lb (ix2 (0 : Fin 1) q)) := by
  have hmm : FloatOps.matmul dot_S2000x128_S128x128_S2000x128_1_0_0_1_n_n none
        (truncf .bf16 ac bitsLt_bf16_f32 : FVec Ideal S2000x128 .bf16) (truncf .bf16 lw bitsLt_bf16_f32 : FVec Ideal S128x128 .bf16)
        (constant S2000x128 .f32 0x00000000#32) (ix2 p q)
      = ∑ k : Fin 128, ac (ix2 p k) * lw (ix2 k q) := by
    rw [Ideal.matmul_constant_zero_apply,
      ← Equiv.sum_comp (contrEquiv1 dot_S2000x128_S128x128_S2000x128_1_0_0_1_n_n 128 rfl rfl).symm]
    refine Finset.sum_congr rfl fun k _ => ?_
    rw [lhs5_at, rhs5_at]; rfl
  have hsn : broadcastTo S2000x128 sn broadcasts_S2000x1_S2000x128 (ix2 p q) = sn (ix2 p (0 : Fin 1)) :=
    broadcastTo_a1_ab_apply sn broadcasts_S2000x1_S2000x128 p q
  have hcb : broadcastTo S2000x128 cb broadcasts_S1x128_S2000x128 (ix2 p q) = cb (ix2 (0 : Fin 1) q) :=
    broadcastTo_1b_ab_apply cb broadcasts_S1x128_S2000x128 p q
  have hlb : broadcastTo S2000x128 lb broadcasts_S1x128_S2000x128 (ix2 p q) = lb (ix2 (0 : Fin 1) q) :=
    broadcastTo_1b_ab_apply lb broadcasts_S1x128_S2000x128 p q
  unfold k5_pay1
  simp only [shapeCast_self]
  rw [← elu5_select, ← hmm, ← hsn, ← hcb, ← hlb]
  rfl

variable (V : (c : Dev nD) → (b : Ref sig .tc) → Buf (Elt Ideal) ((c : Thread nD τ).loc b))

abbrev in5_0 (c : Dev nD) : S50000x128.Idx → EReal := V c (Pipeline.arrRef spec5 0)
abbrev in5_1 (c : Dev nD) : S50000x128.Idx → EReal := V c (Pipeline.arrRef spec5 1)
abbrev in5_2 (c : Dev nD) : S50000x1.Idx → EReal := V c (Pipeline.arrRef spec5 2)
abbrev in5_3 (c : Dev nD) : S1x128.Idx → EReal := V c (Pipeline.arrRef spec5 3)
abbrev in5_4 (c : Dev nD) : S128x128.Idx → EReal := V c (Pipeline.arrRef spec5 4)
abbrev in5_5 (c : Dev nD) : S1x128.Idx → EReal := V c (Pipeline.arrRef spec5 5)
abbrev in5_6 (c : Dev nD) : S50000x128.Idx → EReal := V c (Pipeline.arrRef spec5 6)

def G5_7 (c : Dev nD) : S50000x128.Idx → EReal := fun i =>
  in5_6 V c i + Cert.Spec.elu ((((in5_0 V c i + in5_1 V c i * in5_2 V c (ix2 (i 0) (0 : Fin 1))) + in5_3 V c (ix2 (0 : Fin 1) (i 1)))
    + ∑ k : Fin 128, in5_6 V c (ix2 (i 0) k) * in5_4 V c (ix2 k (i 1))) + in5_5 V c (ix2 (0 : Fin 1) (i 1)))

theorem hz5 : (![0, 0] : Fin 2 → Nat) = fun _ => 0 := funext fun a => by fin_cases a <;> rfl

theorem idx_facts5 : ∀ t : Fin cfg5.N,
    win5_0.index t (0 : Fin 2) = win5_7.index t (0 : Fin 2) ∧ win5_0.index t (1 : Fin 2) = 0
    ∧ win5_1.index t (0 : Fin 2) = win5_7.index t (0 : Fin 2) ∧ win5_1.index t (1 : Fin 2) = 0
    ∧ win5_2.index t (0 : Fin 2) = win5_7.index t (0 : Fin 2) ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = win5_7.index t (0 : Fin 2) ∧ win5_6.index t (1 : Fin 2) = 0
    ∧ win5_7.index t (1 : Fin 2) = 0 :=
  (by decide +kernel : ∀ t : Fin grid5.N, _)

theorem idx_le5 : ∀ t : Fin cfg5.N, win5_7.index t (0 : Fin 2) ≤ 24 :=
  (by decide +kernel : ∀ t : Fin grid5.N, _)

theorem idx_onto5 : ∀ q0 : Fin 25, ∃ t : Fin cfg5.N, win5_7.index t = ![q0.val, 0] :=
  (by decide +kernel : ∀ q0 : Fin 25, ∃ t : Fin grid5.N, win5_7.index t = ![q0.val, 0])

def row5 (t : Fin cfg5.N) (p : Fin 2000) : Fin 50000 :=
  ⟨win5_7.index t (0 : Fin 2) * 2000 + p.val, by have h := idx_le5 t; have hp := p.isLt; omega⟩

abbrev xb5_0 (c : Dev nD) (t : Fin cfg5.N) : Vec Ideal S2000x128 .f32 := iblk5 V c 0 t
abbrev xb5_1 (c : Dev nD) (t : Fin cfg5.N) : Vec Ideal S2000x128 .bf16 := iblk5 V c 1 t
abbrev xb5_2 (c : Dev nD) (t : Fin cfg5.N) : Vec Ideal S2000x1 .f32 := iblk5 V c 2 t
abbrev xb5_3 (c : Dev nD) (t : Fin cfg5.N) : Vec Ideal S1x128 .f32 := iblk5 V c 3 t
abbrev xb5_4 (c : Dev nD) (t : Fin cfg5.N) : Vec Ideal S128x128 .f32 := iblk5 V c 4 t
abbrev xb5_5 (c : Dev nD) (t : Fin cfg5.N) : Vec Ideal S1x128 .f32 := iblk5 V c 5 t
abbrev xb5_6 (c : Dev nD) (t : Fin cfg5.N) : Vec Ideal S2000x128 .f32 := iblk5 V c 6 t

theorem emb5_7_at (t : Fin cfg5.N) (p : Fin 2000) (q : Fin 128) :
    ((cfg5.win 7).blk t).view.emb (ix2 p q) = (ix2 (row5 t p) q : S50000x128.Idx) := by
  obtain ⟨e00, e01, e10, e11, e20, e21, e30, e31, e40, e41, e50, e51, e60, e61, e71⟩ := idx_facts5 t
  funext a; refine Fin.ext ?_
  match a with
  | ⟨0, _⟩ => show win5_7.index t (0 : Fin 2) * 2000 + 1 * p.val = win5_7.index t (0 : Fin 2) * 2000 + p.val; omega
  | ⟨1, _⟩ => show win5_7.index t (1 : Fin 2) * 128 + 1 * q.val = q.val; omega

theorem blk5_0_at (c : Dev nD) (t : Fin cfg5.N) (p : Fin 2000) (q : Fin 128) :
    xb5_0 V c t (ix2 p q) = in5_0 V c (ix2 (row5 t p) q) := by
  obtain ⟨e00, e01, e10, e11, e20, e21, e30, e31, e40, e41, e50, e51, e60, e61, e71⟩ := idx_facts5 t
  show V c (Pipeline.arrRef spec5 0) (((cfg5.win 0).blk t).view.emb (ix2 p q)) = V c (Pipeline.arrRef spec5 0) (ix2 (row5 t p) q)
  refine congrArg _ (funext fun a => Fin.ext ?_)
  match a with
  | ⟨0, _⟩ => show win5_0.index t (0 : Fin 2) * 2000 + 1 * p.val = win5_7.index t (0 : Fin 2) * 2000 + p.val; omega
  | ⟨1, _⟩ => show win5_0.index t (1 : Fin 2) * 128 + 1 * q.val = q.val; omega

theorem blk5_1_at (c : Dev nD) (t : Fin cfg5.N) (p : Fin 2000) (q : Fin 128) :
    xb5_1 V c t (ix2 p q) = in5_1 V c (ix2 (row5 t p) q) := by
  obtain ⟨e00, e01, e10, e11, e20, e21, e30, e31, e40, e41, e50, e51, e60, e61, e71⟩ := idx_facts5 t
  show V c (Pipeline.arrRef spec5 1) (((cfg5.win 1).blk t).view.emb (ix2 p q)) = V c (Pipeline.arrRef spec5 1) (ix2 (row5 t p) q)
  refine congrArg _ (funext fun a => Fin.ext ?_)
  match a with
  | ⟨0, _⟩ => show win5_1.index t (0 : Fin 2) * 2000 + 1 * p.val = win5_7.index t (0 : Fin 2) * 2000 + p.val; omega
  | ⟨1, _⟩ => show win5_1.index t (1 : Fin 2) * 128 + 1 * q.val = q.val; omega

theorem blk5_2_at (c : Dev nD) (t : Fin cfg5.N) (p : Fin 2000) :
    xb5_2 V c t (ix2 p (0 : Fin 1)) = in5_2 V c (ix2 (row5 t p) (0 : Fin 1)) := by
  obtain ⟨e00, e01, e10, e11, e20, e21, e30, e31, e40, e41, e50, e51, e60, e61, e71⟩ := idx_facts5 t
  show V c (Pipeline.arrRef spec5 2) (((cfg5.win 2).blk t).view.emb (ix2 p (0 : Fin 1))) = V c (Pipeline.arrRef spec5 2) (ix2 (row5 t p) (0 : Fin 1))
  refine congrArg _ (funext fun a => Fin.ext ?_)
  match a with
  | ⟨0, _⟩ => show win5_2.index t (0 : Fin 2) * 2000 + 1 * p.val = win5_7.index t (0 : Fin 2) * 2000 + p.val; omega
  | ⟨1, _⟩ => show win5_2.index t (1 : Fin 2) * 1 + 1 * 0 = 0; omega

theorem blk5_3_at (c : Dev nD) (t : Fin cfg5.N) (q : Fin 128) :
    xb5_3 V c t (ix2 (0 : Fin 1) q) = in5_3 V c (ix2 (0 : Fin 1) q) := by
  obtain ⟨e00, e01, e10, e11, e20, e21, e30, e31, e40, e41, e50, e51, e60, e61, e71⟩ := idx_facts5 t
  show V c (Pipeline.arrRef spec5 3) (((cfg5.win 3).blk t).view.emb (ix2 (0 : Fin 1) q)) = V c (Pipeline.arrRef spec5 3) (ix2 (0 : Fin 1) q)
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

theorem blk5_4_at (c : Dev nD) (t : Fin cfg5.N) (k q : Fin 128) :
    xb5_4 V c t (ix2 k q) = in5_4 V c (ix2 k q) := by
  obtain ⟨e00, e01, e10, e11, e20, e21, e30, e31, e40, e41, e50, e51, e60, e61, e71⟩ := idx_facts5 t
  show V c (Pipeline.arrRef spec5 4) (((cfg5.win 4).blk t).view.emb (ix2 k q)) = V c (Pipeline.arrRef spec5 4) (ix2 k q)
  refine congrArg _ (funext fun a => Fin.ext ?_)
  match a with
  | ⟨0, _⟩ => show win5_4.index t (0 : Fin 2) * 128 + 1 * k.val = k.val; omega
  | ⟨1, _⟩ => show win5_4.index t (1 : Fin 2) * 128 + 1 * q.val = q.val; omega

theorem blk5_5_at (c : Dev nD) (t : Fin cfg5.N) (q : Fin 128) :
    xb5_5 V c t (ix2 (0 : Fin 1) q) = in5_5 V c (ix2 (0 : Fin 1) q) := by
  obtain ⟨e00, e01, e10, e11, e20, e21, e30, e31, e40, e41, e50, e51, e60, e61, e71⟩ := idx_facts5 t
  show V c (Pipeline.arrRef spec5 5) (((cfg5.win 5).blk t).view.emb (ix2 (0 : Fin 1) q)) = V c (Pipeline.arrRef spec5 5) (ix2 (0 : Fin 1) q)
  refine congrArg _ (funext fun a => Fin.ext ?_)
  match a with
  | ⟨0, _⟩ => show win5_5.index t (0 : Fin 2) * 1 + 1 * 0 = 0; omega
  | ⟨1, _⟩ => show win5_5.index t (1 : Fin 2) * 128 + 1 * q.val = q.val; omega

theorem blk5_6_at (c : Dev nD) (t : Fin cfg5.N) (p : Fin 2000) (q : Fin 128) :
    xb5_6 V c t (ix2 p q) = in5_6 V c (ix2 (row5 t p) q) := by
  obtain ⟨e00, e01, e10, e11, e20, e21, e30, e31, e40, e41, e50, e51, e60, e61, e71⟩ := idx_facts5 t
  show V c (Pipeline.arrRef spec5 6) (((cfg5.win 6).blk t).view.emb (ix2 p q)) = V c (Pipeline.arrRef spec5 6) (ix2 (row5 t p) q)
  refine congrArg _ (funext fun a => Fin.ext ?_)
  match a with
  | ⟨0, _⟩ => show win5_6.index t (0 : Fin 2) * 2000 + 1 * p.val = win5_7.index t (0 : Fin 2) * 2000 + p.val; omega
  | ⟨1, _⟩ => show win5_6.index t (1 : Fin 2) * 128 + 1 * q.val = q.val; omega

theorem flushed5_7_eq (c : Dev nD) (t : Fin cfg5.N) :
    (dat5 (F := Ideal) V c).flushed 7 t = ((cfg5.win 7).blk t).view.read (Elt Ideal) (G5_7 V c) := by
  show (cfg5.win 7).cut (grid5.coords t) ((dat5 (F := Ideal) V c).after 7 t) = _
  rw [after5_7]
  unfold out5_7
  rw [View.canon_unit_zero hz5]
  simp only [View.ld_unit_zero (S := S2000x128) hz5, View.ld_unit_zero (S := S2000x1) hz5,
    View.ld_unit_zero (S := S1x128) hz5, View.ld_unit_zero (S := S128x128) hz5]
  funext j
  obtain ⟨p, q, rfl⟩ : ∃ (p : Fin 2000) (q : Fin 128), j = ix2 p q := ⟨j 0, j 1, eq_ix2 j⟩
  show k5_pay1 (F := Ideal) (xb5_1 V c t) (xb5_0 V c t) (xb5_2 V c t) (xb5_6 V c t) (xb5_4 V c t) (xb5_3 V c t)
      (xb5_5 V c t) (xb5_6 V c t) (ix2 p q) = G5_7 V c (((cfg5.win 7).blk t).view.emb (ix2 p q))
  refine (pay5_apply (xb5_1 V c t) (xb5_0 V c t) (xb5_2 V c t) (xb5_6 V c t) (xb5_4 V c t) (xb5_3 V c t)
      (xb5_5 V c t) (xb5_6 V c t) p q).trans ?_
  have hs : (∑ k : Fin 128, xb5_6 V c t (ix2 p k) * xb5_4 V c t (ix2 k q))
      = ∑ k : Fin 128, in5_6 V c (ix2 (row5 t p) k) * in5_4 V c (ix2 k q) :=
    Finset.sum_congr rfl fun k _ => by rw [blk5_6_at V c t p k, blk5_4_at V c t k q]
  rw [hs, emb5_7_at t p q, blk5_0_at V c t p q, blk5_1_at V c t p q, blk5_2_at V c t p, blk5_3_at V c t q, blk5_5_at V c t q,
    blk5_6_at V c t p q]
  rfl

theorem mem_blk5_7 (t : Fin cfg5.N) (i : S50000x128.Idx) :
    i ∈ ((cfg5.win 7).blk t).view.set ↔ ∀ a : Fin 2, win5_7.index t a * S2000x128.size a ≤ (i a).val
      ∧ (i a).val < win5_7.index t a * S2000x128.size a + S2000x128.size a := by
  show i ∈ ((View.whole (Pipeline.arrRef spec5 7)).slice (win5_7.rect t)).set ↔ _
  rw [View.set_slice_whole, Rect.mem_set_unit]
  exact Iff.rfl

theorem cover5_7_arr (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  obtain ⟨t, ht⟩ := idx_onto5 ⟨(i 0).val / 2000, by omega⟩
  have q0 : win5_7.index t (0 : Fin 2) = (i 0).val / 2000 := congrFun ht 0
  have q1 : win5_7.index t (1 : Fin 2) = 0 := congrFun ht 1
  refine ⟨t, flush5_7 t, ?_⟩
  rw [mem_blk5_7]
  intro a
  match a with
  | ⟨0, _⟩ => show win5_7.index t (0 : Fin 2) * 2000 ≤ (i 0).val ∧ (i 0).val < win5_7.index t (0 : Fin 2) * 2000 + 2000; omega
  | ⟨1, _⟩ => show win5_7.index t (1 : Fin 2) * 128 ≤ (i 1).val ∧ (i 1).val < win5_7.index t (1 : Fin 2) * 128 + 128; omega

theorem arr5_7 (c : Dev nD) : (dat5 (F := Ideal) V c).arrAt 7 cfg5.N = G5_7 V c :=
  (dat5 (F := Ideal) V c).arrAt_eq_of_cover 7 (G5_7 V c) (fun t _ => flushed5_7_eq V c t) cover5_7_arr

theorem arr5_7_apply (c : Dev nD) (r : Fin 50000) (q : Fin 128) :
    (dat5 (F := Ideal) V c).arrAt 7 cfg5.N (ix2 r q)
      = in5_6 V c (ix2 r q) + Cert.Spec.elu ((((in5_0 V c (ix2 r q) + in5_1 V c (ix2 r q) * in5_2 V c (ix2 r (0 : Fin 1)))
          + in5_3 V c (ix2 (0 : Fin 1) q)) + ∑ k : Fin 128, in5_6 V c (ix2 r k) * in5_4 V c (ix2 k q)) + in5_5 V c (ix2 (0 : Fin 1) q)) := by
  rw [arr5_7]; rfl

end Cert.KernelIdeal.Hand

end
-- ==== Proof.KI.ValPoolPay.lean ====
import proofs.«401955_j22634477650042_2_alg».proof.Proof.Gen.KernelIdeal.Skeleton
import proofs.«401955_j22634477650042_2_alg».proof.Proof.SpecDefs
import Idealize.ShloMosaic.PureOps.Ideal.Laws
import Idealize.ShloMosaic.Lib.ValueIdx
import Idealize.ShloMosaic.Lib.ValueLayout

noncomputable section

namespace Cert.KernelIdeal.Hand

open Idealize.ShloMosaic Idealize.ShloMosaic.ValueIdx
open Cert.KernelIdeal Cert.KernelIdeal.Gen

open Cert.Spec

theorem ofBits_one_f32 : Ideal.ofBits .f32 0x3F800000#32 = 1 := IdealRules.sign_bit.ideal_onePat .f32

theorem select_elu (x : Ideal .f32) :
    Scalar.select (FloatOps.cmpf .ogt x (Scalar.ofBits .f32 0x00000000#32))
        x (FloatOps.subf (FloatOps.exp x) (Scalar.ofBits .f32 0x3F800000#32)) = elu x := by
  have hs : ∀ b : BitVec 32, Scalar.ofBits (F := Ideal) .f32 b = Ideal.ofBits .f32 b := fun _ => rfl
  simp only [Scalar.select, Ideal.cmpf_def, hs, Ideal.cmp, Ideal.ofBits_zero_f32, ofBits_one_f32, Ideal.subf_def, Ideal.exp_def, elu]
  by_cases h : (0 : EReal) < x
  · simp [h]
  · simp [h]

theorem sitofp_cmpi_ind (w : BitVec 32) (g : Fin 128) :
    (FloatOps.sitofp (F := Ideal) .f32 ((IntOp.cmpi .eq w (BitVec.ofNat 32 g.val)).setWidth 32) : EReal) = ind w g := by
  unfold ind
  by_cases h : w = BitVec.ofNat 32 g.val
  · rw [if_pos h]
    have : IntOp.cmpi .eq w (BitVec.ofNat 32 g.val) = 1#1 := by
      unfold IntOp.cmpi; simp [h]
    rw [this]
    show (((BitVec.setWidth 32 1#1).toInt : ℝ) : EReal) = 1
    have : (BitVec.setWidth 32 1#1).toInt = 1 := by decide
    rw [this]; simp
  · rw [if_neg h]
    have : IntOp.cmpi .eq w (BitVec.ofNat 32 g.val) = 0#1 := by
      have hb : (w == BitVec.ofNat 32 g.val) = false := beq_eq_false_iff_ne.mpr h
      unfold IntOp.cmpi; simp only [hb]; rfl
    rw [this]
    show (((BitVec.setWidth 32 0#1).toInt : ℝ) : EReal) = 0
    have : (BitVec.setWidth 32 0#1).toInt = 0 := by decide
    rw [this]; simp

theorem lhs_rc_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_rc_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_rc_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_rc_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem lhs_tt_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem lhs_tt_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide),
    dif_pos (show (1 : Fin S2000x128.rank) ∈ dot_S2000x128_S2000x128_S128x128_0_0_1_1_n_n.lhsNonContracting by decide)]
  rfl
theorem rhs_tt_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem rhs_tt_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide),
    dif_pos (show (1 : Fin S2000x128.rank) ∈ dot_S2000x128_S2000x128_S128x128_0_0_1_1_n_n.rhsNonContracting by decide)]
  rfl

theorem matmul_rc_apply (A : FVec Ideal S2000x128 .bf16) (B : FVec Ideal S128x128 .bf16) (r : Fin 2000) (q : Fin 128) :
    matmul dot_S2000x128_S128x128_S2000x128_1_0_0_1_n_n none A B (constant (F := Ideal) S2000x128 .f32 0x00000000#32) (ix2 r q)
      = ∑ k : Fin 128, A (ix2 r k) * B (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r q)
      ((ValueIdx.contrEquiv1 dot_S2000x128_S128x128_S2000x128_1_0_0_1_n_n 128 rfl rfl).symm k) = ix2 r k :=
    funext fun a => Fin.ext (by
      match a with
      | ⟨0, _⟩ => exact lhs_rc_0 _ _
      | ⟨1, _⟩ => exact (lhs_rc_1 _ _).trans hk)
  have er : dot_S2000x128_S128x128_S2000x128_1_0_0_1_n_n.rhsIdx (ix2 r q)
      ((ValueIdx.contrEquiv1 dot_S2000x128_S128x128_S2000x128_1_0_0_1_n_n 128 rfl rfl).symm k) = ix2 k q :=
    funext fun a => Fin.ext (by
      match a with
      | ⟨0, _⟩ => exact (rhs_rc_0 _ _).trans hk
      | ⟨1, _⟩ => exact rhs_rc_1 _ _)
  rw [el, er]

theorem matmul_tt_apply (A B : FVec Ideal S2000x128 .bf16) (g q : Fin 128) :
    matmul dot_S2000x128_S2000x128_S128x128_0_0_1_1_n_n none A B (constant (F := Ideal) S128x128 .f32 0x00000000#32) (ix2 g q)
      = ∑ r : Fin 2000, A (ix2 r g) * B (ix2 r q) := by
  simp only [matmul]
  rw [Ideal.matmul_constant_zero_apply,
    ← Equiv.sum_comp (ValueIdx.contrEquiv1 dot_S2000x128_S2000x128_S128x128_0_0_1_1_n_n 2000 rfl rfl).symm]
  refine Finset.sum_congr rfl fun k _ => ?_
  have hk := ValueIdx.contrEquiv1_symm_val dot_S2000x128_S2000x128_S128x128_0_0_1_1_n_n 2000 rfl rfl k
  have el : dot_S2000x128_S2000x128_S128x128_0_0_1_1_n_n.lhsIdx (ix2 g q)
      ((ValueIdx.contrEquiv1 dot_S2000x128_S2000x128_S128x128_0_0_1_1_n_n 2000 rfl rfl).symm k) = ix2 k g :=
    funext fun a => Fin.ext (by
      match a with
      | ⟨0, _⟩ => exact (lhs_tt_0 _ _).trans hk
      | ⟨1, _⟩ => exact lhs_tt_1 _ _)
  have er : dot_S2000x128_S2000x128_S128x128_0_0_1_1_n_n.rhsIdx (ix2 g q)
      ((ValueIdx.contrEquiv1 dot_S2000x128_S2000x128_S128x128_0_0_1_1_n_n 2000 rfl rfl).symm k) = ix2 k q :=
    funext fun a => Fin.ext (by
      match a with
      | ⟨0, _⟩ => exact (rhs_tt_0 _ _).trans hk
      | ⟨1, _⟩ => exact rhs_tt_1 _ _)
  rw [el, er]

theorem broadcastTo_col_apply {α : Type} (v : S2000x1.Idx → α) (h : S2000x1.Broadcasts S2000x128) (r : Fin 2000) (g : Fin 128) :
    broadcastTo S2000x128 v h (ix2 r g) = v (ix2 r (0 : Fin 1)) := by
  refine broadcastTo_apply v h (ix2 r g) (ix2 r (0 : Fin 1)) fun ax => ?_
  match ax with
  | ⟨0, _⟩ =>
    show r.val = if (2000 : ℕ) = 1 then 0 else r.val
    rw [if_neg (by decide)]
  | ⟨1, _⟩ =>
    show (0 : ℕ) = if (1 : ℕ) = 1 then 0 else g.val
    rw [if_pos rfl]

theorem iota_lane_apply (r : Fin 2000) (g : Fin 128) :
    iota .tc S2000x128 32 [1] iota_S2000x128_d1_w32 (ix2 r g) = BitVec.ofNat 32 g.val :=
  iota_single_apply .tc S2000x128 32 1 iota_S2000x128_d1_w32 (ix2 r g)

theorem onehot_apply {s : Shape} (w j : IVec s 32) (h1 : 1 < 32) (h2 : FTy.bf16.bits < FTy.f32.bits) (i : s.Idx) :
    (truncf .bf16 (sitofp (F := Ideal) .f32 (extui 32 (cmpi .eq w j) h1)) h2 : FVec Ideal s .bf16) i
      = FloatOps.sitofp (F := Ideal) .f32 ((IntOp.cmpi .eq (w i) (j i)).setWidth 32) := rfl

theorem act_apply {s : Shape} (x : FVec Ideal s .f32) (h2 : FTy.bf16.bits < FTy.f32.bits) (i : s.Idx) :
    (truncf .bf16 (select (cmpf .ogt x (broadcast s (Scalar.ofBits .f32 0x00000000#32))) x
        (subf (exp x) (broadcast s (Scalar.ofBits .f32 0x3F800000#32)))) h2 : FVec Ideal s .bf16) i = elu (x i) :=
  select_elu (x i)

theorem k6_pay1_eq : (k6_pay1 (F := Ideal)) = fun _ => (0 : EReal) := by
  funext i
  unfold k6_pay1
  rw [shapeCast_self]
  exact Ideal.ofBits_zero_f32

theorem k6_pay2_apply (v3 : FVec Ideal S2000x128 .f32) (v6 : FVec Ideal S128x128 .f32) (v9 : FVec Ideal S1x128 .f32)
    (v19 : IVec S2000x1 32) (v29 : FVec Ideal S128x128 .f32) (g q : Fin 128) :
    k6_pay2 (F := Ideal) v3 v6 v9 v19 v29 (ix2 g q)
      = v29 (ix2 g q) + ∑ r : Fin 2000, ind (v19 (ix2 r (0 : Fin 1))) g
          * elu ((∑ k : Fin 128, v3 (ix2 r k) * v6 (ix2 k q)) + v9 (ix2 (0 : Fin 1) q)) := by
  unfold k6_pay2
  simp only [shapeCast_self]
  rw [addf_apply]
  refine congrArg (v29 (ix2 g q) + ·) ?_
  refine (matmul_tt_apply _ _ g q).trans (Finset.sum_congr rfl fun r _ => ?_)
  refine (congrArg₂ (· * ·) (onehot_apply _ _ _ _ _) (act_apply _ _ _)).trans ?_
  rw [broadcastTo_col_apply, iota_lane_apply, sitofp_cmpi_ind, addf_apply, matmul_rc_apply, broadcastTo_1b_ab_apply]
  rfl

end Cert.KernelIdeal.Hand

end
-- ==== Proof.Bridge.PoolMath.lean ====
import Mathlib.Data.EReal.Operations
import Mathlib.Algebra.BigOperators.Fin
import Idealize.ShloMosaic.PureOps.Ideal
import Idealize.ShloMosaic.PureOps.Ideal.Laws
import Idealize.ShloMosaic.Lib.FinSumWindow
import proofs.«401955_j22634477650042_2_alg».proof.Proof.SpecDefs

noncomputable section

open scoped BigOperators

namespace Cert.Bridge

open Idealize.ShloMosaic Cert.Spec

section EluVec
variable {s : Shape} {φ : FTy}

end EluVec

theorem ofBits_one_f32 : Ideal.ofBits .f32 0x3F800000#32 = 1 := by
  simp [Ideal.ofBits, Ideal.ieee, -EReal.coe_mul]; norm_num

theorem iota_single_apply {κ : Kind} {s : Shape} {w : ℕ} (a : Fin s.rank) (h : s.Iotas κ w [a]) (i : s.Idx) :
    iota κ s w [a] h i = BitVec.ofNat w (i a).val := by
  simp [iota]

theorem word_eq_ofNat_iff (a : BitVec 32) (g : ℕ) (hg : g < 2 ^ 31) : a = BitVec.ofNat 32 g ↔ a.toInt = (g : ℤ) := by
  have hn : (BitVec.ofNat 32 g).toNat = g := by
    rw [BitVec.toNat_ofNat]; exact Nat.mod_eq_of_lt (by omega)
  have hk : (BitVec.ofNat 32 g).toInt = (g : ℤ) := by
    rw [BitVec.toInt_eq_toNat_of_lt (by rw [hn]; omega), hn]
  constructor
  · rintro rfl; exact hk
  · intro h; exact BitVec.eq_of_toInt_eq (h.trans hk.symm)

theorem tile_le {W NB N t : ℕ} (hN : W * NB = N) (ht : t < NB) : W * t + W ≤ N := by
  rw [← hN, ← Nat.mul_succ]; exact Nat.mul_le_mul_left W ht

def tileRow {N : ℕ} (W t : ℕ) (ht : W * t + W ≤ N) (r : Fin W) : Fin N := ⟨W * t + r.val, by omega⟩

@[simp] theorem tileRow_val {N : ℕ} (W t : ℕ) (ht : W * t + W ≤ N) (r : Fin W) :
    (tileRow W t ht r : Fin N).val = W * t + r.val := rfl

section Pool
variable {N C : ℕ} (b : Fin N → BitVec 32) (y : Fin N → Fin C → EReal) (W : ℕ)

def poolPartial (t g : ℕ) (q : Fin C) : EReal :=
  ∑ i ∈ Finset.univ.filter (fun i : Fin N => i.val < W * t ∧ (b i).toInt = (g : ℤ)), y i q

theorem poolPartial_zero (g : ℕ) (q : Fin C) : poolPartial b y W 0 g q = 0 := by
  unfold poolPartial
  rw [Finset.filter_eq_empty_iff.2 (fun i _ h => absurd h.1 (by simp)), Finset.sum_empty]

theorem poolPartial_eq_sum_ite (t g : ℕ) (q : Fin C) :
    poolPartial b y W t g q = ∑ i : Fin N, if i.val < W * t ∧ (b i).toInt = (g : ℤ) then y i q else 0 := by
  unfold poolPartial; rw [Finset.sum_filter]

theorem tile_sum_eq (t g : ℕ) (hg : g < 2 ^ 31) (ht : W * t + W ≤ N) (q : Fin C) :
    ∑ r : Fin W, (if b (tileRow W t ht r) = BitVec.ofNat 32 g then (1 : EReal) else 0) * y (tileRow W t ht r) q
      = ∑ i : Fin N, if (W * t ≤ i.val ∧ i.val < W * t + W) ∧ (b i).toInt = (g : ℤ) then y i q else 0 := by
  have hw := FinSumWindow.sum_window (W := W) (W * t) ht
    (fun i : Fin N => if (W * t ≤ i.val ∧ i.val < W * t + W) ∧ (b i).toInt = (g : ℤ) then y i q else 0)
    (fun P hP => if_neg (fun h => hP h.1))
  rw [hw]
  refine Finset.sum_congr rfl fun r _ => ?_
  show _ = if (W * t ≤ W * t + r.val ∧ W * t + r.val < W * t + W) ∧ (b (tileRow W t ht r)).toInt = (g : ℤ)
    then y (tileRow W t ht r) q else 0
  have hr := r.isLt
  by_cases h : b (tileRow W t ht r) = BitVec.ofNat 32 g
  · rw [if_pos h, one_mul, if_pos ⟨⟨by omega, by omega⟩, (word_eq_ofNat_iff _ g hg).1 h⟩]
  · rw [if_neg h, zero_mul, if_neg (fun h' => h ((word_eq_ofNat_iff _ g hg).2 h'.2))]

theorem poolPartial_succ (t g : ℕ) (hg : g < 2 ^ 31) (ht : W * t + W ≤ N) (q : Fin C) :
    poolPartial b y W (t + 1) g q
      = poolPartial b y W t g q
        + ∑ r : Fin W, (if b (tileRow W t ht r) = BitVec.ofNat 32 g then (1 : EReal) else 0) * y (tileRow W t ht r) q := by
  have e : W * (t + 1) = W * t + W := Nat.mul_succ W t
  rw [tile_sum_eq b y W t g hg ht q, poolPartial_eq_sum_ite, poolPartial_eq_sum_ite, e, ← Finset.sum_add_distrib]
  refine Finset.sum_congr rfl fun i _ => ?_
  by_cases hp : (b i).toInt = (g : ℤ)
  · simp only [hp, and_true]
    by_cases h1 : i.val < W * t
    · rw [if_pos (by omega), if_pos h1, if_neg (by omega), add_zero]
    · by_cases h2 : i.val < W * t + W
      · rw [if_pos h2, if_neg h1, if_pos (by omega), zero_add]
      · rw [if_neg h2, if_neg h1, if_neg (by omega), add_zero]
  · simp [hp]

theorem poolPartial_full (NB g : ℕ) (hN : N ≤ W * NB) (q : Fin C) :
    poolPartial b y W NB g q
      = ∑ i ∈ Finset.univ.filter (fun i : Fin N => (b i).toInt = (g : ℤ)), y i q := by
  unfold poolPartial
  refine Finset.sum_congr (Finset.filter_congr fun i _ => ?_) fun _ _ => rfl
  exact ⟨fun h => h.2, fun h => ⟨lt_of_lt_of_le i.isLt hN, h⟩⟩

theorem pool_fold (NB : ℕ) (hN : W * NB = N) (g : ℕ) (hg : g < 2 ^ 31) (q : Fin C) (acc : ℕ → EReal) (h0 : acc 0 = 0)
    (hstep : ∀ t (ht : t < NB), acc (t + 1) = acc t
      + ∑ r : Fin W, (if b (tileRow W t (tile_le hN ht) r) = BitVec.ofNat 32 g then (1 : EReal) else 0)
          * y (tileRow W t (tile_le hN ht) r) q) :
    acc NB = ∑ i ∈ Finset.univ.filter (fun i : Fin N => (b i).toInt = (g : ℤ)), y i q := by
  have key : ∀ t, t ≤ NB → acc t = poolPartial b y W t g q := by
    intro t
    induction t with
    | zero => intro _; rw [h0, poolPartial_zero]
    | succ t ih =>
      intro ht
      rw [hstep t ht, ih (Nat.le_of_succ_le ht), poolPartial_succ b y W t g hg (tile_le hN ht) q]
  rw [key NB le_rfl, poolPartial_full b y W NB g (le_of_eq hN.symm) q]

end Pool

section Sizes
variable (b : Fin 50000 → BitVec 32) (y : Fin 50000 → Fin 128 → EReal)

theorem group_lt (g : Fin 128) : g.val < 2 ^ 31 := lt_trans g.isLt (by norm_num)

theorem pool_tiles (g q : Fin 128) (acc : ℕ → EReal) (h0 : acc 0 = 0)
    (hstep : ∀ t (ht : t < 25), acc (t + 1) = acc t
      + ∑ r : Fin 2000, ind (b (tileRow 2000 t (tile_le (NB := 25) rfl ht) r)) g
          * y (tileRow 2000 t (tile_le (NB := 25) rfl ht) r) q) :
    acc 25 = ∑ i ∈ Finset.univ.filter (fun i : Fin 50000 => (b i).toInt = (g.val : ℤ)), y i q :=
  pool_fold b y 2000 25 rfl g.val (group_lt g) q acc h0 hstep

end Sizes

end Cert.Bridge

end
-- ==== Proof.KI.ValPool.lean ====
import proofs.«401955_j22634477650042_2_alg».proof.Proof.KI.RegPool
import proofs.«401955_j22634477650042_2_alg».proof.Proof.KI.ValPoolPay
import proofs.«401955_j22634477650042_2_alg».proof.Proof.Bridge.PoolMath
import proofs.«401955_j22634477650042_2_alg».proof.Proof.SpecDefs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec
open Cert.Bridge (tileRow tile_le)

variable (V : (c : Dev nD) → (b : Ref sig .tc) → Buf (Elt Ideal) ((c : Thread nD τ).loc b))

abbrev X6 (c : Dev nD) : FVec Ideal S50000x128 .f32 := V c (Pipeline.arrRef spec6 0)
abbrev W6 (c : Dev nD) : FVec Ideal S128x128 .f32 := V c (Pipeline.arrRef spec6 1)
abbrev B6 (c : Dev nD) : FVec Ideal S1x128 .f32 := V c (Pipeline.arrRef spec6 2)
abbrev G6 (c : Dev nD) : IVec S50000x1 32 := V c (Pipeline.arrRef spec6 3)

def seg6 (c : Dev nD) (i : Fin 50000) : BitVec 32 := G6 V c (ix2 i (0 : Fin 1))

def act6 (c : Dev nD) (i : Fin 50000) (q : Fin 128) : EReal :=
  elu ((∑ k : Fin 128, X6 V c (ix2 i k) * W6 V c (ix2 k q)) + B6 V c (ix2 (0 : Fin 1) q))

theorem lt25 (t : Fin cfg6.N) : t.val < 25 := lt_of_lt_of_eq t.isLt N_6

theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0 :=
  (by decide +kernel : ∀ t : Fin grid6.N, _)

theorem xblk6_apply (c : Dev nD) (t : Fin cfg6.N) (r : Fin 2000) (k : Fin 128) :
    xblk6 V c t (ix2 r k) = X6 V c (ix2 (tileRow 2000 t.val (tile_le (NB := 25) rfl (lt25 t)) r) k) := by
  obtain ⟨e0, e1, -⟩ := idx_facts6 t
  show V c (Pipeline.arrRef spec6 0) (((cfg6.win 0).blk t).view.emb (ix2 r k)) = V c (Pipeline.arrRef spec6 0) (ix2 _ k)
  refine congrArg _ (funext fun a => Fin.ext ?_)
  match a with
  | ⟨0, _⟩ => show win6_0.index t (0 : Fin 2) * 2000 + 1 * r.val = 2000 * t.val + r.val; omega
  | ⟨1, _⟩ => show win6_0.index t (1 : Fin 2) * 128 + 1 * k.val = k.val; omega

theorem gblk6_apply (c : Dev nD) (t : Fin cfg6.N) (r : Fin 2000) :
    gblk6 V c t (ix2 r (0 : Fin 1)) = G6 V c (ix2 (tileRow 2000 t.val (tile_le (NB := 25) rfl (lt25 t)) r) (0 : Fin 1)) := by
  obtain ⟨-, -, -, -, -, -, e6, e7, -⟩ := idx_facts6 t
  show V c (Pipeline.arrRef spec6 3) (((cfg6.win 3).blk t).view.emb (ix2 r (0 : Fin 1))) = V c (Pipeline.arrRef spec6 3) (ix2 _ (0 : Fin 1))
  refine congrArg _ (funext fun a => Fin.ext ?_)
  match a with
  | ⟨0, _⟩ => show win6_3.index t (0 : Fin 2) * 2000 + 1 * r.val = 2000 * t.val + r.val; omega
  | ⟨1, _⟩ => show win6_3.index t (1 : Fin 2) * 1 + 1 * 0 = 0; omega

theorem wblk6_apply (c : Dev nD) (t : Fin cfg6.N) (k q : Fin 128) : wblk6 V c t (ix2 k q) = W6 V c (ix2 k q) := by
  obtain ⟨-, -, e2, e3, -⟩ := idx_facts6 t
  show V c (Pipeline.arrRef spec6 1) (((cfg6.win 1).blk t).view.emb (ix2 k q)) = V c (Pipeline.arrRef spec6 1) (ix2 k q)
  refine congrArg _ (funext fun a => Fin.ext ?_)
  match a with
  | ⟨0, _⟩ => show win6_1.index t (0 : Fin 2) * 128 + 1 * k.val = k.val; omega
  | ⟨1, _⟩ => show win6_1.index t (1 : Fin 2) * 128 + 1 * q.val = q.val; omega

theorem bblk6_apply (c : Dev nD) (t : Fin cfg6.N) (q : Fin 128) :
    bblk6 V c t (ix2 (0 : Fin 1) q) = B6 V c (ix2 (0 : Fin 1) q) := by
  obtain ⟨-, -, -, -, e4, e5, -⟩ := idx_facts6 t
  show V c (Pipeline.arrRef spec6 2) (((cfg6.win 2).blk t).view.emb (ix2 (0 : Fin 1) q)) = V c (Pipeline.arrRef spec6 2) (ix2 (0 : Fin 1) q)
  refine congrArg _ (funext fun a => Fin.ext ?_)
  match a with
  | ⟨0, _⟩ => show win6_2.index t (0 : Fin 2) * 1 + 1 * 0 = 0; omega
  | ⟨1, _⟩ => show win6_2.index t (1 : Fin 2) * 128 + 1 * q.val = q.val; omega

theorem sc6_step (c : Dev nD) (t : Fin cfg6.N) (g q : Fin 128) :
    sc6 V c (t.val + 1) (ix2 g q)
      = sc6 V c t.val (ix2 g q)
        + ∑ r : Fin 2000, ind (seg6 V c (tileRow 2000 t.val (tile_le (NB := 25) rfl (lt25 t)) r)) g
            * act6 V c (tileRow 2000 t.val (tile_le (NB := 25) rfl (lt25 t)) r) q := by
  rw [sc6_succ]
  unfold upd6
  refine (k6_pay2_apply _ _ _ _ _ g q).trans ?_
  refine congrArg (sc6 V c t.val (ix2 g q) + ·) (Finset.sum_congr rfl fun r _ => ?_)
  exact congrArg₂ (· * ·) (congrArg (ind · g) (gblk6_apply V c t r))
    (congrArg elu (congrArg₂ (· + ·)
      (Finset.sum_congr rfl fun k _ => congrArg₂ (· * ·) (xblk6_apply V c t r k) (wblk6_apply V c t k q))
      (bblk6_apply V c t q)))

theorem mem_blk6_4 (t : Fin cfg6.N) (i : S128x128.Idx) :
    i ∈ ((cfg6.win 4).blk t).view.set
      ↔ ∀ a : Fin 2, win6_4.index t a * S128x128.size a ≤ (i a).val ∧ (i a).val < win6_4.index t a * S128x128.size a + S128x128.size a := by
  show i ∈ ((View.whole main_v107).slice (win6_4.rect t)).set ↔ _
  rw [View.set_slice_whole, Rect.mem_set_unit]
  exact Iff.rfl

theorem arr6_final (c : Dev nD) : (dat6 V c).arrAt 4 cfg6.N = sc6 V c 25 := by
  refine (dat6 V c).arrAt_eq_of_cover 4 (sc6 V c 25) (fun t hf => ?_) (fun i => ?_)
  · have h24 : t.val = 24 := by
      have h1 := (flush6_4 t).mp hf
      have h2 := lt25 t
      omega
    obtain ⟨-, -, -, -, -, -, -, -, e8, e9⟩ := idx_facts6 t
    show (cfg6.win 4).cut (grid6.coords t) ((dat6 V c).after 4 t) = _
    rw [after6_4, h24]
    funext j
    show sc6 V c 25 j = sc6 V c 25 (((cfg6.win 4).blk t).view.emb j)
    refine congrArg _ (funext fun a => Fin.ext ?_)
    match a with
    | ⟨0, _⟩ => show (j 0).val = win6_4.index t (0 : Fin 2) * 128 + 1 * (j 0).val; omega
    | ⟨1, _⟩ => show (j 1).val = win6_4.index t (1 : Fin 2) * 128 + 1 * (j 1).val; omega
  · have h24 : (24 : ℕ) < cfg6.N := lt_of_lt_of_eq (by decide) N_6.symm
    refine ⟨⟨24, h24⟩, (flush6_4 ⟨24, h24⟩).mpr (show 24 % 25 = 24 from rfl), ?_⟩
    obtain ⟨-, -, -, -, -, -, -, -, e8, e9⟩ := idx_facts6 ⟨24, h24⟩
    rw [mem_blk6_4]
    intro a
    match a with
    | ⟨0, _⟩ =>
      show win6_4.index ⟨24, h24⟩ (0 : Fin 2) * 128 ≤ (i 0).val ∧ (i 0).val < win6_4.index ⟨24, h24⟩ (0 : Fin 2) * 128 + 128
      have hi : (i 0).val < 128 := (i 0).isLt
      omega
    | ⟨1, _⟩ =>
      show win6_4.index ⟨24, h24⟩ (1 : Fin 2) * 128 ≤ (i 1).val ∧ (i 1).val < win6_4.index ⟨24, h24⟩ (1 : Fin 2) * 128 + 128
      have hi : (i 1).val < 128 := (i 1).isLt
      omega

theorem arr6_apply (c : Dev nD) (g q : Fin 128) :
    (dat6 V c).arrAt 4 cfg6.N (ix2 g q)
      = ∑ i ∈ Finset.univ.filter (fun i : Fin 50000 => (G6 V c (ix2 i (0 : Fin 1))).toInt = (g.val : ℤ)),
          elu ((∑ k : Fin 128, X6 V c (ix2 i k) * W6 V c (ix2 k q)) + B6 V c (ix2 (0 : Fin 1) q)) := by
  refine (congrFun (arr6_final V c) (ix2 g q)).trans ?_
  refine Cert.Bridge.pool_tiles (seg6 V c) (act6 V c) g q (fun n => sc6 V c n (ix2 g q)) ?_ (fun t ht => ?_)
  · show sc6 V c 0 (ix2 g q) = 0
    rw [sc6_zero, k6_pay1_eq]
  · exact sc6_step V c ⟨t, lt_of_lt_of_eq ht N_6.symm⟩ g q

end Cert.KernelIdeal.Hand

end
-- ==== Proof.Bridge.Shared.lean ====
import proofs.«401955_j22634477650042_2_alg».proof.KernelIdeal
import proofs.«401955_j22634477650042_2_alg».proof.ReferenceIdeal
import proofs.«401955_j22634477650042_2_alg».proof.Proof.LibKeepdims
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

namespace K

open Cert.KernelIdeal Cert.KernelIdeal.Facts₀

variable {F : FTy → Type} [FloatOps F] [Cert.KernelIdeal.Facts₀]

def srcRaw (ei : IVec S2x800000 32) : IVec S800000 32 :=
  shapeCast S800000 (extractStridedSlice S1x800000 ![0, 0] ei slices_S2x800000_S1x800000_0_0) shapeCasts_S1x800000_S800000

def dstRaw (ei : IVec S2x800000 32) : IVec S800000 32 :=
  shapeCast S800000 (extractStridedSlice S1x800000 ![1, 0] ei slices_S2x800000_S1x800000_1_0) shapeCasts_S1x800000_S800000

def wrap (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

def col (x : IVec S800000 32) : IVec S800000x1 32 :=
  broadcastInDim S800000x1 ![0] bcast_S800000_S800000x1_0 x

def deg (dst : IVec S800000 32) : FVec F S50000 .f32 :=
  Host.scatterAdd scatter_S50000_S800000x1_S800000_n_0_0_1
    (broadcastInDim S50000 ![] bcast_S_S50000 (constant S_ .f32 0x00000000#32))
    (col dst)
    (broadcastInDim S800000 ![] bcast_S_S800000 (constant S_ .f32 0x3F800000#32))

def dinv (dst : IVec S800000 32) : FVec F S50000 .f32 :=
  Host.rsqrt (addf (deg dst) (broadcastInDim S50000 ![] bcast_S_S50000 (constant S_ .f32 0x3F800000#32)))

def enormFlat (src dst : IVec S800000 32) : FVec F S800000 .f32 :=
  mulf (Host.gather gather_S50000_S800000x1_S800000_n_0_n_n_0_1_1 (dinv dst) (col (wrap src)))
    (Host.gather gather_S50000_S800000x1_S800000_n_0_n_n_0_1_1 (dinv dst) (col (wrap dst)))

def enorm (src dst : IVec S800000 32) : FVec F S800000x1 .f32 :=
  shapeCast S800000x1 (enormFlat src dst) shapeCasts_S800000_S800000x1

def selfNormFlat (dst : IVec S800000 32) : FVec F S50000 .f32 := mulf (dinv dst) (dinv dst)

def selfNorm (dst : IVec S800000 32) : FVec F S50000x1 .f32 :=
  shapeCast S50000x1 (selfNormFlat dst) shapeCasts_S50000_S50000x1

def gatherRows {α : Type} (xw : S50000x128.Idx → α) (src : IVec S800000 32) : S800000x128.Idx → α :=
  Host.gather gather_S50000x128_S800000x1_S800000x128_1_0_n_n_0_1_1128 xw (col (wrap src))

def aggOf (msg : FVec F S800000x128 .f32) (dst : IVec S800000 32) (en : FVec F S800000x1 .f32) : FVec F S50000x128 .f32 :=
  Host.scatterAdd scatter_S50000x128_S800000x1_S800000x128_1_0_0_1
    (broadcastInDim S50000x128 ![] bcast_S_S50000x128 (constant S_ .f32 0x00000000#32))
    (col dst)
    (mulf msg (broadcastInDim S800000x128 ![0, 1] bcast_S800000x1_S800000x128_0_1 en))

def agg (xw : FVec F S50000x128 .bf16) (src dst : IVec S800000 32) (en : FVec F S800000x1 .f32) : FVec F S50000x128 .f32 :=
  aggOf (extf .f32 (gatherRows xw src) bitsLt_bf16_f32) dst en

def rowOf {α : Type} (b : S128.Idx → α) : S1x128.Idx → α :=
  shapeCast S1x128 b shapeCasts_S128_S1x128

def weightMat {α : Type} (o : ℕ) (h : S3x128x128.Slices ![o, 0, 0] S1x128x128) (w : S3x128x128.Idx → α) : S128x128.Idx → α :=
  shapeCast S128x128 (extractStridedSlice S1x128x128 ![o, 0, 0] w h) shapeCasts_S1x128x128_S128x128

def batchCol (b : IVec S50000 32) : IVec S50000x1 32 :=
  shapeCast S50000x1 b shapeCasts_S50000_S50000x1

def biasFlat {α : Type} (o : ℕ) (h : S3x128.Slices ![o, 0] S1x128) (b : S3x128.Idx → α) : S128.Idx → α :=
  shapeCast S128 (extractStridedSlice S1x128 ![o, 0] b h) shapeCasts_S1x128_S128

def biasRow {α : Type} (o : ℕ) (h : S3x128.Slices ![o, 0] S1x128) (b : S3x128.Idx → α) : S1x128.Idx → α :=
  rowOf (biasFlat o h b)

def tail (pooled pw : FVec F S128x128 .f32) (pb : FVec F S128 .f32) : FVec F S128x128 .f32 :=
  Host.divf
    (addf (Host.dotGeneral dot_S128x128_S128x128_S128x128_1_0_0_1_n_n none pooled pw)
      (broadcastInDim S128x128 ![0, 1] bcast_S1x128_S128x128_0_1 (broadcastInDim S1x128 ![1] bcast_S128_S1x128_1 pb)))
    (broadcastInDim S128x128 ![] bcast_S_S128x128 (constant S_ .f32 0x41200000#32))

end K

namespace R

open Cert.ReferenceIdeal Cert.ReferenceIdeal.Facts₀

variable {F : FTy → Type} [FloatOps F] [Cert.ReferenceIdeal.Facts₀]

def srcRaw (ei : IVec S2x800000 32) : IVec S800000 32 :=
  shapeCast S800000 (extractStridedSlice S1x800000 ![0, 0] ei slices_S2x800000_S1x800000_0_0) shapeCasts_S1x800000_S800000

def dstRaw (ei : IVec S2x800000 32) : IVec S800000 32 :=
  shapeCast S800000 (extractStridedSlice S1x800000 ![1, 0] ei slices_S2x800000_S1x800000_1_0) shapeCasts_S1x800000_S800000

def wrap (x : IVec S800000 32) : IVec S800000 32 :=
  select (cmpi .slt x (broadcastInDim S800000 ![] bcast_S_S800000 (constantI S_ 32 0#32)))
    (addi x (broadcastInDim S800000 ![] bcast_S_S800000 (constantI S_ 32 50000#32))) x

def col (x : IVec S800000 32) : IVec S800000x1 32 :=
  broadcastInDim S800000x1 ![0] bcast_S800000_S800000x1_0 x

def deg (dst : IVec S800000 32) : FVec F S50000 .f32 :=
  Host.scatterAdd scatter_S50000_S800000x1_S800000_n_0_0_1
    (broadcastInDim S50000 ![] bcast_S_S50000 (constant S_ .f32 0x00000000#32))
    (col dst)
    (broadcastInDim S800000 ![] bcast_S_S800000 (constant S_ .f32 0x3F800000#32))

def dinv (dst : IVec S800000 32) : FVec F S50000 .f32 :=
  Host.rsqrt (addf (deg dst) (broadcastInDim S50000 ![] bcast_S_S50000 (constant S_ .f32 0x3F800000#32)))

def enormFlat (src dst : IVec S800000 32) : FVec F S800000 .f32 :=
  mulf (Host.gather gather_S50000_S800000x1_S800000_n_0_n_n_0_1_1 (dinv dst) (col (wrap src)))
    (Host.gather gather_S50000_S800000x1_S800000_n_0_n_n_0_1_1 (dinv dst) (col (wrap dst)))

def enorm (src dst : IVec S800000 32) : FVec F S800000x1 .f32 :=
  broadcastInDim S800000x1 ![0] bcast_S800000_S800000x1_0 (enormFlat src dst)

def selfNormFlat (dst : IVec S800000 32) : FVec F S50000 .f32 := mulf (dinv dst) (dinv dst)

def selfNorm (dst : IVec S800000 32) : FVec F S50000x1 .f32 :=
  broadcastInDim S50000x1 ![0] bcast_S50000_S50000x1_0 (selfNormFlat dst)

def gatherRows {α : Type} (xw : S50000x128.Idx → α) (src : IVec S800000 32) : S800000x128.Idx → α :=
  Host.gather gather_S50000x128_S800000x1_S800000x128_1_0_n_n_0_1_1128 xw (col (wrap src))

def aggOf (msg : FVec F S800000x128 .f32) (dst : IVec S800000 32) (en : FVec F S800000x1 .f32) : FVec F S50000x128 .f32 :=
  Host.scatterAdd scatter_S50000x128_S800000x1_S800000x128_1_0_0_1
    (broadcastInDim S50000x128 ![] bcast_S_S50000x128 (constant S_ .f32 0x00000000#32))
    (col dst)
    (mulf msg (broadcastInDim S800000x128 ![0, 1] bcast_S800000x1_S800000x128_0_1 en))

def agg (xw : FVec F S50000x128 .f32) (src dst : IVec S800000 32) (en : FVec F S800000x1 .f32) : FVec F S50000x128 .f32 :=
  aggOf (gatherRows xw src) dst en

def rowOf {α : Type} (b : S128.Idx → α) : S1x128.Idx → α :=
  broadcastInDim S1x128 ![1] bcast_S128_S1x128_1 b

def weightMat {α : Type} (o : ℕ) (h : S3x128x128.Slices ![o, 0, 0] S1x128x128) (w : S3x128x128.Idx → α) : S128x128.Idx → α :=
  shapeCast S128x128 (extractStridedSlice S1x128x128 ![o, 0, 0] w h) shapeCasts_S1x128x128_S128x128

def batchCol (b : IVec S50000 32) : IVec S50000x1 32 :=
  broadcastInDim S50000x1 ![0] bcast_S50000_S50000x1_0 b

def biasFlat {α : Type} (o : ℕ) (h : S3x128.Slices ![o, 0] S1x128) (b : S3x128.Idx → α) : S128.Idx → α :=
  shapeCast S128 (extractStridedSlice S1x128 ![o, 0] b h) shapeCasts_S1x128_S128

def biasRow {α : Type} (o : ℕ) (h : S3x128.Slices ![o, 0] S1x128) (b : S3x128.Idx → α) : S1x128.Idx → α :=
  rowOf (biasFlat o h b)

def tail (pooled pw : FVec F S128x128 .f32) (pb : FVec F S128 .f32) : FVec F S128x128 .f32 :=
  Host.divf
    (addf (Host.dotGeneral dot_S128x128_S128x128_S128x128_1_0_0_1_n_n none pooled pw)
      (broadcastInDim S128x128 ![0, 1] bcast_S1x128_S128x128_0_1 (broadcastInDim S1x128 ![1] bcast_S128_S1x128_1 pb)))
    (broadcastInDim S128x128 ![] bcast_S_S128x128 (constant S_ .f32 0x41200000#32))

end R
section Layout

variable {α : Type}

theorem colCast_eq_bcast {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ (![0] : Fin 1 → Fin 2)) :
    shapeCast ⟨2, ![a, 1]⟩ x h₁ = broadcastInDim ⟨2, ![a, 1]⟩ ![0] h₂ x := by
  funext j
  obtain ⟨r, u, rfl⟩ : ∃ r u, j = ix2 r u := ⟨j 0, j 1, eq_ix2 j⟩
  rw [Keepdims.shapeCast_a_a1_apply]
  refine (broadcastInDim_apply _ h₂ x _ (ix1 r) fun ax => ?_).symm
  match ax with
  | ⟨0, _⟩ =>
    show r.val = if a = 1 then 0 else r.val
    split
    · have := r.isLt; omega
    · rfl

end Layout

section Same

variable {F : FTy → Type} [FloatOps F] [Cert.KernelIdeal.Facts₀] [Cert.ReferenceIdeal.Facts₀]

theorem enormFlat_eq (src dst : IVec Cert.KernelIdeal.S800000 32) : K.enormFlat (F := F) src dst = R.enormFlat src dst := rfl
theorem selfNormFlat_eq (dst : IVec Cert.KernelIdeal.S800000 32) : K.selfNormFlat (F := F) dst = R.selfNormFlat dst := rfl
theorem gatherRows_eq {α : Type} (xw : Cert.KernelIdeal.S50000x128.Idx → α) (src : IVec Cert.KernelIdeal.S800000 32) :
    K.gatherRows xw src = R.gatherRows xw src := rfl
theorem aggOf_eq (msg : FVec F Cert.KernelIdeal.S800000x128 .f32) (dst : IVec Cert.KernelIdeal.S800000 32) (en : FVec F Cert.KernelIdeal.S800000x1 .f32) :
    K.aggOf msg dst en = R.aggOf msg dst en := rfl
theorem tail_eq (pooled pw : FVec F Cert.KernelIdeal.S128x128 .f32) (pb : FVec F Cert.KernelIdeal.S128 .f32) :
    K.tail pooled pw pb = R.tail pooled pw pb := rfl

theorem tail_congr {pooled pooled' : FVec F Cert.KernelIdeal.S128x128 .f32} (h : pooled = pooled') (pw : FVec F Cert.KernelIdeal.S128x128 .f32)
    (pb : FVec F Cert.KernelIdeal.S128 .f32) : K.tail pooled pw pb = R.tail pooled' pw pb := h ▸ tail_eq pooled pw pb

theorem enorm_eq (src dst : IVec Cert.KernelIdeal.S800000 32) : K.enorm (F := F) src dst = R.enorm src dst := by
  unfold K.enorm R.enorm
  rw [enormFlat_eq]
  exact colCast_eq_bcast _ _ _

theorem selfNorm_eq (dst : IVec Cert.KernelIdeal.S800000 32) : K.selfNorm (F := F) dst = R.selfNorm dst := by
  unfold K.selfNorm R.selfNorm
  rw [selfNormFlat_eq]
  exact colCast_eq_bcast _ _ _

theorem rowOf_K_apply {α : Type} (b : Cert.KernelIdeal.S128.Idx → α) (u : Fin 1) (c : Fin 128) : K.rowOf b (ix2 u c) = b (ix1 c) :=
  shapeCast_a_1a_apply _ _ _ _

theorem batchCol_eq (b : IVec Cert.KernelIdeal.S50000 32) : K.batchCol b = R.batchCol b := colCast_eq_bcast _ _ _

theorem batchCol_K_apply (b : IVec Cert.KernelIdeal.S50000 32) (r : Fin 50000) (u : Fin 1) : K.batchCol b (ix2 r u) = b (ix1 r) :=
  Keepdims.shapeCast_a_a1_apply _ _ _ _

theorem batchCol_R_apply (b : IVec Cert.KernelIdeal.S50000 32) (r : Fin 50000) (u : Fin 1) : R.batchCol b (ix2 r u) = b (ix1 r) := by
  rw [← batchCol_eq]
  exact batchCol_K_apply b r u

end Same

section FromEdges

variable {F : FTy → Type} [FloatOps F] [Cert.KernelIdeal.Facts₀] [Cert.ReferenceIdeal.Facts₀]

theorem selfNorm_ei_eq (ei : IVec Cert.KernelIdeal.S2x800000 32) : K.selfNorm (F := F) (K.dstRaw ei) = R.selfNorm (R.dstRaw ei) := selfNorm_eq _

end FromEdges

section Agg

variable [Cert.KernelIdeal.Facts₀] [Cert.ReferenceIdeal.Facts₀]

theorem agg_congr (xw : FVec Ideal Cert.KernelIdeal.S50000x128 .bf16) (xw' : FVec Ideal Cert.KernelIdeal.S50000x128 .f32)
    (hxw : ∀ i, xw i = xw' i) (src dst : IVec Cert.KernelIdeal.S800000 32) {en en' : FVec Ideal Cert.KernelIdeal.S800000x1 .f32} (hen : en = en') :
    K.agg xw src dst en = R.agg xw' src dst en' := by
  subst hen
  have hx : xw = xw' := funext hxw
  subst hx
  unfold K.agg R.agg
  rw [aggOf_eq, ← gatherRows_eq]
  rfl

end Agg

end Cert.Bridge

end
-- ==== Proof.Bridge.RefLayer.lean ====
import proofs.«401955_j22634477650042_2_alg».proof.ReferenceIdeal
import Idealize.ShloMosaic.PureOps.Ideal.Laws
import Idealize.ShloMosaic.Lib.ValueIdx
import Idealize.ShloMosaic.Lib.IdealHost
import Idealize.ShloMosaic.Lib.Pipeline.Value
import proofs.«401955_j22634477650042_2_alg».proof.Proof.SpecDefs

noncomputable section

open scoped BigOperators

namespace Cert.Bridge

open Idealize.ShloMosaic Idealize.ShloMosaic.ValueIdx
open Cert.ReferenceIdeal
open Cert.ReferenceIdeal.Facts₀

variable [Cert.ReferenceIdeal.Facts₀]

theorem elu_pos {y : EReal} (h : 0 < y) : Cert.Spec.elu y = y := if_pos h
theorem elu_nonpos {y : EReal} (h : ¬ 0 < y) : Cert.Spec.elu y = Ideal.exp y - 1 := if_neg h

theorem bcast0_apply (c : FVec Ideal S_ .f32) (i : S50000x128.Idx) :
    broadcastInDim S50000x128 ![] bcast_S_S50000x128 c i = c ix0 :=
  broadcastInDim_apply _ _ c i ix0 (fun a => a.elim0)

theorem bcast_zero_apply (i : S50000x128.Idx) :
    broadcastInDim S50000x128 ![] bcast_S_S50000x128 (constant (F := Ideal) S_ .f32 0x00000000#32) i = 0 := by
  rw [bcast0_apply, constant_apply, Ideal.ofBits_zero_f32]

theorem bcast_one_apply (i : S50000x128.Idx) :
    broadcastInDim S50000x128 ![] bcast_S_S50000x128 (constant (F := Ideal) S_ .f32 0x3F800000#32) i = 1 := by
  rw [bcast0_apply, constant_apply, Ideal.ofBits_one_f32]

def refElu (x : FVec Ideal S50000x128 .f32) : FVec Ideal S50000x128 .f32 :=
  select
    (cmpf .ogt x (broadcastInDim S50000x128 ![] bcast_S_S50000x128 (constant (F := Ideal) S_ .f32 0x00000000#32)))
    x
    (mulf (broadcastInDim S50000x128 ![] bcast_S_S50000x128 (constant (F := Ideal) S_ .f32 0x3F800000#32))
      (Host.expm1 (F := Ideal)
        (select
          (cmpf .ogt x (broadcastInDim S50000x128 ![] bcast_S_S50000x128 (constant (F := Ideal) S_ .f32 0x00000000#32)))
          (broadcastInDim S50000x128 ![] bcast_S_S50000x128 (id (constant (F := Ideal) S_ .f32 0x00000000#32)))
          x)))

theorem refElu_apply (x : FVec Ideal S50000x128 .f32) (i : S50000x128.Idx) : refElu x i = Cert.Spec.elu (x i) := by
  unfold refElu
  rw [select_apply, cmpf_apply, mulf_apply, bcast_zero_apply, bcast_one_apply]
  show Scalar.select _ _ (1 * FloatOps.hostUnary .expm1 (Scalar.select _ _ _)) = _
  rw [cmpf_apply, bcast_zero_apply, Ideal.cmpf_def]
  by_cases h : 0 < x i
  · have hc : Ideal.cmp .ogt (x i) 0 = 1#1 := by simp [Ideal.cmp, h]
    rw [hc, select_one, elu_pos h]
  · have hc : Ideal.cmp .ogt (x i) 0 = 0#1 := by simp [Ideal.cmp, h]
    rw [hc, select_zero, select_zero, one_mul, elu_nonpos h]
    rfl

theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
theorem lhs_dot_1 (i : S50000x128.Idx) (q : dot_S50000x128_S128x128_S50000x128_1_0_0_1_n_n.contr.Idx) :
    (dot_S50000x128_S128x128_S50000x128_1_0_0_1_n_n.lhsIdx i q 1).val = (q ⟨0, Nat.one_pos⟩).val :=
  dot_S50000x128_S128x128_S50000x128_1_0_0_1_n_n.lhsIdx_val_of_single rfl i q
theorem rhs_dot_0 (i : S50000x128.Idx) (q : dot_S50000x128_S128x128_S50000x128_1_0_0_1_n_n.contr.Idx) :
    (dot_S50000x128_S128x128_S50000x128_1_0_0_1_n_n.rhsIdx i q 0).val = (q ⟨0, Nat.one_pos⟩).val :=
  dot_S50000x128_S128x128_S50000x128_1_0_0_1_n_n.rhsIdx_val_of_single rfl i q
theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

theorem dot_apply (l : FVec Ideal S50000x128 .f32) (r : FVec Ideal S128x128 .f32) (a : Fin 50000) (b : Fin 128) :
    Host.dotGeneral (F := Ideal) dot_S50000x128_S128x128_S50000x128_1_0_0_1_n_n none l r (ix2 a b)
      = ∑ k : Fin 128, l (ix2 a k) * r (ix2 k b) := by
  simp only [Host.dotGeneral]
  rw [Ideal.dotGeneral_apply,
    ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 a b)
      ((contrEquiv1 dot_S50000x128_S128x128_S50000x128_1_0_0_1_n_n 128 rfl rfl).symm k) = ix2 a k :=
    funext fun c => Fin.ext (by
      match c with
      | ⟨0, _⟩ => exact lhs_dot_0 _ _
      | ⟨1, _⟩ => exact (lhs_dot_1 _ _).trans hk)
  have er : dot_S50000x128_S128x128_S50000x128_1_0_0_1_n_n.rhsIdx (ix2 a b)
      ((contrEquiv1 dot_S50000x128_S128x128_S50000x128_1_0_0_1_n_n 128 rfl rfl).symm k) = ix2 k b :=
    funext fun c => Fin.ext (by
      match c with
      | ⟨0, _⟩ => exact (rhs_dot_0 _ _).trans hk
      | ⟨1, _⟩ => exact rhs_dot_1 _ _)
  rw [el, er]

theorem bcast_col_apply (sn : FVec Ideal S50000x1 .f32) (r : Fin 50000) (q : Fin 128) :
    broadcastInDim S50000x128 ![0, 1] bcast_S50000x1_S50000x128_0_1 sn (ix2 r q) = sn (ix2 r 0) :=
  broadcastInDim_apply _ _ sn (ix2 r q) (ix2 r 0) (fun a => by
    match a with
    | ⟨0, _⟩ => rfl
    | ⟨1, _⟩ => rfl)

theorem bcast_row_apply (b : FVec Ideal S128 .f32) (r : Fin 50000) (q : Fin 128) :
    broadcastInDim S50000x128 ![0, 1] bcast_S1x128_S50000x128_0_1
        (broadcastInDim S1x128 ![1] bcast_S128_S1x128_1 b) (ix2 r q) = b (ix1 q) := by
  rw [broadcastInDim_apply _ _ _ (ix2 r q) (ix2 (0 : Fin 1) q) (fun a => by
    match a with
    | ⟨0, _⟩ => rfl
    | ⟨1, _⟩ => rfl)]
  exact broadcastInDim_apply _ _ b (ix2 (0 : Fin 1) q) (ix1 q) (fun a => by
    match a with
    | ⟨0, _⟩ => rfl)

def refLayer (acc : FVec Ideal S50000x128 .f32) (W lw : FVec Ideal S128x128 .f32) (cbRow lbRow : FVec Ideal S128 .f32)
    (agg : FVec Ideal S50000x128 .f32) (sn : FVec Ideal S50000x1 .f32) : FVec Ideal S50000x128 .f32 :=
  addf acc (refElu
    (addf
      (addf
        (addf
          (addf agg
            (mulf (Host.dotGeneral (F := Ideal) dot_S50000x128_S128x128_S50000x128_1_0_0_1_n_n none acc W)
              (broadcastInDim S50000x128 ![0, 1] bcast_S50000x1_S50000x128_0_1 sn)))
          (broadcastInDim S50000x128 ![0, 1] bcast_S1x128_S50000x128_0_1
            (broadcastInDim S1x128 ![1] bcast_S128_S1x128_1 cbRow)))
        (Host.dotGeneral (F := Ideal) dot_S50000x128_S128x128_S50000x128_1_0_0_1_n_n none acc lw))
      (broadcastInDim S50000x128 ![0, 1] bcast_S1x128_S50000x128_0_1
        (broadcastInDim S1x128 ![1] bcast_S128_S1x128_1 lbRow))))

theorem refLayer_apply (acc : FVec Ideal S50000x128 .f32) (W lw : FVec Ideal S128x128 .f32)
    (cbRow lbRow : FVec Ideal S128 .f32) (agg : FVec Ideal S50000x128 .f32) (sn : FVec Ideal S50000x1 .f32)
    (r : Fin 50000) (q : Fin 128) :
    refLayer acc W lw cbRow lbRow agg sn (ix2 r q)
      = acc (ix2 r q) + Cert.Spec.elu
          ((((agg (ix2 r q) + (∑ k : Fin 128, acc (ix2 r k) * W (ix2 k q)) * sn (ix2 r 0)) + cbRow (ix1 q))
            + ∑ k : Fin 128, acc (ix2 r k) * lw (ix2 k q)) + lbRow (ix1 q)) := by
  unfold refLayer
  rw [addf_apply, refElu_apply, addf_apply, addf_apply, addf_apply, addf_apply, mulf_apply,
    dot_apply, dot_apply, bcast_col_apply, bcast_row_apply, bcast_row_apply]

def refMlp (acc : FVec Ideal S50000x128 .f32) (mlpW : FVec Ideal S128x128 .f32) (mlpB : FVec Ideal S128 .f32) :
    FVec Ideal S50000x128 .f32 :=
  refElu
    (addf (Host.dotGeneral (F := Ideal) dot_S50000x128_S128x128_S50000x128_1_0_0_1_n_n none acc mlpW)
      (broadcastInDim S50000x128 ![0, 1] bcast_S1x128_S50000x128_0_1
        (broadcastInDim S1x128 ![1] bcast_S128_S1x128_1 mlpB)))

theorem refMlp_apply (acc : FVec Ideal S50000x128 .f32) (mlpW : FVec Ideal S128x128 .f32) (mlpB : FVec Ideal S128 .f32)
    (r : Fin 50000) (q : Fin 128) :
    refMlp acc mlpW mlpB (ix2 r q)
      = Cert.Spec.elu ((∑ k : Fin 128, acc (ix2 r k) * mlpW (ix2 k q)) + mlpB (ix1 q)) := by
  unfold refMlp
  rw [refElu_apply, addf_apply, dot_apply, bcast_row_apply]

end Cert.Bridge

end
-- ==== Proof.Bridge.Take.lean ====
import proofs.«401955_j22634477650042_2_alg».proof.KernelIdeal
import proofs.«401955_j22634477650042_2_alg».proof.ReferenceIdeal
import Idealize.ShloMosaic.Lib.Affine
import Idealize.ShloMosaic.PureOps.Reduce

namespace Cert.Bridge

open Idealize.ShloMosaic

variable {F : FTy → Type} [FloatOps F]

section KernelSide
open Cert.KernelIdeal Cert.KernelIdeal.Facts₀
variable [Cert.KernelIdeal.Facts]

abbrev kIdx (a0 : IVec S50000 32) : IVec S50000 32 :=
  select (cmpi .slt a0 (broadcastInDim S50000 ![] bcast_S_S50000 (constantI S_ 32 0#32)))
    (addi a0 (broadcastInDim S50000 ![] bcast_S_S50000 (constantI S_ 32 1#32))) a0

abbrev kIdxCol (a0 : IVec S50000 32) : IVec S50000x1 32 :=
  broadcastInDim S50000x1 ![0] bcast_S50000_S50000x1_0 (kIdx a0)

abbrev kInRange (a0 : IVec S50000 32) : IVec S50000x1 1 :=
  andi (cmpi .sge (kIdxCol a0) (broadcastInDim S50000x1 ![] bcast_S_S50000x1 (constantI S_ 32 0#32)))
    (cmpi .sle (kIdxCol a0)
      (broadcastInDim S50000x1 ![0, 1] bcast_S1x1_S50000x1_0_1
        (broadcastInDim S1x1 ![1] bcast_S1_S1x1_1 (constantI S1 32 0#32))))

abbrev kValid (a0 : IVec S50000 32) : IVec S50000 1 :=
  Host.reduce IntOp.andi (kInRange a0) (constantI S_ 1 1#1) reducesTo_S50000x1_S50000_d1 h_S_

abbrev kTake (a3 : FVec F S1x128 .f32) (a0 : IVec S50000 32) : FVec F S50000x128 .f32 :=
  select (broadcastInDim S50000x128 ![0] bcast_S50000_S50000x128_0 (kValid a0))
    (Host.gather gather_S1x128_S50000x1_S50000x128_1_0_n_n_0_1_1128 a3 (kIdxCol a0))
    (broadcastInDim S50000x128 ![] bcast_S_S50000x128 (constant S_ .f32 0x7FC00000#32))

end KernelSide

section ReferenceSide
open Cert.ReferenceIdeal Cert.ReferenceIdeal.Facts₀
variable [Cert.ReferenceIdeal.Facts]

abbrev rTake (a3 : FVec F S1x128 .f32) (a0 : IVec S50000 32) : FVec F S50000x128 .f32 :=
  Host.gather gather_S1x128_S50000x1_S50000x128_1_0_n_n_0_1_1128 a3
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 1#32))) a0))

end ReferenceSide

theorem foldl_andi_ones {ι : Type} (l : List ι) :
    l.foldl (fun r _ => IntOp.andi r (1#1 : BitVec 1)) (1#1 : BitVec 1) = 1#1 := by
  induction l with
  | nil => rfl
  | cons a l ih =>
    rw [List.foldl_cons, show IntOp.andi (1#1 : BitVec 1) 1#1 = 1#1 from by decide]
    exact ih

theorem broadcastInDim_of_all {s t : Shape} {α : Type} (dims : Fin s.rank → Fin t.rank) (h : s.BroadcastsInDim t dims)
    (x : s.Idx → α) (c : α) (hx : ∀ p, x p = c) (j : t.Idx) : broadcastInDim t dims h x j = c := by
  unfold broadcastInDim
  exact hx _

theorem select_of_all_one {s : Shape} {α : Type} (c : IVec s 1) (a b : s.Idx → α) (hc : ∀ i, c i = 1#1) :
    select c a b = a := by
  funext i
  show Scalar.select (c i) (a i) (b i) = a i
  rw [hc i]
  exact if_pos rfl

section Agree
variable [Cert.KernelIdeal.Facts] [Cert.ReferenceIdeal.Facts]

theorem kIdx_zero : kIdx (fun _ => 0#32) = fun _ => 0#32 := by
  funext i
  show Scalar.select (IntOp.cmpi .slt 0#32 0#32) (IntOp.addi 0#32 1#32) 0#32 = 0#32
  decide

theorem kIdxCol_zero : kIdxCol (fun _ => 0#32) = fun _ => 0#32 := by
  show broadcastInDim _ _ _ (kIdx (fun _ => 0#32)) = _
  rw [kIdx_zero]
  rfl

theorem kInRange_zero : kInRange (fun _ => 0#32) = fun _ => 1#1 := by
  funext q
  show IntOp.andi (IntOp.cmpi .sge (kIdxCol (fun _ => 0#32) q) 0#32)
      (IntOp.cmpi .sle (kIdxCol (fun _ => 0#32) q) 0#32) = 1#1
  rw [kIdxCol_zero]
  show IntOp.andi (IntOp.cmpi .sge 0#32 0#32) (IntOp.cmpi .sle 0#32 0#32) = 1#1
  decide

theorem kValid_zero (p : Cert.KernelIdeal.S50000.Idx) : kValid (fun _ => 0#32) p = 1#1 := by
  show Host.reduce IntOp.andi (kInRange (fun _ => 0#32)) _ _ _ p = 1#1
  rw [kInRange_zero, Host.reduce_eq_foldl]
  exact foldl_andi_ones _

theorem kGather_eq_rTake (a3 : FVec F Cert.KernelIdeal.S1x128 .f32) (a0 : IVec Cert.KernelIdeal.S50000 32) :
    Host.gather Cert.KernelIdeal.gather_S1x128_S50000x1_S50000x128_1_0_n_n_0_1_1128 a3 (kIdxCol a0) = rTake a3 a0 :=
  rfl

theorem kTake_eq_rTake (a3 : FVec F Cert.KernelIdeal.S1x128 .f32) (a0 : IVec Cert.KernelIdeal.S50000 32)
    (h0 : ∀ i, a0 i = 0#32) : kTake a3 a0 = rTake a3 a0 := by
  have ha : a0 = fun _ => 0#32 := funext h0
  subst ha
  exact (select_of_all_one _ _ _ (fun j => broadcastInDim_of_all _ _ _ _ kValid_zero j)).trans
    (kGather_eq_rTake a3 _)

end Agree

end Cert.Bridge
-- ==== Proof.LibScatterAddRows.lean ====
import Idealize.ShloMosaic.PureOps.Ideal
import Idealize.ShloMosaic.Lib.ValueIdx

noncomputable section

open scoped BigOperators

namespace Cert.LibScatterAddRows

open Idealize.ShloMosaic Idealize.ShloMosaic.ValueIdx

theorem axis2_cases {N C : Nat} (a : Fin (⟨2, ![N, C]⟩ : Shape).rank) : a = 0 ∨ a = 1 := by
  match a with
  | ⟨0, _⟩ => exact Or.inl rfl
  | ⟨1, _⟩ => exact Or.inr rfl

abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

theorem rows2_start1 : (rows2Dims N n C wf).start (ix2 j c) idx 1 = 0 := by
  unfold ScatterDims.start
  rw [dif_neg]
  simp

theorem rows2_window0 : (rows2Dims N n C wf).window (ix2 j c) 0 = 0 := by
  unfold ScatterDims.window
  rw [dif_neg]
  simp [ScatterDims.sKept, Shape.kept, List.mem_filter, List.mem_finRange]

theorem rows2_window1 : (rows2Dims N n C wf).window (ix2 j c) 1 = c.val := by
  unfold ScatterDims.window
  rw [dif_pos (by simp [ScatterDims.sKept, Shape.kept, List.mem_filter, List.mem_finRange])]
  rfl

theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

theorem rows3_start1 : (rows3Dims N n A B wf).start (ix3 j a b) idx 1 = 0 := by
  unfold ScatterDims.start
  rw [dif_neg]
  simp

theorem rows3_start2 : (rows3Dims N n A B wf).start (ix3 j a b) idx 2 = 0 := by
  unfold ScatterDims.start
  rw [dif_neg]
  simp

theorem rows3_window0 : (rows3Dims N n A B wf).window (ix3 j a b) 0 = 0 := by
  unfold ScatterDims.window
  rw [dif_neg]
  simp [ScatterDims.sKept, Shape.kept, List.mem_filter, List.mem_finRange]

theorem rows3_window1 : (rows3Dims N n A B wf).window (ix3 j a b) 1 = a.val := by
  unfold ScatterDims.window
  rw [dif_pos (by simp [ScatterDims.sKept, Shape.kept, List.mem_filter, List.mem_finRange])]
  rfl

theorem rows3_window2 : (rows3Dims N n A B wf).window (ix3 j a b) 2 = b.val := by
  unfold ScatterDims.window
  rw [dif_pos (by simp [ScatterDims.sKept, Shape.kept, List.mem_filter, List.mem_finRange])]
  rfl

theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.Bridge.PoolBridge.lean ====
import proofs.«401955_j22634477650042_2_alg».proof.Proof.Bridge.Shared
import proofs.«401955_j22634477650042_2_alg».proof.Proof.LibScatterAddRows
import Idealize.ShloMosaic.Lib.IdealHost
import Idealize.ShloMosaic.PureOps.Ideal.Laws

noncomputable section

open scoped BigOperators

namespace Cert.Bridge

open Idealize.ShloMosaic Idealize.ShloMosaic.ValueIdx

namespace R

open Cert.ReferenceIdeal Cert.ReferenceIdeal.Facts₀

variable {F : FTy → Type} [FloatOps F] [Cert.ReferenceIdeal.Facts₀]

def pooled (batch : IVec S50000 32) (y : FVec F S50000x128 .f32) : FVec F S128x128 .f32 :=
  Host.scatterAdd scatter_S128x128_S50000x1_S50000x128_1_0_0_1
    (broadcastInDim S128x128 ![] bcast_S_S128x128 (constant S_ .f32 0x00000000#32))
    (batchCol batch) y

end R

section Pooled

variable [Cert.KernelIdeal.Facts₀] [Cert.ReferenceIdeal.Facts₀]

theorem pooled_R_apply (batch : IVec Cert.ReferenceIdeal.S50000 32) (y : FVec Ideal Cert.ReferenceIdeal.S50000x128 .f32)
    (g q : Fin 128) :
    R.pooled batch y (ix2 g q)
      = ∑ i ∈ Finset.univ.filter (fun i : Fin 50000 => (batch (ix1 i)).toInt = (g.val : ℤ)), y (ix2 i q) := by
  unfold R.pooled
  rw [Cert.LibScatterAddRows.scatterAdd_rows2_apply _ rfl rfl rfl rfl, broadcastInDim_scalar_apply, constant_apply,
    Ideal.ofBits_zero_f32, zero_add]
  refine Finset.sum_congr (Finset.filter_congr fun j _ => ?_) fun _ _ => rfl
  rw [batchCol_R_apply]

end Pooled

end Cert.Bridge

end
-- ==== Proof.Ref.Read.lean ====
import proofs.«401955_j22634477650042_2_alg».proof.Proof.Ref.Run
import proofs.«401955_j22634477650042_2_alg».proof.Proof.Bridge.Shared
import proofs.«401955_j22634477650042_2_alg».proof.Proof.Bridge.RefLayer
import proofs.«401955_j22634477650042_2_alg».proof.Proof.Bridge.Take
import proofs.«401955_j22634477650042_2_alg».proof.Proof.Bridge.PoolBridge

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Bridge

variable {F : FTy → Type} [FloatOps F]

set_option quotPrecheck false in
local notation "⟪" V ", " b "⟫" => after ops V (Proc.devRef .tc b)

theorem after_ops (V : Valuation τ sig (Elt F)) :
    after (ops (F := F)) V = after opsTail (after opsL2 (after opsL1 (after opsL0 (after opsPre V)))) := by
  rw [ops_eq, after_app, after_app, after_app, after_app]

theorem A_pre (V : Valuation τ sig (Elt F)) {b : Ref sig .tc}
    (h0 : b ∉ writtenL0) (h1 : b ∉ writtenL1) (h2 : b ∉ writtenL2) (h3 : b ∉ writtenTail) :
    ⟪V, b⟫ = after opsPre V (Proc.devRef .tc b) := by
  rw [after_ops, opsTail_keeps _ h3, opsL2_keeps _ h2, opsL1_keeps _ h1, opsL0_keeps _ h0]

theorem A_L0 (V : Valuation τ sig (Elt F)) {b : Ref sig .tc}
    (h1 : b ∉ writtenL1) (h2 : b ∉ writtenL2) (h3 : b ∉ writtenTail) :
    ⟪V, b⟫ = after opsL0 (after opsPre V) (Proc.devRef .tc b) := by
  rw [after_ops, opsTail_keeps _ h3, opsL2_keeps _ h2, opsL1_keeps _ h1]

theorem A_L1 (V : Valuation τ sig (Elt F)) {b : Ref sig .tc} (h2 : b ∉ writtenL2) (h3 : b ∉ writtenTail) :
    ⟪V, b⟫ = after opsL1 (after opsL0 (after opsPre V)) (Proc.devRef .tc b) := by
  rw [after_ops, opsTail_keeps _ h3, opsL2_keeps _ h2]

theorem A_L2 (V : Valuation τ sig (Elt F)) {b : Ref sig .tc} (h3 : b ∉ writtenTail) :
    ⟪V, b⟫ = after opsL2 (after opsL1 (after opsL0 (after opsPre V))) (Proc.devRef .tc b) := by
  rw [after_ops, opsTail_keeps _ h3]

theorem A_tail (V : Valuation τ sig (Elt F)) (b : Ref sig .tc) :
    ⟪V, b⟫ = after opsTail (after opsL2 (after opsL1 (after opsL0 (after opsPre V)))) (Proc.devRef .tc b) := by
  rw [after_ops]

macro "arg_as_A " V:term ", " a:term : tactic =>
  `(tactic| rw [← arg_keeps $V (r := $a) (by decide)])
macro "at_pre " V:term ", " b:term : tactic =>
  `(tactic| rw [A_pre $V (b := $b) (by decide) (by decide) (by decide) (by decide)])
macro "at_L0 " V:term ", " b:term : tactic =>
  `(tactic| rw [A_L0 $V (b := $b) (by decide) (by decide) (by decide)])
macro "at_L1 " V:term ", " b:term : tactic =>
  `(tactic| rw [A_L1 $V (b := $b) (by decide) (by decide)])
macro "at_L2 " V:term ", " b:term : tactic =>
  `(tactic| rw [A_L2 $V (b := $b) (by decide)])
macro "at_tail " V:term ", " b:term : tactic =>
  `(tactic| rw [A_tail $V $b])

attribute [local irreducible] Host.gather Host.scatterAdd

theorem read_src (V : Valuation τ sig (Elt F)) : ⟪V, main_v1⟫ = R.srcRaw (V (Proc.devRef .tc main_arg1)) := by
  at_pre V, main_v1
  after_results_simp <;> rfl

theorem read_dst (V : Valuation τ sig (Elt F)) : ⟪V, main_v3⟫ = R.dstRaw (V (Proc.devRef .tc main_arg1)) := by
  at_pre V, main_v3
  after_results_simp <;> rfl

theorem read_enorm (V : Valuation τ sig (Elt F)) :
    ⟪V, main_v26⟫ = R.enorm (R.srcRaw (V (Proc.devRef .tc main_arg1))) (R.dstRaw (V (Proc.devRef .tc main_arg1))) := by
  at_pre V, main_v26
  after_results_simp <;> rfl

theorem read_selfNorm (V : Valuation τ sig (Elt F)) :
    ⟪V, main_v28⟫ = R.selfNorm (R.dstRaw (V (Proc.devRef .tc main_arg1))) := by
  at_pre V, main_v28
  after_results_simp <;> rfl

theorem read_h (V : Valuation τ sig (Elt F)) :
    ⟪V, main_v35⟫ = rTake (V (Proc.devRef .tc main_arg3)) (V (Proc.devRef .tc main_arg0)) := by
  at_pre V, main_v35
  after_results_simp <;> rfl

theorem after_split (l : List (HloOp τ sig (Elt F))) (n : ℕ) (W : Valuation τ sig (Elt F)) :
    after l W = after (l.drop n) (after (l.take n) W) := by
  rw [← after_app, List.take_append_drop]

def eluTerm (x : FVec F S50000x128 .f32) : FVec F S50000x128 .f32 :=
  select
    (cmpf .ogt x (broadcastInDim S50000x128 ![] bcast_S_S50000x128 (constant S_ .f32 0x00000000#32)))
    x
    (mulf (broadcastInDim S50000x128 ![] bcast_S_S50000x128 (constant S_ .f32 0x3F800000#32))
      (Host.expm1
        (select
          (cmpf .ogt x (broadcastInDim S50000x128 ![] bcast_S_S50000x128 (constant S_ .f32 0x00000000#32)))
          (broadcastInDim S50000x128 ![] bcast_S_S50000x128 (id (constant S_ .f32 0x00000000#32)))
          x)))

def preTerm (acc : FVec F S50000x128 .f32) (W lw : FVec F S128x128 .f32) (cbRow lbRow : FVec F S128 .f32)
    (agg : FVec F S50000x128 .f32) (sn : FVec F S50000x1 .f32) : FVec F S50000x128 .f32 :=
  addf
    (addf
      (addf
        (addf agg
          (mulf (Host.dotGeneral dot_S50000x128_S128x128_S50000x128_1_0_0_1_n_n none acc W)
            (broadcastInDim S50000x128 ![0, 1] bcast_S50000x1_S50000x128_0_1 sn)))
        (broadcastInDim S50000x128 ![0, 1] bcast_S1x128_S50000x128_0_1
          (broadcastInDim S1x128 ![1] bcast_S128_S1x128_1 cbRow)))
      (Host.dotGeneral dot_S50000x128_S128x128_S50000x128_1_0_0_1_n_n none acc lw))
    (broadcastInDim S50000x128 ![0, 1] bcast_S1x128_S50000x128_0_1
      (broadcastInDim S1x128 ![1] bcast_S128_S1x128_1 lbRow))

def mlpPreTerm (acc : FVec F S50000x128 .f32) (M : FVec F S128x128 .f32) (mb : FVec F S128 .f32) : FVec F S50000x128 .f32 :=
  addf (Host.dotGeneral dot_S50000x128_S128x128_S50000x128_1_0_0_1_n_n none acc M)
    (broadcastInDim S50000x128 ![0, 1] bcast_S1x128_S50000x128_0_1 (broadcastInDim S1x128 ![1] bcast_S128_S1x128_1 mb))

theorem layer_ideal (acc : FVec Ideal S50000x128 .f32) (W lw : FVec Ideal S128x128 .f32) (cbRow lbRow : FVec Ideal S128 .f32)
    (agg : FVec Ideal S50000x128 .f32) (sn : FVec Ideal S50000x1 .f32) :
    addf acc (eluTerm (preTerm acc W lw cbRow lbRow agg sn)) = refLayer acc W lw cbRow lbRow agg sn := rfl

theorem mlp_ideal (acc : FVec Ideal S50000x128 .f32) (M : FVec Ideal S128x128 .f32) (mb : FVec Ideal S128 .f32) :
    eluTerm (mlpPreTerm acc M mb) = refMlp acc M mb := rfl

theorem read_xw0 (V : Valuation τ sig (Elt F)) :
    ⟪V, main_v38⟫ = Host.dotGeneral dot_S50000x128_S128x128_S50000x128_1_0_0_1_n_n none ⟪V, main_v35⟫ (R.weightMat 0 slices_S3x128x128_S1x128x128_0_0_0 (V (Proc.devRef .tc main_arg4))) := by
  arg_as_A V, main_arg4
  at_L0 V, main_v38
  at_L0 V, main_v35
  at_L0 V, main_arg4
  generalize after opsPre V = W
  after_results_simp <;> rfl

theorem read_agg0 (V : Valuation τ sig (Elt F)) :
    ⟪V, main_v50⟫ = R.agg ⟪V, main_v38⟫ (R.srcRaw (V (Proc.devRef .tc main_arg1))) (R.dstRaw (V (Proc.devRef .tc main_arg1)))
      (R.enorm (R.srcRaw (V (Proc.devRef .tc main_arg1))) (R.dstRaw (V (Proc.devRef .tc main_arg1)))) := by
  rw [← read_enorm V, ← read_src V, ← read_dst V]
  at_L0 V, main_v50
  at_L0 V, main_v38
  at_L0 V, main_v26
  at_L0 V, main_v1
  at_L0 V, main_v3
  generalize after opsPre V = W
  after_results_simp <;> rfl

set_option maxHeartbeats 1000000 in
theorem read_x0 (V : Valuation τ sig (Elt F)) :
    ⟪V, main_v67⟫ = preTerm ⟪V, main_v35⟫ (R.weightMat 0 slices_S3x128x128_S1x128x128_0_0_0 (V (Proc.devRef .tc main_arg4))) (R.weightMat 0 slices_S3x128x128_S1x128x128_0_0_0 (V (Proc.devRef .tc main_arg6)))
      (R.biasFlat 0 slices_S3x128_S1x128_0_0 (V (Proc.devRef .tc main_arg5))) (R.biasFlat 0 slices_S3x128_S1x128_0_0 (V (Proc.devRef .tc main_arg7)))
      ⟪V, main_v50⟫ (R.selfNorm (R.dstRaw (V (Proc.devRef .tc main_arg1)))) := by
  rw [← read_selfNorm V]
  arg_as_A V, main_arg4
  arg_as_A V, main_arg5
  arg_as_A V, main_arg6
  arg_as_A V, main_arg7
  at_L0 V, main_v67
  at_L0 V, main_v35
  at_L0 V, main_v50
  at_L0 V, main_v28
  at_L0 V, main_arg4
  at_L0 V, main_arg5
  at_L0 V, main_arg6
  at_L0 V, main_arg7
  generalize after opsPre V = W
  after_results_simp <;> rfl

theorem read_elu0 (V : Valuation τ sig (Elt F)) :
    ⟪V, main_v69⟫ = addf ⟪V, main_v35⟫ (eluTerm ⟪V, main_v67⟫) := by
  at_L0 V, main_v69
  at_L0 V, main_v35
  at_L0 V, main_v67
  generalize after opsPre V = W
  rw [after_split opsL0 35 W]
  generalize after (List.take 35 opsL0) W = W1
  simp only [opsL0, List.drop_succ_cons, List.drop_zero]
  after_results_simp <;> rfl

theorem read_acc1 (V : Valuation τ sig (Elt Ideal)) :
    ⟪V, main_v69⟫ = refLayer ⟪V, main_v35⟫ (R.weightMat 0 slices_S3x128x128_S1x128x128_0_0_0 (V (Proc.devRef .tc main_arg4))) (R.weightMat 0 slices_S3x128x128_S1x128x128_0_0_0 (V (Proc.devRef .tc main_arg6)))
      (R.biasFlat 0 slices_S3x128_S1x128_0_0 (V (Proc.devRef .tc main_arg5))) (R.biasFlat 0 slices_S3x128_S1x128_0_0 (V (Proc.devRef .tc main_arg7)))
      ⟪V, main_v50⟫ (R.selfNorm (R.dstRaw (V (Proc.devRef .tc main_arg1)))) := by
  rw [read_elu0 V, read_x0 V]
  exact layer_ideal _ _ _ _ _ _ _

theorem read_xw1 (V : Valuation τ sig (Elt F)) :
    ⟪V, main_v72⟫ = Host.dotGeneral dot_S50000x128_S128x128_S50000x128_1_0_0_1_n_n none ⟪V, main_v69⟫ (R.weightMat 1 slices_S3x128x128_S1x128x128_1_0_0 (V (Proc.devRef .tc main_arg4))) := by
  arg_as_A V, main_arg4
  at_L1 V, main_v72
  at_L1 V, main_v69
  at_L1 V, main_arg4
  generalize after opsL0 (after opsPre V) = W
  after_results_simp <;> rfl

theorem read_agg1 (V : Valuation τ sig (Elt F)) :
    ⟪V, main_v84⟫ = R.agg ⟪V, main_v72⟫ (R.srcRaw (V (Proc.devRef .tc main_arg1))) (R.dstRaw (V (Proc.devRef .tc main_arg1)))
      (R.enorm (R.srcRaw (V (Proc.devRef .tc main_arg1))) (R.dstRaw (V (Proc.devRef .tc main_arg1)))) := by
  rw [← read_enorm V, ← read_src V, ← read_dst V]
  at_L1 V, main_v84
  at_L1 V, main_v72
  at_L1 V, main_v26
  at_L1 V, main_v1
  at_L1 V, main_v3
  generalize after opsL0 (after opsPre V) = W
  after_results_simp <;> rfl

set_option maxHeartbeats 1000000 in
theorem read_x1 (V : Valuation τ sig (Elt F)) :
    ⟪V, main_v101⟫ = preTerm ⟪V, main_v69⟫ (R.weightMat 1 slices_S3x128x128_S1x128x128_1_0_0 (V (Proc.devRef .tc main_arg4))) (R.weightMat 1 slices_S3x128x128_S1x128x128_1_0_0 (V (Proc.devRef .tc main_arg6)))
      (R.biasFlat 1 slices_S3x128_S1x128_1_0 (V (Proc.devRef .tc main_arg5))) (R.biasFlat 1 slices_S3x128_S1x128_1_0 (V (Proc.devRef .tc main_arg7)))
      ⟪V, main_v84⟫ (R.selfNorm (R.dstRaw (V (Proc.devRef .tc main_arg1)))) := by
  rw [← read_selfNorm V]
  arg_as_A V, main_arg4
  arg_as_A V, main_arg5
  arg_as_A V, main_arg6
  arg_as_A V, main_arg7
  at_L1 V, main_v101
  at_L1 V, main_v69
  at_L1 V, main_v84
  at_L1 V, main_v28
  at_L1 V, main_arg4
  at_L1 V, main_arg5
  at_L1 V, main_arg6
  at_L1 V, main_arg7
  generalize after opsL0 (after opsPre V) = W
  after_results_simp <;> rfl

theorem read_elu1 (V : Valuation τ sig (Elt F)) :
    ⟪V, main_v103⟫ = addf ⟪V, main_v69⟫ (eluTerm ⟪V, main_v101⟫) := by
  at_L1 V, main_v103
  at_L1 V, main_v69
  at_L1 V, main_v101
  generalize after opsL0 (after opsPre V) = W
  rw [after_split opsL1 35 W]
  generalize after (List.take 35 opsL1) W = W1
  simp only [opsL1, List.drop_succ_cons, List.drop_zero]
  after_results_simp <;> rfl

theorem read_acc2 (V : Valuation τ sig (Elt Ideal)) :
    ⟪V, main_v103⟫ = refLayer ⟪V, main_v69⟫ (R.weightMat 1 slices_S3x128x128_S1x128x128_1_0_0 (V (Proc.devRef .tc main_arg4))) (R.weightMat 1 slices_S3x128x128_S1x128x128_1_0_0 (V (Proc.devRef .tc main_arg6)))
      (R.biasFlat 1 slices_S3x128_S1x128_1_0 (V (Proc.devRef .tc main_arg5))) (R.biasFlat 1 slices_S3x128_S1x128_1_0 (V (Proc.devRef .tc main_arg7)))
      ⟪V, main_v84⟫ (R.selfNorm (R.dstRaw (V (Proc.devRef .tc main_arg1)))) := by
  rw [read_elu1 V, read_x1 V]
  exact layer_ideal _ _ _ _ _ _ _

theorem read_xw2 (V : Valuation τ sig (Elt F)) :
    ⟪V, main_v106⟫ = Host.dotGeneral dot_S50000x128_S128x128_S50000x128_1_0_0_1_n_n none ⟪V, main_v103⟫ (R.weightMat 2 slices_S3x128x128_S1x128x128_2_0_0 (V (Proc.devRef .tc main_arg4))) := by
  arg_as_A V, main_arg4
  at_L2 V, main_v106
  at_L2 V, main_v103
  at_L2 V, main_arg4
  generalize after opsL1 (after opsL0 (after opsPre V)) = W
  after_results_simp <;> rfl

theorem read_agg2 (V : Valuation τ sig (Elt F)) :
    ⟪V, main_v118⟫ = R.agg ⟪V, main_v106⟫ (R.srcRaw (V (Proc.devRef .tc main_arg1))) (R.dstRaw (V (Proc.devRef .tc main_arg1)))
      (R.enorm (R.srcRaw (V (Proc.devRef .tc main_arg1))) (R.dstRaw (V (Proc.devRef .tc main_arg1)))) := by
  rw [← read_enorm V, ← read_src V, ← read_dst V]
  at_L2 V, main_v118
  at_L2 V, main_v106
  at_L2 V, main_v26
  at_L2 V, main_v1
  at_L2 V, main_v3
  generalize after opsL1 (after opsL0 (after opsPre V)) = W
  after_results_simp <;> rfl

set_option maxHeartbeats 1000000 in
theorem read_x2 (V : Valuation τ sig (Elt F)) :
    ⟪V, main_v135⟫ = preTerm ⟪V, main_v103⟫ (R.weightMat 2 slices_S3x128x128_S1x128x128_2_0_0 (V (Proc.devRef .tc main_arg4))) (R.weightMat 2 slices_S3x128x128_S1x128x128_2_0_0 (V (Proc.devRef .tc main_arg6)))
      (R.biasFlat 2 slices_S3x128_S1x128_2_0 (V (Proc.devRef .tc main_arg5))) (R.biasFlat 2 slices_S3x128_S1x128_2_0 (V (Proc.devRef .tc main_arg7)))
      ⟪V, main_v118⟫ (R.selfNorm (R.dstRaw (V (Proc.devRef .tc main_arg1)))) := by
  rw [← read_selfNorm V]
  arg_as_A V, main_arg4
  arg_as_A V, main_arg5
  arg_as_A V, main_arg6
  arg_as_A V, main_arg7
  at_L2 V, main_v135
  at_L2 V, main_v103
  at_L2 V, main_v118
  at_L2 V, main_v28
  at_L2 V, main_arg4
  at_L2 V, main_arg5
  at_L2 V, main_arg6
  at_L2 V, main_arg7
  generalize after opsL1 (after opsL0 (after opsPre V)) = W
  after_results_simp <;> rfl

theorem read_elu2 (V : Valuation τ sig (Elt F)) :
    ⟪V, main_v137⟫ = addf ⟪V, main_v103⟫ (eluTerm ⟪V, main_v135⟫) := by
  at_L2 V, main_v137
  at_L2 V, main_v103
  at_L2 V, main_v135
  generalize after opsL1 (after opsL0 (after opsPre V)) = W
  rw [after_split opsL2 35 W]
  generalize after (List.take 35 opsL2) W = W1
  simp only [opsL2, List.drop_succ_cons, List.drop_zero]
  after_results_simp <;> rfl

theorem read_acc3 (V : Valuation τ sig (Elt Ideal)) :
    ⟪V, main_v137⟫ = refLayer ⟪V, main_v103⟫ (R.weightMat 2 slices_S3x128x128_S1x128x128_2_0_0 (V (Proc.devRef .tc main_arg4))) (R.weightMat 2 slices_S3x128x128_S1x128x128_2_0_0 (V (Proc.devRef .tc main_arg6)))
      (R.biasFlat 2 slices_S3x128_S1x128_2_0 (V (Proc.devRef .tc main_arg5))) (R.biasFlat 2 slices_S3x128_S1x128_2_0 (V (Proc.devRef .tc main_arg7)))
      ⟪V, main_v118⟫ (R.selfNorm (R.dstRaw (V (Proc.devRef .tc main_arg1)))) := by
  rw [read_elu2 V, read_x2 V]
  exact layer_ideal _ _ _ _ _ _ _

theorem read_ypre (V : Valuation τ sig (Elt F)) :
    ⟪V, main_v141⟫ = mlpPreTerm ⟪V, main_v137⟫ (V (Proc.devRef .tc main_arg8)) (V (Proc.devRef .tc main_arg9)) := by
  arg_as_A V, main_arg8
  arg_as_A V, main_arg9
  at_tail V, main_v141
  at_tail V, main_v137
  at_tail V, main_arg8
  at_tail V, main_arg9
  generalize after opsL2 (after opsL1 (after opsL0 (after opsPre V))) = W
  after_results_simp <;> rfl

theorem read_yelu (V : Valuation τ sig (Elt F)) :
    ⟪V, main_v142⟫ = eluTerm ⟪V, main_v141⟫ := by
  at_tail V, main_v142
  at_tail V, main_v141
  generalize after opsL2 (after opsL1 (after opsL0 (after opsPre V))) = W
  rw [after_split opsTail 4 W]
  generalize after (List.take 4 opsTail) W = W1
  simp only [opsTail, List.drop_succ_cons, List.drop_zero]
  after_results_simp <;> rfl

theorem read_y (V : Valuation τ sig (Elt Ideal)) :
    ⟪V, main_v142⟫ = refMlp ⟪V, main_v137⟫ (V (Proc.devRef .tc main_arg8)) (V (Proc.devRef .tc main_arg9)) := by
  rw [read_yelu V, read_ypre V]
  exact mlp_ideal _ _ _

theorem read_pooled (V : Valuation τ sig (Elt F)) :
    ⟪V, main_v145⟫ = R.pooled (V (Proc.devRef .tc main_arg2)) ⟪V, main_v142⟫ := by
  arg_as_A V, main_arg2
  at_tail V, main_v145
  at_tail V, main_v142
  at_tail V, main_arg2
  generalize after opsL2 (after opsL1 (after opsL0 (after opsPre V))) = W
  rw [after_split opsTail 19 W]
  generalize after (List.take 19 opsTail) W = W1
  simp only [opsTail, List.drop_succ_cons, List.drop_zero]
  after_results_simp <;> rfl

theorem read_result (V : Valuation τ sig (Elt F)) :
    ⟪V, main_v151⟫ = R.tail ⟪V, main_v145⟫ (V (Proc.devRef .tc main_arg10)) (V (Proc.devRef .tc main_arg11)) := by
  arg_as_A V, main_arg10
  arg_as_A V, main_arg11
  at_tail V, main_v151
  at_tail V, main_v145
  at_tail V, main_arg10
  at_tail V, main_arg11
  generalize after opsL2 (after opsL1 (after opsL0 (after opsPre V))) = W
  rw [after_split opsTail 23 W]
  generalize after (List.take 23 opsTail) W = W1
  simp only [opsTail, List.drop_succ_cons, List.drop_zero]
  after_results_simp <;> rfl

end Cert.ReferenceIdeal.RefValue

end
-- ==== Proof.KI.HostRead.lean ====
import proofs.«401955_j22634477650042_2_alg».proof.Proof.Gen.KernelIdeal.Regions
import proofs.«401955_j22634477650042_2_alg».proof.Proof.Bridge.Shared
import proofs.«401955_j22634477650042_2_alg».proof.Proof.Bridge.Take
import Idealize.ShloMosaic.Lib.StableHlo.Run

set_option maxRecDepth 1420

noncomputable section

namespace Cert.KernelIdeal.Hand

open Idealize.ShloMosaic Idealize.ShloMosaic.TcCoe Idealize.SL.Sem
open Cert.KernelIdeal Cert.KernelIdeal.Gen
open Idealize.ShloMosaic.StableHlo
open Cert.Bridge

variable {F : FTy → Type} [FloatOps F]

section Stretch

variable (W : Valuation τ sig (Elt F))

theorem ops0_v1 : after hostOps0 W (main_v1 : DevRef τ sig) = K.srcRaw (W (main_arg1 : DevRef τ sig)) := by
  after_results_simp; rfl

theorem ops0_v3 : after hostOps0 W (main_v3 : DevRef τ sig) = K.dstRaw (W (main_arg1 : DevRef τ sig)) := by
  after_results_simp; rfl

theorem ops0_v4 : after hostOps0 W (main_v4 : DevRef τ sig) = K.batchCol (W (main_arg2 : DevRef τ sig)) := by
  after_results_simp; rfl

theorem ops0_v27 : after hostOps0 W (main_v27 : DevRef τ sig)
    = K.enorm (K.srcRaw (W (main_arg1 : DevRef τ sig))) (K.dstRaw (W (main_arg1 : DevRef τ sig))) := by
  after_results_simp; rfl

theorem ops0_v29 : after hostOps0 W (main_v29 : DevRef τ sig) = K.selfNorm (K.dstRaw (W (main_arg1 : DevRef τ sig))) := by
  after_results_simp; rfl

theorem ops0_1_v30 : after hostOps0_1 W (main_v30 : DevRef τ sig) = kTake (W (main_arg3 : DevRef τ sig)) (W (main_arg0 : DevRef τ sig)) := by
  after_results_simp <;> (try simp only [TRef.ofBuf, TRef.toBuf, cast_eq]) <;> rfl

theorem ops0_2_v32 : after hostOps0_2 W (main_v32 : DevRef τ sig) = K.weightMat 0 slices_S3x128x128_S1x128x128_0_0_0 (W (main_arg4 : DevRef τ sig)) := by
  after_results_simp; rfl

theorem ops1_v46 : after hostOps1 W (main_v46 : DevRef τ sig)
    = K.agg (W (main_v33 : DevRef τ sig)) (W (main_v1 : DevRef τ sig)) (W (main_v3 : DevRef τ sig)) (W (main_v27 : DevRef τ sig)) := by
  after_results_simp; rfl

theorem ops1_v49 : after hostOps1 W (main_v49 : DevRef τ sig) = K.biasRow 0 slices_S3x128_S1x128_0_0 (W (main_arg5 : DevRef τ sig)) := by
  after_results_simp; rfl
theorem ops1_v51 : after hostOps1 W (main_v51 : DevRef τ sig) = K.weightMat 0 slices_S3x128x128_S1x128x128_0_0_0 (W (main_arg6 : DevRef τ sig)) := by
  after_results_simp; rfl
theorem ops1_v54 : after hostOps1 W (main_v54 : DevRef τ sig) = K.biasRow 0 slices_S3x128_S1x128_0_0 (W (main_arg7 : DevRef τ sig)) := by
  after_results_simp; rfl

theorem ops2_v57 : after hostOps2 W (main_v57 : DevRef τ sig) = K.weightMat 1 slices_S3x128x128_S1x128x128_1_0_0 (W (main_arg4 : DevRef τ sig)) := by
  after_results_simp; rfl

theorem ops3_v71 : after hostOps3 W (main_v71 : DevRef τ sig)
    = K.agg (W (main_v58 : DevRef τ sig)) (W (main_v1 : DevRef τ sig)) (W (main_v3 : DevRef τ sig)) (W (main_v27 : DevRef τ sig)) := by
  after_results_simp; rfl

theorem ops3_v74 : after hostOps3 W (main_v74 : DevRef τ sig) = K.biasRow 1 slices_S3x128_S1x128_1_0 (W (main_arg5 : DevRef τ sig)) := by
  after_results_simp; rfl
theorem ops3_v76 : after hostOps3 W (main_v76 : DevRef τ sig) = K.weightMat 1 slices_S3x128x128_S1x128x128_1_0_0 (W (main_arg6 : DevRef τ sig)) := by
  after_results_simp; rfl
theorem ops3_v79 : after hostOps3 W (main_v79 : DevRef τ sig) = K.biasRow 1 slices_S3x128_S1x128_1_0 (W (main_arg7 : DevRef τ sig)) := by
  after_results_simp; rfl

theorem ops4_v82 : after hostOps4 W (main_v82 : DevRef τ sig) = K.weightMat 2 slices_S3x128x128_S1x128x128_2_0_0 (W (main_arg4 : DevRef τ sig)) := by
  after_results_simp; rfl

theorem ops5_v96 : after hostOps5 W (main_v96 : DevRef τ sig)
    = K.agg (W (main_v83 : DevRef τ sig)) (W (main_v1 : DevRef τ sig)) (W (main_v3 : DevRef τ sig)) (W (main_v27 : DevRef τ sig)) := by
  after_results_simp; rfl

theorem ops5_v99 : after hostOps5 W (main_v99 : DevRef τ sig) = K.biasRow 2 slices_S3x128_S1x128_2_0 (W (main_arg5 : DevRef τ sig)) := by
  after_results_simp; rfl
theorem ops5_v101 : after hostOps5 W (main_v101 : DevRef τ sig) = K.weightMat 2 slices_S3x128x128_S1x128x128_2_0_0 (W (main_arg6 : DevRef τ sig)) := by
  after_results_simp; rfl
theorem ops5_v104 : after hostOps5 W (main_v104 : DevRef τ sig) = K.biasRow 2 slices_S3x128_S1x128_2_0 (W (main_arg7 : DevRef τ sig)) := by
  after_results_simp; rfl

theorem ops6_v106 : after hostOps6 W (main_v106 : DevRef τ sig) = K.rowOf (W (main_arg9 : DevRef τ sig)) := by
  after_results_simp; rfl

theorem ops7_v113 : after hostOps7 W (main_v113 : DevRef τ sig)
    = K.tail (W (main_v107 : DevRef τ sig)) (W (main_arg10 : DevRef τ sig)) (W (main_arg11 : DevRef τ sig)) := by
  after_results_simp; rfl

end Stretch

section Vals

variable (m : (ℓ : Loc nD τ sig) → Buf (Elt F) ℓ) (outs : Outs (F := F)) (c : Dev nD)

local macro "carry " r:term : tactic => `(tactic| (repeat (first
  | rw [V17_of _ _ _ $r (by decide)] | rw [V16_of _ _ _ $r (by decide)] | rw [V15_of _ _ _ $r (by decide)]
  | rw [V14_of _ _ _ $r (by decide)] | rw [V13_of _ _ _ $r (by decide)] | rw [V12_of _ _ _ $r (by decide)]
  | rw [V11_of _ _ _ $r (by decide)] | rw [V10_of _ _ _ $r (by decide)] | rw [V9_of _ _ _ $r (by decide)]
  | rw [V8_of _ _ _ $r (by decide)] | rw [V7_of _ _ _ $r (by decide)] | rw [V6_of _ _ _ $r (by decide)]
  | rw [V5_of _ _ _ $r (by decide)] | rw [V4_of _ _ _ $r (by decide)] | rw [V3_of _ _ $r (by decide)]
  | rw [V2_of _ _ $r (by decide)] | rw [V1_of _ _ $r (by decide)])))

theorem V1_v1 : V1 m c main_v1 = (K.srcRaw (m ((c : Thread nD τ).loc main_arg1))) := ops0_v1 (V0 m c)
theorem V1_v3 : V1 m c main_v3 = (K.dstRaw (m ((c : Thread nD τ).loc main_arg1))) := ops0_v3 (V0 m c)
theorem V1_v27 : V1 m c main_v27 = K.enorm (K.srcRaw (m ((c : Thread nD τ).loc main_arg1))) (K.dstRaw (m ((c : Thread nD τ).loc main_arg1))) := ops0_v27 (V0 m c)
theorem V1_v29 : V1 m c main_v29 = K.selfNorm (K.dstRaw (m ((c : Thread nD τ).loc main_arg1))) := ops0_v29 (V0 m c)
theorem V1_v4 : V1 m c main_v4 = K.batchCol (m ((c : Thread nD τ).loc main_arg2)) := ops0_v4 (V0 m c)

theorem V2_v30 : V2 m c main_v30 = kTake (m ((c : Thread nD τ).loc main_arg3)) (m ((c : Thread nD τ).loc main_arg0)) := by
  refine (ops0_1_v30 (V1 m c)).trans ?_
  (carry main_arg3; carry main_arg0) <;> rfl

theorem V3_v30 : V3 m c main_v30 = kTake (m ((c : Thread nD τ).loc main_arg3)) (m ((c : Thread nD τ).loc main_arg0)) := by
  carry main_v30; exact V2_v30 m c
theorem V3_v32 : V3 m c main_v32 = K.weightMat 0 slices_S3x128x128_S1x128x128_0_0_0 (m ((c : Thread nD τ).loc main_arg4)) := by
  refine (ops0_2_v32 (V2 m c)).trans ?_
  (carry main_arg4) <;> rfl

theorem V4_v33 : V4 m outs c main_v33 = outs 4 main_v33 c := Function.update_self ..

theorem V5_v46 : V5 m outs c main_v46 = K.agg (outs 4 main_v33 c) (K.srcRaw (m ((c : Thread nD τ).loc main_arg1))) (K.dstRaw (m ((c : Thread nD τ).loc main_arg1))) (K.enorm (K.srcRaw (m ((c : Thread nD τ).loc main_arg1))) (K.dstRaw (m ((c : Thread nD τ).loc main_arg1)))) := by
  refine (ops1_v46 (V4 m outs c)).trans ?_
  rw [V4_v33]; carry main_v1; carry main_v3; carry main_v27
  rw [V1_v1, V1_v3, V1_v27]
theorem V5_v29 : V5 m outs c main_v29 = K.selfNorm (K.dstRaw (m ((c : Thread nD τ).loc main_arg1))) := by
  carry main_v29; exact V1_v29 m c
theorem V5_v49 : V5 m outs c main_v49 = K.biasRow 0 slices_S3x128_S1x128_0_0 (m ((c : Thread nD τ).loc main_arg5)) := by
  refine (ops1_v49 (V4 m outs c)).trans ?_
  (carry main_arg5) <;> rfl
theorem V5_v51 : V5 m outs c main_v51 = K.weightMat 0 slices_S3x128x128_S1x128x128_0_0_0 (m ((c : Thread nD τ).loc main_arg6)) := by
  refine (ops1_v51 (V4 m outs c)).trans ?_
  (carry main_arg6) <;> rfl
theorem V5_v54 : V5 m outs c main_v54 = K.biasRow 0 slices_S3x128_S1x128_0_0 (m ((c : Thread nD τ).loc main_arg7)) := by
  refine (ops1_v54 (V4 m outs c)).trans ?_
  (carry main_arg7) <;> rfl
theorem V7_v57 : V7 m outs c main_v57 = K.weightMat 1 slices_S3x128x128_S1x128x128_1_0_0 (m ((c : Thread nD τ).loc main_arg4)) := by
  refine (ops2_v57 (V6 m outs c)).trans ?_
  (carry main_arg4) <;> rfl

theorem V8_v58 : V8 m outs c main_v58 = outs 8 main_v58 c := Function.update_self ..

theorem V9_v71 : V9 m outs c main_v71 = K.agg (outs 8 main_v58 c) (K.srcRaw (m ((c : Thread nD τ).loc main_arg1))) (K.dstRaw (m ((c : Thread nD τ).loc main_arg1))) (K.enorm (K.srcRaw (m ((c : Thread nD τ).loc main_arg1))) (K.dstRaw (m ((c : Thread nD τ).loc main_arg1)))) := by
  refine (ops3_v71 (V8 m outs c)).trans ?_
  rw [V8_v58]; carry main_v1; carry main_v3; carry main_v27
  rw [V1_v1, V1_v3, V1_v27]
theorem V9_v29 : V9 m outs c main_v29 = K.selfNorm (K.dstRaw (m ((c : Thread nD τ).loc main_arg1))) := by
  carry main_v29; exact V1_v29 m c
theorem V9_v74 : V9 m outs c main_v74 = K.biasRow 1 slices_S3x128_S1x128_1_0 (m ((c : Thread nD τ).loc main_arg5)) := by
  refine (ops3_v74 (V8 m outs c)).trans ?_
  (carry main_arg5) <;> rfl
theorem V9_v76 : V9 m outs c main_v76 = K.weightMat 1 slices_S3x128x128_S1x128x128_1_0_0 (m ((c : Thread nD τ).loc main_arg6)) := by
  refine (ops3_v76 (V8 m outs c)).trans ?_
  (carry main_arg6) <;> rfl
theorem V9_v79 : V9 m outs c main_v79 = K.biasRow 1 slices_S3x128_S1x128_1_0 (m ((c : Thread nD τ).loc main_arg7)) := by
  refine (ops3_v79 (V8 m outs c)).trans ?_
  (carry main_arg7) <;> rfl
theorem V11_v82 : V11 m outs c main_v82 = K.weightMat 2 slices_S3x128x128_S1x128x128_2_0_0 (m ((c : Thread nD τ).loc main_arg4)) := by
  refine (ops4_v82 (V10 m outs c)).trans ?_
  (carry main_arg4) <;> rfl

theorem V12_v83 : V12 m outs c main_v83 = outs 12 main_v83 c := Function.update_self ..

theorem V13_v96 : V13 m outs c main_v96 = K.agg (outs 12 main_v83 c) (K.srcRaw (m ((c : Thread nD τ).loc main_arg1))) (K.dstRaw (m ((c : Thread nD τ).loc main_arg1))) (K.enorm (K.srcRaw (m ((c : Thread nD τ).loc main_arg1))) (K.dstRaw (m ((c : Thread nD τ).loc main_arg1)))) := by
  refine (ops5_v96 (V12 m outs c)).trans ?_
  rw [V12_v83]; carry main_v1; carry main_v3; carry main_v27
  rw [V1_v1, V1_v3, V1_v27]
theorem V13_v29 : V13 m outs c main_v29 = K.selfNorm (K.dstRaw (m ((c : Thread nD τ).loc main_arg1))) := by
  carry main_v29; exact V1_v29 m c
theorem V13_v99 : V13 m outs c main_v99 = K.biasRow 2 slices_S3x128_S1x128_2_0 (m ((c : Thread nD τ).loc main_arg5)) := by
  refine (ops5_v99 (V12 m outs c)).trans ?_
  (carry main_arg5) <;> rfl
theorem V13_v101 : V13 m outs c main_v101 = K.weightMat 2 slices_S3x128x128_S1x128x128_2_0_0 (m ((c : Thread nD τ).loc main_arg6)) := by
  refine (ops5_v101 (V12 m outs c)).trans ?_
  (carry main_arg6) <;> rfl
theorem V13_v104 : V13 m outs c main_v104 = K.biasRow 2 slices_S3x128_S1x128_2_0 (m ((c : Thread nD τ).loc main_arg7)) := by
  refine (ops5_v104 (V12 m outs c)).trans ?_
  (carry main_arg7) <;> rfl
theorem V15_arg8 : V15 m outs c main_arg8 = m ((c : Thread nD τ).loc main_arg8) := by
  (carry main_arg8) <;> rfl
theorem V15_v106 : V15 m outs c main_v106 = K.rowOf (m ((c : Thread nD τ).loc main_arg9)) := by
  refine (ops6_v106 (V14 m outs c)).trans ?_
  (carry main_arg9) <;> rfl
theorem V15_v4 : V15 m outs c main_v4 = K.batchCol (m ((c : Thread nD τ).loc main_arg2)) := by
  carry main_v4; exact V1_v4 m c

theorem V16_v107 : V16 m outs c main_v107 = outs 16 main_v107 c := Function.update_self ..

theorem V17_v113 : V17 m outs c main_v113
    = K.tail (outs 16 main_v107 c) (m ((c : Thread nD τ).loc main_arg10)) (m ((c : Thread nD τ).loc main_arg11)) := by
  refine (ops7_v113 (V16 m outs c)).trans ?_
  rw [V16_v107]
  (carry main_arg10; carry main_arg11) <;> rfl

end Vals

end Cert.KernelIdeal.Hand

end
-- ==== Proof.Bridge.Layer.lean ====
import Idealize.ShloMosaic.PureOps.Ideal
import Idealize.ShloMosaic.Lib.ValueIdx
import Mathlib.Algebra.BigOperators.Fin

noncomputable section

open scoped BigOperators

namespace Cert.Bridge

open Idealize.ShloMosaic Idealize.ShloMosaic.ValueIdx

abbrev NodeFeat : Shape := ⟨2, ![50000, 128]⟩
abbrev Sq128 : Shape := ⟨2, ![128, 128]⟩
abbrev NodeCol : Shape := ⟨2, ![50000, 1]⟩
abbrev BiasRow : Shape := ⟨2, ![1, 128]⟩
abbrev BiasVec : Shape := ⟨1, ![128]⟩

abbrev feat (x : NodeFeat.Idx → EReal) : NodeFeat.Idx → EReal := x
abbrev sq (x : Sq128.Idx → EReal) : Sq128.Idx → EReal := x
abbrev brow (x : BiasRow.Idx → EReal) : BiasRow.Idx → EReal := x
abbrev bvec (x : BiasVec.Idx → EReal) : BiasVec.Idx → EReal := x
abbrev ncol (x : NodeCol.Idx → EReal) : NodeCol.Idx → EReal := x
abbrev nlab (x : NodeCol.Idx → BitVec 32) : NodeCol.Idx → BitVec 32 := x
abbrev nvec (x : (⟨1, ![50000]⟩ : Shape).Idx → BitVec 32) : (⟨1, ![50000]⟩ : Shape).Idx → BitVec 32 := x

theorem ext_ix2 {n0 n1 : Nat} {α : Type} (x y : (⟨2, ![n0, n1]⟩ : Shape).Idx → α)
    (h : ∀ r q, x (ix2 r q) = y (ix2 r q)) : x = y := by
  funext i
  rw [eq_ix2 i]
  exact h _ _

theorem layer_step (e : EReal → EReal)
    (accK accR acc'K acc'R aggK aggR xwK xwR : NodeFeat.Idx → EReal)
    (WK WR lwK lwR : Sq128.Idx → EReal) (cbK lbK : BiasRow.Idx → EReal) (cbR lbR : BiasVec.Idx → EReal)
    (snK snR : NodeCol.Idx → EReal)
    (AK AR : (NodeFeat.Idx → EReal) → NodeFeat.Idx → EReal)
    (hW : ∀ k q, WK (ix2 k q) = WR (ix2 k q)) (hlw : ∀ k q, lwK (ix2 k q) = lwR (ix2 k q))
    (hcb : ∀ q : Fin 128, cbK (ix2 (0 : Fin 1) q) = cbR (ix1 q))
    (hlb : ∀ q : Fin 128, lbK (ix2 (0 : Fin 1) q) = lbR (ix1 q))
    (hsn : ∀ r : Fin 50000, snK (ix2 r (0 : Fin 1)) = snR (ix2 r (0 : Fin 1)))
    (hA : ∀ x y, (∀ i, x i = y i) → AK x = AR y)
    (hxwK : ∀ (r : Fin 50000) (q : Fin 128), xwK (ix2 r q) = ∑ k : Fin 128, accK (ix2 r k) * WK (ix2 k q))
    (haggK : aggK = AK xwK)
    (hK : ∀ (r : Fin 50000) (q : Fin 128), acc'K (ix2 r q) = accK (ix2 r q)
        + e ((((aggK (ix2 r q) + xwK (ix2 r q) * snK (ix2 r (0 : Fin 1))) + cbK (ix2 (0 : Fin 1) q))
              + ∑ k : Fin 128, accK (ix2 r k) * lwK (ix2 k q)) + lbK (ix2 (0 : Fin 1) q)))
    (hxwR : ∀ (r : Fin 50000) (q : Fin 128), xwR (ix2 r q) = ∑ k : Fin 128, accR (ix2 r k) * WR (ix2 k q))
    (haggR : aggR = AR xwR)
    (hR : ∀ (r : Fin 50000) (q : Fin 128), acc'R (ix2 r q) = accR (ix2 r q)
        + e ((((aggR (ix2 r q) + (∑ k : Fin 128, accR (ix2 r k) * WR (ix2 k q)) * snR (ix2 r (0 : Fin 1))) + cbR (ix1 q))
              + ∑ k : Fin 128, accR (ix2 r k) * lwR (ix2 k q)) + lbR (ix1 q)))
    (hacc : accK = accR) : acc'K = acc'R := by
  subst hacc
  have hmm : ∀ (r : Fin 50000) (q : Fin 128),
      ∑ k : Fin 128, accK (ix2 r k) * WK (ix2 k q) = ∑ k : Fin 128, accK (ix2 r k) * WR (ix2 k q) :=
    fun r q => Finset.sum_congr rfl fun k _ => by rw [hW]
  have hml : ∀ (r : Fin 50000) (q : Fin 128),
      ∑ k : Fin 128, accK (ix2 r k) * lwK (ix2 k q) = ∑ k : Fin 128, accK (ix2 r k) * lwR (ix2 k q) :=
    fun r q => Finset.sum_congr rfl fun k _ => by rw [hlw]
  have hxw : xwK = xwR := ext_ix2 _ _ fun r q => by rw [hxwK, hxwR, hmm]
  have hagg : aggK = aggR := by rw [haggK, haggR]; exact hA _ _ (congrFun hxw)
  subst hagg
  exact ext_ix2 _ _ fun r q => by rw [hK, hR, hxwK, hmm, hml, hsn, hcb, hlb]

theorem pool_step (e : EReal → EReal)
    (accK accR : NodeFeat.Idx → EReal) (pooledK pooledR : Sq128.Idx → EReal)
    (MK MR : Sq128.Idx → EReal) (mbK : BiasRow.Idx → EReal) (mbR : BiasVec.Idx → EReal)
    (labK labR : Fin 50000 → BitVec 32)
    (hM : ∀ k q, MK (ix2 k q) = MR (ix2 k q)) (hmb : ∀ q : Fin 128, mbK (ix2 (0 : Fin 1) q) = mbR (ix1 q))
    (hlab : ∀ i, labK i = labR i)
    (hK : ∀ g q : Fin 128, pooledK (ix2 g q)
        = ∑ i ∈ Finset.univ.filter (fun i : Fin 50000 => (labK i).toInt = (g.val : ℤ)),
            e ((∑ k : Fin 128, accK (ix2 i k) * MK (ix2 k q)) + mbK (ix2 (0 : Fin 1) q)))
    (hR : ∀ g q : Fin 128, pooledR (ix2 g q)
        = ∑ i ∈ Finset.univ.filter (fun i : Fin 50000 => (labR i).toInt = (g.val : ℤ)),
            e ((∑ k : Fin 128, accR (ix2 i k) * MR (ix2 k q)) + mbR (ix1 q)))
    (hacc : accK = accR) : pooledK = pooledR := by
  subst hacc
  have hl : labK = labR := funext hlab
  subst hl
  refine ext_ix2 _ _ fun g q => ?_
  rw [hK, hR]
  refine Finset.sum_congr rfl fun i _ => ?_
  rw [hmb, Finset.sum_congr rfl fun k _ => by rw [hM]]

end Cert.Bridge

end
-- ==== Proof.Bridge.KPlugs.lean ====
import proofs.«401955_j22634477650042_2_alg».proof.Proof.KI.HostRead
import proofs.«401955_j22634477650042_2_alg».proof.Proof.Bridge.Shared
import proofs.«401955_j22634477650042_2_alg».proof.Proof.Bridge.Take
import proofs.«401955_j22634477650042_2_alg».proof.Proof.Bridge.Layer
import Idealize.ShloMosaic.Lib.ValueIdx
import Idealize.ShloMosaic.Lib.ValueLayout

noncomputable section

namespace Cert.Bridge.KP

open Idealize.ShloMosaic Idealize.ShloMosaic.ValueIdx Idealize.SL.Sem Idealize.ShloMosaic.TcCoe
open Cert.KernelIdeal.Gen (V0 V1 V2 V3 V4 V5 V6 V7 V8 V9 V10 V11 V12 V13 V14 V15 V16 V17 Outs)

variable [KernelIdeal.Facts] [ReferenceIdeal.Facts]

/-- The neighbour aggregation over the launch's edge list, as each program spells it. -/
abbrev _root_.Cert.Bridge.kAgg (m : (ℓ : Loc KernelIdeal.nD KernelIdeal.τ KernelIdeal.sig) → Buf (Elt Ideal) ℓ) (c : Dev KernelIdeal.nD) :=
  fun x => K.agg (F := Ideal) x (K.srcRaw (m ((c.tc : Thread KernelIdeal.nD KernelIdeal.τ).loc KernelIdeal.main_arg1))) (K.dstRaw (m ((c.tc : Thread KernelIdeal.nD KernelIdeal.τ).loc KernelIdeal.main_arg1))) (K.enorm (K.srcRaw (m ((c.tc : Thread KernelIdeal.nD KernelIdeal.τ).loc KernelIdeal.main_arg1))) (K.dstRaw (m ((c.tc : Thread KernelIdeal.nD KernelIdeal.τ).loc KernelIdeal.main_arg1))))
abbrev _root_.Cert.Bridge.rAgg (m' : (ℓ : Loc ReferenceIdeal.nD ReferenceIdeal.τ ReferenceIdeal.sig) → Buf (Elt Ideal) ℓ) (c : Dev KernelIdeal.nD) :=
  fun y => R.agg (F := Ideal) y (R.srcRaw (m' ((c.tc : Thread ReferenceIdeal.nD ReferenceIdeal.τ).loc ReferenceIdeal.main_arg1))) (R.dstRaw (m' ((c.tc : Thread ReferenceIdeal.nD ReferenceIdeal.τ).loc ReferenceIdeal.main_arg1))) (R.enorm (R.srcRaw (m' ((c.tc : Thread ReferenceIdeal.nD ReferenceIdeal.τ).loc ReferenceIdeal.main_arg1))) (R.dstRaw (m' ((c.tc : Thread ReferenceIdeal.nD ReferenceIdeal.τ).loc ReferenceIdeal.main_arg1))))

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD) (outs : Outs (F := Ideal))
include m m' c outs

theorem A0_K :
    feat (V3 m c KernelIdeal.main_v30) = kTake (F := Ideal) (m ((c.tc : Thread KernelIdeal.nD KernelIdeal.τ).loc KernelIdeal.main_arg3)) (m ((c.tc : Thread KernelIdeal.nD KernelIdeal.τ).loc KernelIdeal.main_arg0)) :=
  KernelIdeal.Hand.V3_v30 m c

theorem L0_hW (e : m' ((c.tc : Thread ReferenceIdeal.nD ReferenceIdeal.τ).loc ReferenceIdeal.main_arg4) = m ((c.tc : Thread KernelIdeal.nD KernelIdeal.τ).loc KernelIdeal.main_arg4)) (k q : Fin 128) :
    sq (V3 m c KernelIdeal.main_v32) (ix2 k q) = sq (R.weightMat 0 ReferenceIdeal.Facts₀.slices_S3x128x128_S1x128x128_0_0_0 (m' ((c.tc : Thread ReferenceIdeal.nD ReferenceIdeal.τ).loc ReferenceIdeal.main_arg4))) (ix2 k q) := by
  rw [e]
  exact congrFun (KernelIdeal.Hand.V3_v32 m c) _

theorem L0_hlw (e : m' ((c.tc : Thread ReferenceIdeal.nD ReferenceIdeal.τ).loc ReferenceIdeal.main_arg6) = m ((c.tc : Thread KernelIdeal.nD KernelIdeal.τ).loc KernelIdeal.main_arg6)) (k q : Fin 128) :
    sq (V5 m outs c KernelIdeal.main_v51) (ix2 k q) = sq (R.weightMat 0 ReferenceIdeal.Facts₀.slices_S3x128x128_S1x128x128_0_0_0 (m' ((c.tc : Thread ReferenceIdeal.nD ReferenceIdeal.τ).loc ReferenceIdeal.main_arg6))) (ix2 k q) := by
  rw [e]
  exact congrFun (KernelIdeal.Hand.V5_v51 m outs c) _

theorem L0_hcb (e : m' ((c.tc : Thread ReferenceIdeal.nD ReferenceIdeal.τ).loc ReferenceIdeal.main_arg5) = m ((c.tc : Thread KernelIdeal.nD KernelIdeal.τ).loc KernelIdeal.main_arg5)) (q : Fin 128) :
    brow (V5 m outs c KernelIdeal.main_v49) (ix2 (0 : Fin 1) q) = bvec (R.biasFlat 0 ReferenceIdeal.Facts₀.slices_S3x128_S1x128_0_0 (m' ((c.tc : Thread ReferenceIdeal.nD ReferenceIdeal.τ).loc ReferenceIdeal.main_arg5))) (ix1 q) := by
  rw [e]
  refine (congrFun (KernelIdeal.Hand.V5_v49 m outs c) _).trans ?_
  unfold K.biasRow
  exact shapeCast_a_1a_apply _ _ _ _

theorem L0_hlb (e : m' ((c.tc : Thread ReferenceIdeal.nD ReferenceIdeal.τ).loc ReferenceIdeal.main_arg7) = m ((c.tc : Thread KernelIdeal.nD KernelIdeal.τ).loc KernelIdeal.main_arg7)) (q : Fin 128) :
    brow (V5 m outs c KernelIdeal.main_v54) (ix2 (0 : Fin 1) q) = bvec (R.biasFlat 0 ReferenceIdeal.Facts₀.slices_S3x128_S1x128_0_0 (m' ((c.tc : Thread ReferenceIdeal.nD ReferenceIdeal.τ).loc ReferenceIdeal.main_arg7))) (ix1 q) := by
  rw [e]
  refine (congrFun (KernelIdeal.Hand.V5_v54 m outs c) _).trans ?_
  unfold K.biasRow
  exact shapeCast_a_1a_apply _ _ _ _

theorem L0_hsn (e : m' ((c.tc : Thread ReferenceIdeal.nD ReferenceIdeal.τ).loc ReferenceIdeal.main_arg1) = m ((c.tc : Thread KernelIdeal.nD KernelIdeal.τ).loc KernelIdeal.main_arg1)) (r : Fin 50000) :
    ncol (V5 m outs c KernelIdeal.main_v29) (ix2 r (0 : Fin 1)) = ncol (R.selfNorm (F := Ideal) (R.dstRaw (m' ((c.tc : Thread ReferenceIdeal.nD ReferenceIdeal.τ).loc ReferenceIdeal.main_arg1)))) (ix2 r (0 : Fin 1)) := by
  rw [e]
  exact (congrFun (KernelIdeal.Hand.V5_v29 m outs c) _).trans (congrFun (selfNorm_ei_eq _) _)

theorem L0_haggK :
    feat (V5 m outs c KernelIdeal.main_v46) = (kAgg m c) (feat (outs 4 KernelIdeal.main_v33 c)) :=
  KernelIdeal.Hand.V5_v46 m outs c

theorem L1_hW (e : m' ((c.tc : Thread ReferenceIdeal.nD ReferenceIdeal.τ).loc ReferenceIdeal.main_arg4) = m ((c.tc : Thread KernelIdeal.nD KernelIdeal.τ).loc KernelIdeal.main_arg4)) (k q : Fin 128) :
    sq (V7 m outs c KernelIdeal.main_v57) (ix2 k q) = sq (R.weightMat 1 ReferenceIdeal.Facts₀.slices_S3x128x128_S1x128x128_1_0_0 (m' ((c.tc : Thread ReferenceIdeal.nD ReferenceIdeal.τ).loc ReferenceIdeal.main_arg4))) (ix2 k q) := by
  rw [e]
  exact congrFun (KernelIdeal.Hand.V7_v57 m outs c) _

theorem L1_hlw (e : m' ((c.tc : Thread ReferenceIdeal.nD ReferenceIdeal.τ).loc ReferenceIdeal.main_arg6) = m ((c.tc : Thread KernelIdeal.nD KernelIdeal.τ).loc KernelIdeal.main_arg6)) (k q : Fin 128) :
    sq (V9 m outs c KernelIdeal.main_v76) (ix2 k q) = sq (R.weightMat 1 ReferenceIdeal.Facts₀.slices_S3x128x128_S1x128x128_1_0_0 (m' ((c.tc : Thread ReferenceIdeal.nD ReferenceIdeal.τ).loc ReferenceIdeal.main_arg6))) (ix2 k q) := by
  rw [e]
  exact congrFun (KernelIdeal.Hand.V9_v76 m outs c) _

theorem L1_hcb (e : m' ((c.tc : Thread ReferenceIdeal.nD ReferenceIdeal.τ).loc ReferenceIdeal.main_arg5) = m ((c.tc : Thread KernelIdeal.nD KernelIdeal.τ).loc KernelIdeal.main_arg5)) (q : Fin 128) :
    brow (V9 m outs c KernelIdeal.main_v74) (ix2 (0 : Fin 1) q) = bvec (R.biasFlat 1 ReferenceIdeal.Facts₀.slices_S3x128_S1x128_1_0 (m' ((c.tc : Thread ReferenceIdeal.nD ReferenceIdeal.τ).loc ReferenceIdeal.main_arg5))) (ix1 q) := by
  rw [e]
  refine (congrFun (KernelIdeal.Hand.V9_v74 m outs c) _).trans ?_
  unfold K.biasRow
  exact shapeCast_a_1a_apply _ _ _ _

theorem L1_hlb (e : m' ((c.tc : Thread ReferenceIdeal.nD ReferenceIdeal.τ).loc ReferenceIdeal.main_arg7) = m ((c.tc : Thread KernelIdeal.nD KernelIdeal.τ).loc KernelIdeal.main_arg7)) (q : Fin 128) :
    brow (V9 m outs c KernelIdeal.main_v79) (ix2 (0 : Fin 1) q) = bvec (R.biasFlat 1 ReferenceIdeal.Facts₀.slices_S3x128_S1x128_1_0 (m' ((c.tc : Thread ReferenceIdeal.nD ReferenceIdeal.τ).loc ReferenceIdeal.main_arg7))) (ix1 q) := by
  rw [e]
  refine (congrFun (KernelIdeal.Hand.V9_v79 m outs c) _).trans ?_
  unfold K.biasRow
  exact shapeCast_a_1a_apply _ _ _ _

theorem L1_hsn (e : m' ((c.tc : Thread ReferenceIdeal.nD ReferenceIdeal.τ).loc ReferenceIdeal.main_arg1) = m ((c.tc : Thread KernelIdeal.nD KernelIdeal.τ).loc KernelIdeal.main_arg1)) (r : Fin 50000) :
    ncol (V9 m outs c KernelIdeal.main_v29) (ix2 r (0 : Fin 1)) = ncol (R.selfNorm (F := Ideal) (R.dstRaw (m' ((c.tc : Thread ReferenceIdeal.nD ReferenceIdeal.τ).loc ReferenceIdeal.main_arg1)))) (ix2 r (0 : Fin 1)) := by
  rw [e]
  exact (congrFun (KernelIdeal.Hand.V9_v29 m outs c) _).trans (congrFun (selfNorm_ei_eq _) _)

theorem L1_haggK :
    feat (V9 m outs c KernelIdeal.main_v71) = (kAgg m c) (feat (outs 8 KernelIdeal.main_v58 c)) :=
  KernelIdeal.Hand.V9_v71 m outs c

theorem L2_hW (e : m' ((c.tc : Thread ReferenceIdeal.nD ReferenceIdeal.τ).loc ReferenceIdeal.main_arg4) = m ((c.tc : Thread KernelIdeal.nD KernelIdeal.τ).loc KernelIdeal.main_arg4)) (k q : Fin 128) :
    sq (V11 m outs c KernelIdeal.main_v82) (ix2 k q) = sq (R.weightMat 2 ReferenceIdeal.Facts₀.slices_S3x128x128_S1x128x128_2_0_0 (m' ((c.tc : Thread ReferenceIdeal.nD ReferenceIdeal.τ).loc ReferenceIdeal.main_arg4))) (ix2 k q) := by
  rw [e]
  exact congrFun (KernelIdeal.Hand.V11_v82 m outs c) _

theorem L2_hlw (e : m' ((c.tc : Thread ReferenceIdeal.nD ReferenceIdeal.τ).loc ReferenceIdeal.main_arg6) = m ((c.tc : Thread KernelIdeal.nD KernelIdeal.τ).loc KernelIdeal.main_arg6)) (k q : Fin 128) :
    sq (V13 m outs c KernelIdeal.main_v101) (ix2 k q) = sq (R.weightMat 2 ReferenceIdeal.Facts₀.slices_S3x128x128_S1x128x128_2_0_0 (m' ((c.tc : Thread ReferenceIdeal.nD ReferenceIdeal.τ).loc ReferenceIdeal.main_arg6))) (ix2 k q) := by
  rw [e]
  exact congrFun (KernelIdeal.Hand.V13_v101 m outs c) _

theorem L2_hcb (e : m' ((c.tc : Thread ReferenceIdeal.nD ReferenceIdeal.τ).loc ReferenceIdeal.main_arg5) = m ((c.tc : Thread KernelIdeal.nD KernelIdeal.τ).loc KernelIdeal.main_arg5)) (q : Fin 128) :
    brow (V13 m outs c KernelIdeal.main_v99) (ix2 (0 : Fin 1) q) = bvec (R.biasFlat 2 ReferenceIdeal.Facts₀.slices_S3x128_S1x128_2_0 (m' ((c.tc : Thread ReferenceIdeal.nD ReferenceIdeal.τ).loc ReferenceIdeal.main_arg5))) (ix1 q) := by
  rw [e]
  refine (congrFun (KernelIdeal.Hand.V13_v99 m outs c) _).trans ?_
  unfold K.biasRow
  exact shapeCast_a_1a_apply _ _ _ _

theorem L2_hlb (e : m' ((c.tc : Thread ReferenceIdeal.nD ReferenceIdeal.τ).loc ReferenceIdeal.main_arg7) = m ((c.tc : Thread KernelIdeal.nD KernelIdeal.τ).loc KernelIdeal.main_arg7)) (q : Fin 128) :
    brow (V13 m outs c KernelIdeal.main_v104) (ix2 (0 : Fin 1) q) = bvec (R.biasFlat 2 ReferenceIdeal.Facts₀.slices_S3x128_S1x128_2_0 (m' ((c.tc : Thread ReferenceIdeal.nD ReferenceIdeal.τ).loc ReferenceIdeal.main_arg7))) (ix1 q) := by
  rw [e]
  refine (congrFun (KernelIdeal.Hand.V13_v104 m outs c) _).trans ?_
  unfold K.biasRow
  exact shapeCast_a_1a_apply _ _ _ _

theorem L2_hsn (e : m' ((c.tc : Thread ReferenceIdeal.nD ReferenceIdeal.τ).loc ReferenceIdeal.main_arg1) = m ((c.tc : Thread KernelIdeal.nD KernelIdeal.τ).loc KernelIdeal.main_arg1)) (r : Fin 50000) :
    ncol (V13 m outs c KernelIdeal.main_v29) (ix2 r (0 : Fin 1)) = ncol (R.selfNorm (F := Ideal) (R.dstRaw (m' ((c.tc : Thread ReferenceIdeal.nD ReferenceIdeal.τ).loc ReferenceIdeal.main_arg1)))) (ix2 r (0 : Fin 1)) := by
  rw [e]
  exact (congrFun (KernelIdeal.Hand.V13_v29 m outs c) _).trans (congrFun (selfNorm_ei_eq _) _)

theorem L2_haggK :
    feat (V13 m outs c KernelIdeal.main_v96) = (kAgg m c) (feat (outs 12 KernelIdeal.main_v83 c)) :=
  KernelIdeal.Hand.V13_v96 m outs c

theorem P_hM (e : m' ((c.tc : Thread ReferenceIdeal.nD ReferenceIdeal.τ).loc ReferenceIdeal.main_arg8) = m ((c.tc : Thread KernelIdeal.nD KernelIdeal.τ).loc KernelIdeal.main_arg8)) (k q : Fin 128) :
    sq (V15 m outs c KernelIdeal.main_arg8) (ix2 k q) = sq (m' ((c.tc : Thread ReferenceIdeal.nD ReferenceIdeal.τ).loc ReferenceIdeal.main_arg8)) (ix2 k q) := by
  rw [e]
  exact congrFun (KernelIdeal.Hand.V15_arg8 m outs c) _

theorem P_hmb (e : m' ((c.tc : Thread ReferenceIdeal.nD ReferenceIdeal.τ).loc ReferenceIdeal.main_arg9) = m ((c.tc : Thread KernelIdeal.nD KernelIdeal.τ).loc KernelIdeal.main_arg9)) (q : Fin 128) :
    brow (V15 m outs c KernelIdeal.main_v106) (ix2 (0 : Fin 1) q) = bvec (m' ((c.tc : Thread ReferenceIdeal.nD ReferenceIdeal.τ).loc ReferenceIdeal.main_arg9)) (ix1 q) := by
  rw [e]
  exact (congrFun (KernelIdeal.Hand.V15_v106 m outs c) _).trans (rowOf_K_apply _ _ _)

theorem P_hlab (e : m' ((c.tc : Thread ReferenceIdeal.nD ReferenceIdeal.τ).loc ReferenceIdeal.main_arg2) = m ((c.tc : Thread KernelIdeal.nD KernelIdeal.τ).loc KernelIdeal.main_arg2)) (i : Fin 50000) :
    (fun i : Fin 50000 => nlab (V15 m outs c KernelIdeal.main_v4) (ix2 i (0 : Fin 1))) i = (fun i : Fin 50000 => nvec (m' ((c.tc : Thread ReferenceIdeal.nD ReferenceIdeal.τ).loc ReferenceIdeal.main_arg2)) (ix1 i)) i := by
  rw [e]
  exact (congrFun (KernelIdeal.Hand.V15_v4 m outs c) _).trans (batchCol_K_apply _ _ _)

theorem T_K :
    sq (V17 m outs c KernelIdeal.main_v113)
      = K.tail (F := Ideal) (outs 16 KernelIdeal.main_v107 c) (m ((c.tc : Thread KernelIdeal.nD KernelIdeal.τ).loc KernelIdeal.main_arg10)) (m ((c.tc : Thread KernelIdeal.nD KernelIdeal.τ).loc KernelIdeal.main_arg11)) :=
  KernelIdeal.Hand.V17_v113 m outs c

end Cert.Bridge.KP

end
-- ==== Proof.Bridge.Final.lean ====
import proofs.«401955_j22634477650042_2_alg».proof.Proof.Gen.KernelIdeal.Regions
import proofs.«401955_j22634477650042_2_alg».proof.Proof.KI.RegMM
import proofs.«401955_j22634477650042_2_alg».proof.Proof.KI.RegMM2
import proofs.«401955_j22634477650042_2_alg».proof.Proof.KI.RegMM4
import proofs.«401955_j22634477650042_2_alg».proof.Proof.KI.RegCB
import proofs.«401955_j22634477650042_2_alg».proof.Proof.KI.RegCB3
import proofs.«401955_j22634477650042_2_alg».proof.Proof.KI.RegCB5
import proofs.«401955_j22634477650042_2_alg».proof.Proof.KI.RegPool
import proofs.«401955_j22634477650042_2_alg».proof.Proof.KI.ValMM
import proofs.«401955_j22634477650042_2_alg».proof.Proof.KI.ValMM2
import proofs.«401955_j22634477650042_2_alg».proof.Proof.KI.ValMM4
import proofs.«401955_j22634477650042_2_alg».proof.Proof.KI.ValCB
import proofs.«401955_j22634477650042_2_alg».proof.Proof.KI.ValCB3
import proofs.«401955_j22634477650042_2_alg».proof.Proof.KI.ValCB5
import proofs.«401955_j22634477650042_2_alg».proof.Proof.KI.ValPool
import proofs.«401955_j22634477650042_2_alg».proof.Proof.Ref.Run
import proofs.«401955_j22634477650042_2_alg».proof.Proof.Ref.Read
import proofs.«401955_j22634477650042_2_alg».proof.Proof.Bridge.RefLayer
import proofs.«401955_j22634477650042_2_alg».proof.Proof.Bridge.PoolBridge
import proofs.«401955_j22634477650042_2_alg».proof.Proof.Bridge.Shared
import proofs.«401955_j22634477650042_2_alg».proof.Proof.Bridge.Take
import proofs.«401955_j22634477650042_2_alg».proof.Proof.Bridge.KPlugs
import proofs.«401955_j22634477650042_2_alg».proof.Proof.Bridge.Layer
import proofs.«401955_j22634477650042_2_alg».proof.Proof.SpecDefs

noncomputable section

open scoped BigOperators

namespace Cert.Bridge

open Idealize.ShloMosaic Idealize.ShloMosaic.ValueIdx Idealize.SL.Sem Idealize.ShloMosaic.TcCoe
open Cert.KernelIdeal.Gen (V0 V1 V2 V3 V4 V5 V6 V7 V8 V9 V10 V11 V12 V13 V14 V15 V16 V17 Outs)

section Final
variable [KernelIdeal.Facts] [ReferenceIdeal.Facts]

abbrev rAt (m' : (ℓ : Loc ReferenceIdeal.nD ReferenceIdeal.τ ReferenceIdeal.sig) → Buf (Elt Ideal) ℓ) (c : Dev KernelIdeal.nD)
    (b : Ref ReferenceIdeal.sig .tc) :=
  StableHlo.after (ReferenceIdeal.RefValue.ops (F := Ideal)) (StableHlo.launchContents m' c) (Proc.devRef .tc b)

abbrev Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD) (outs : Outs (F := Ideal)) : Prop :=
  (m' ((c.tc : Thread ReferenceIdeal.nD ReferenceIdeal.τ).loc ReferenceIdeal.main_arg0)) = (m ((c.tc : Thread KernelIdeal.nD KernelIdeal.τ).loc KernelIdeal.main_arg0))
    ∧ (m' ((c.tc : Thread ReferenceIdeal.nD ReferenceIdeal.τ).loc ReferenceIdeal.main_arg1)) = (m ((c.tc : Thread KernelIdeal.nD KernelIdeal.τ).loc KernelIdeal.main_arg1))
    ∧ (m' ((c.tc : Thread ReferenceIdeal.nD ReferenceIdeal.τ).loc ReferenceIdeal.main_arg2)) = (m ((c.tc : Thread KernelIdeal.nD KernelIdeal.τ).loc KernelIdeal.main_arg2))
    ∧ (m' ((c.tc : Thread ReferenceIdeal.nD ReferenceIdeal.τ).loc ReferenceIdeal.main_arg3)) = (m ((c.tc : Thread KernelIdeal.nD KernelIdeal.τ).loc KernelIdeal.main_arg3))
    ∧ (m' ((c.tc : Thread ReferenceIdeal.nD ReferenceIdeal.τ).loc ReferenceIdeal.main_arg4)) = (m ((c.tc : Thread KernelIdeal.nD KernelIdeal.τ).loc KernelIdeal.main_arg4))
    ∧ (m' ((c.tc : Thread ReferenceIdeal.nD ReferenceIdeal.τ).loc ReferenceIdeal.main_arg5)) = (m ((c.tc : Thread KernelIdeal.nD KernelIdeal.τ).loc KernelIdeal.main_arg5))
    ∧ (m' ((c.tc : Thread ReferenceIdeal.nD ReferenceIdeal.τ).loc ReferenceIdeal.main_arg6)) = (m ((c.tc : Thread KernelIdeal.nD KernelIdeal.τ).loc KernelIdeal.main_arg6))
    ∧ (m' ((c.tc : Thread ReferenceIdeal.nD ReferenceIdeal.τ).loc ReferenceIdeal.main_arg7)) = (m ((c.tc : Thread KernelIdeal.nD KernelIdeal.τ).loc KernelIdeal.main_arg7))
    ∧ (m' ((c.tc : Thread ReferenceIdeal.nD ReferenceIdeal.τ).loc ReferenceIdeal.main_arg8)) = (m ((c.tc : Thread KernelIdeal.nD KernelIdeal.τ).loc KernelIdeal.main_arg8))
    ∧ (m' ((c.tc : Thread ReferenceIdeal.nD ReferenceIdeal.τ).loc ReferenceIdeal.main_arg9)) = (m ((c.tc : Thread KernelIdeal.nD KernelIdeal.τ).loc KernelIdeal.main_arg9))
    ∧ (m' ((c.tc : Thread ReferenceIdeal.nD ReferenceIdeal.τ).loc ReferenceIdeal.main_arg10)) = (m ((c.tc : Thread KernelIdeal.nD KernelIdeal.τ).loc KernelIdeal.main_arg10))
    ∧ (m' ((c.tc : Thread ReferenceIdeal.nD ReferenceIdeal.τ).loc ReferenceIdeal.main_arg11)) = (m ((c.tc : Thread KernelIdeal.nD KernelIdeal.τ).loc KernelIdeal.main_arg11))

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD) (outs : Outs (F := Ideal))
include m m' c outs

theorem hA (ha : Agree m m' c outs)
    (x y : NodeFeat.Idx → EReal) (hxy : ∀ i, x i = y i) : (kAgg m c) x = (rAgg m' c) y := by
  show K.agg (F := Ideal) x _ _ _ = R.agg (F := Ideal) y _ _ _
  rw [ha.2.1]
  exact agg_congr x y hxy _ _ (enorm_eq _ _)

theorem A0_R :
    feat (rAt m' c ReferenceIdeal.main_v35) = rTake (F := Ideal) (m' ((c.tc : Thread ReferenceIdeal.nD ReferenceIdeal.τ).loc ReferenceIdeal.main_arg3)) (m' ((c.tc : Thread ReferenceIdeal.nD ReferenceIdeal.τ).loc ReferenceIdeal.main_arg0)) := by
  exact ReferenceIdeal.RefValue.read_h (StableHlo.launchContents m' c)

theorem L0_hxwK (ho4 : (outs 4 KernelIdeal.main_v33 c) = (KernelIdeal.Hand.dat0 (fun c b => V3 m c b) c).arrAt 2 KernelIdeal.cfg0.N)
    (r : Fin 50000) (q : Fin 128) :
    feat (outs 4 KernelIdeal.main_v33 c) (ix2 r q) = ∑ k : Fin 128, feat (V3 m c KernelIdeal.main_v30) (ix2 r k) * sq (V3 m c KernelIdeal.main_v32) (ix2 k q) := by
  rw [ho4]
  exact KernelIdeal.Hand.arr0_2_apply (fun c b => V3 m c b) c r q

theorem L0_hK (ho6 : (outs 6 KernelIdeal.main_v55 c) = (KernelIdeal.Hand.dat1 (fun c b => V5 m outs c b) c).arrAt 7 KernelIdeal.cfg1.N)
    (r : Fin 50000) (q : Fin 128) :
    feat (outs 6 KernelIdeal.main_v55 c) (ix2 r q) = feat (V3 m c KernelIdeal.main_v30) (ix2 r q)
      + Cert.Spec.elu ((((feat (V5 m outs c KernelIdeal.main_v46) (ix2 r q) + feat (outs 4 KernelIdeal.main_v33 c) (ix2 r q) * ncol (V5 m outs c KernelIdeal.main_v29) (ix2 r (0 : Fin 1)))
            + brow (V5 m outs c KernelIdeal.main_v49) (ix2 (0 : Fin 1) q))
            + ∑ k : Fin 128, feat (V3 m c KernelIdeal.main_v30) (ix2 r k) * sq (V5 m outs c KernelIdeal.main_v51) (ix2 k q))
            + brow (V5 m outs c KernelIdeal.main_v54) (ix2 (0 : Fin 1) q)) := by
  have t33 : V5 m outs c KernelIdeal.main_v33 = outs 4 KernelIdeal.main_v33 c := (KernelIdeal.Gen.V5_of m outs c KernelIdeal.main_v33 (by decide)).trans (Function.update_self ..)
  have t30 : V5 m outs c KernelIdeal.main_v30 = V3 m c KernelIdeal.main_v30 := (KernelIdeal.Gen.V5_of m outs c KernelIdeal.main_v30 (by decide)).trans (KernelIdeal.Gen.V4_of m outs c KernelIdeal.main_v30 (by decide))
  rw [← t33, ← t30, ho6]
  exact KernelIdeal.Hand.arr1_7_apply (fun c b => V5 m outs c b) c r q

theorem L0_hxwR (r : Fin 50000) (q : Fin 128) :
    feat (rAt m' c ReferenceIdeal.main_v38) (ix2 r q) = ∑ k : Fin 128, feat (rAt m' c ReferenceIdeal.main_v35) (ix2 r k) * sq (R.weightMat 0 ReferenceIdeal.Facts₀.slices_S3x128x128_S1x128x128_0_0_0 (m' ((c.tc : Thread ReferenceIdeal.nD ReferenceIdeal.τ).loc ReferenceIdeal.main_arg4))) (ix2 k q) := by
  exact (congrFun (ReferenceIdeal.RefValue.read_xw0 (StableHlo.launchContents m' c)) (ix2 r q)).trans (dot_apply _ _ r q)

theorem L0_haggR :
    feat (rAt m' c ReferenceIdeal.main_v50) = (rAgg m' c) (feat (rAt m' c ReferenceIdeal.main_v38)) := by
  exact ReferenceIdeal.RefValue.read_agg0 (StableHlo.launchContents m' c)

theorem L0_hR (r : Fin 50000) (q : Fin 128) :
    feat (rAt m' c ReferenceIdeal.main_v69) (ix2 r q) = feat (rAt m' c ReferenceIdeal.main_v35) (ix2 r q)
      + Cert.Spec.elu ((((feat (rAt m' c ReferenceIdeal.main_v50) (ix2 r q)
            + (∑ k : Fin 128, feat (rAt m' c ReferenceIdeal.main_v35) (ix2 r k) * sq (R.weightMat 0 ReferenceIdeal.Facts₀.slices_S3x128x128_S1x128x128_0_0_0 (m' ((c.tc : Thread ReferenceIdeal.nD ReferenceIdeal.τ).loc ReferenceIdeal.main_arg4))) (ix2 k q)) * ncol (R.selfNorm (F := Ideal) (R.dstRaw (m' ((c.tc : Thread ReferenceIdeal.nD ReferenceIdeal.τ).loc ReferenceIdeal.main_arg1)))) (ix2 r (0 : Fin 1)))
            + bvec (R.biasFlat 0 ReferenceIdeal.Facts₀.slices_S3x128_S1x128_0_0 (m' ((c.tc : Thread ReferenceIdeal.nD ReferenceIdeal.τ).loc ReferenceIdeal.main_arg5))) (ix1 q))
            + ∑ k : Fin 128, feat (rAt m' c ReferenceIdeal.main_v35) (ix2 r k) * sq (R.weightMat 0 ReferenceIdeal.Facts₀.slices_S3x128x128_S1x128x128_0_0_0 (m' ((c.tc : Thread ReferenceIdeal.nD ReferenceIdeal.τ).loc ReferenceIdeal.main_arg6))) (ix2 k q))
            + bvec (R.biasFlat 0 ReferenceIdeal.Facts₀.slices_S3x128_S1x128_0_0 (m' ((c.tc : Thread ReferenceIdeal.nD ReferenceIdeal.τ).loc ReferenceIdeal.main_arg7))) (ix1 q)) := by
  exact (congrFun (ReferenceIdeal.RefValue.read_acc1 (StableHlo.launchContents m' c)) (ix2 r q)).trans (refLayer_apply _ _ _ _ _ _ _ r q)

theorem L0_step (ha : Agree m m' c outs)
    (ho4 : (outs 4 KernelIdeal.main_v33 c) = (KernelIdeal.Hand.dat0 (fun c b => V3 m c b) c).arrAt 2 KernelIdeal.cfg0.N)
    (ho6 : (outs 6 KernelIdeal.main_v55 c) = (KernelIdeal.Hand.dat1 (fun c b => V5 m outs c b) c).arrAt 7 KernelIdeal.cfg1.N)
    (hacc : feat (V3 m c KernelIdeal.main_v30) = feat (rAt m' c ReferenceIdeal.main_v35)) :
    feat (outs 6 KernelIdeal.main_v55 c) = feat (rAt m' c ReferenceIdeal.main_v69) :=
  layer_step Cert.Spec.elu _ _ _ _ _ _ _ _ _ _ _ _ _ _ _ _ _ _ (kAgg m c) (rAgg m' c)
    (KP.L0_hW m m' c outs ha.2.2.2.2.1) (KP.L0_hlw m m' c outs ha.2.2.2.2.2.2.1) (KP.L0_hcb m m' c outs ha.2.2.2.2.2.1) (KP.L0_hlb m m' c outs ha.2.2.2.2.2.2.2.1)
    (KP.L0_hsn m m' c outs ha.2.1) (hA m m' c outs ha)
    (L0_hxwK m m' c outs ho4) (KP.L0_haggK m m' c outs) (L0_hK m m' c outs ho6)
    (L0_hxwR m m' c outs) (L0_haggR m m' c outs) (L0_hR m m' c outs) hacc

theorem L1_hxwK (ho8 : (outs 8 KernelIdeal.main_v58 c) = (KernelIdeal.Hand.dat2 (fun c b => V7 m outs c b) c).arrAt 2 KernelIdeal.cfg2.N)
    (r : Fin 50000) (q : Fin 128) :
    feat (outs 8 KernelIdeal.main_v58 c) (ix2 r q) = ∑ k : Fin 128, feat (outs 6 KernelIdeal.main_v55 c) (ix2 r k) * sq (V7 m outs c KernelIdeal.main_v57) (ix2 k q) := by
  have t55 : V7 m outs c KernelIdeal.main_v55 = outs 6 KernelIdeal.main_v55 c := (KernelIdeal.Gen.V7_of m outs c KernelIdeal.main_v55 (by decide)).trans (Function.update_self ..)
  rw [← t55, ho8]
  exact KernelIdeal.Hand.arr2_2_apply (fun c b => V7 m outs c b) c r q

theorem L1_hK (ho10 : (outs 10 KernelIdeal.main_v80 c) = (KernelIdeal.Hand.dat3 (fun c b => V9 m outs c b) c).arrAt 7 KernelIdeal.cfg3.N)
    (r : Fin 50000) (q : Fin 128) :
    feat (outs 10 KernelIdeal.main_v80 c) (ix2 r q) = feat (outs 6 KernelIdeal.main_v55 c) (ix2 r q)
      + Cert.Spec.elu ((((feat (V9 m outs c KernelIdeal.main_v71) (ix2 r q) + feat (outs 8 KernelIdeal.main_v58 c) (ix2 r q) * ncol (V9 m outs c KernelIdeal.main_v29) (ix2 r (0 : Fin 1)))
            + brow (V9 m outs c KernelIdeal.main_v74) (ix2 (0 : Fin 1) q))
            + ∑ k : Fin 128, feat (outs 6 KernelIdeal.main_v55 c) (ix2 r k) * sq (V9 m outs c KernelIdeal.main_v76) (ix2 k q))
            + brow (V9 m outs c KernelIdeal.main_v79) (ix2 (0 : Fin 1) q)) := by
  have t58 : V9 m outs c KernelIdeal.main_v58 = outs 8 KernelIdeal.main_v58 c := (KernelIdeal.Gen.V9_of m outs c KernelIdeal.main_v58 (by decide)).trans (Function.update_self ..)
  have t55b : V9 m outs c KernelIdeal.main_v55 = outs 6 KernelIdeal.main_v55 c := (KernelIdeal.Gen.V9_of m outs c KernelIdeal.main_v55 (by decide)).trans ((KernelIdeal.Gen.V8_of m outs c KernelIdeal.main_v55 (by decide)).trans ((KernelIdeal.Gen.V7_of m outs c KernelIdeal.main_v55 (by decide)).trans (Function.update_self ..)))
  rw [← t58, ← t55b, ho10]
  exact KernelIdeal.Hand.arr3_7_apply (fun c b => V9 m outs c b) c r q

theorem L1_hxwR (r : Fin 50000) (q : Fin 128) :
    feat (rAt m' c ReferenceIdeal.main_v72) (ix2 r q) = ∑ k : Fin 128, feat (rAt m' c ReferenceIdeal.main_v69) (ix2 r k) * sq (R.weightMat 1 ReferenceIdeal.Facts₀.slices_S3x128x128_S1x128x128_1_0_0 (m' ((c.tc : Thread ReferenceIdeal.nD ReferenceIdeal.τ).loc ReferenceIdeal.main_arg4))) (ix2 k q) := by
  exact (congrFun (ReferenceIdeal.RefValue.read_xw1 (StableHlo.launchContents m' c)) (ix2 r q)).trans (dot_apply _ _ r q)

theorem L1_haggR :
    feat (rAt m' c ReferenceIdeal.main_v84) = (rAgg m' c) (feat (rAt m' c ReferenceIdeal.main_v72)) := by
  exact ReferenceIdeal.RefValue.read_agg1 (StableHlo.launchContents m' c)

theorem L1_hR (r : Fin 50000) (q : Fin 128) :
    feat (rAt m' c ReferenceIdeal.main_v103) (ix2 r q) = feat (rAt m' c ReferenceIdeal.main_v69) (ix2 r q)
      + Cert.Spec.elu ((((feat (rAt m' c ReferenceIdeal.main_v84) (ix2 r q)
            + (∑ k : Fin 128, feat (rAt m' c ReferenceIdeal.main_v69) (ix2 r k) * sq (R.weightMat 1 ReferenceIdeal.Facts₀.slices_S3x128x128_S1x128x128_1_0_0 (m' ((c.tc : Thread ReferenceIdeal.nD ReferenceIdeal.τ).loc ReferenceIdeal.main_arg4))) (ix2 k q)) * ncol (R.selfNorm (F := Ideal) (R.dstRaw (m' ((c.tc : Thread ReferenceIdeal.nD ReferenceIdeal.τ).loc ReferenceIdeal.main_arg1)))) (ix2 r (0 : Fin 1)))
            + bvec (R.biasFlat 1 ReferenceIdeal.Facts₀.slices_S3x128_S1x128_1_0 (m' ((c.tc : Thread ReferenceIdeal.nD ReferenceIdeal.τ).loc ReferenceIdeal.main_arg5))) (ix1 q))
            + ∑ k : Fin 128, feat (rAt m' c ReferenceIdeal.main_v69) (ix2 r k) * sq (R.weightMat 1 ReferenceIdeal.Facts₀.slices_S3x128x128_S1x128x128_1_0_0 (m' ((c.tc : Thread ReferenceIdeal.nD ReferenceIdeal.τ).loc ReferenceIdeal.main_arg6))) (ix2 k q))
            + bvec (R.biasFlat 1 ReferenceIdeal.Facts₀.slices_S3x128_S1x128_1_0 (m' ((c.tc : Thread ReferenceIdeal.nD ReferenceIdeal.τ).loc ReferenceIdeal.main_arg7))) (ix1 q)) := by
  exact (congrFun (ReferenceIdeal.RefValue.read_acc2 (StableHlo.launchContents m' c)) (ix2 r q)).trans (refLayer_apply _ _ _ _ _ _ _ r q)

theorem L1_step (ha : Agree m m' c outs)
    (ho8 : (outs 8 KernelIdeal.main_v58 c) = (KernelIdeal.Hand.dat2 (fun c b => V7 m outs c b) c).arrAt 2 KernelIdeal.cfg2.N)
    (ho10 : (outs 10 KernelIdeal.main_v80 c) = (KernelIdeal.Hand.dat3 (fun c b => V9 m outs c b) c).arrAt 7 KernelIdeal.cfg3.N)
    (hacc : feat (outs 6 KernelIdeal.main_v55 c) = feat (rAt m' c ReferenceIdeal.main_v69)) :
    feat (outs 10 KernelIdeal.main_v80 c) = feat (rAt m' c ReferenceIdeal.main_v103) :=
  layer_step Cert.Spec.elu _ _ _ _ _ _ _ _ _ _ _ _ _ _ _ _ _ _ (kAgg m c) (rAgg m' c)
    (KP.L1_hW m m' c outs ha.2.2.2.2.1) (KP.L1_hlw m m' c outs ha.2.2.2.2.2.2.1) (KP.L1_hcb m m' c outs ha.2.2.2.2.2.1) (KP.L1_hlb m m' c outs ha.2.2.2.2.2.2.2.1)
    (KP.L1_hsn m m' c outs ha.2.1) (hA m m' c outs ha)
    (L1_hxwK m m' c outs ho8) (KP.L1_haggK m m' c outs) (L1_hK m m' c outs ho10)
    (L1_hxwR m m' c outs) (L1_haggR m m' c outs) (L1_hR m m' c outs) hacc

theorem L2_hxwK (ho12 : (outs 12 KernelIdeal.main_v83 c) = (KernelIdeal.Hand.dat4 (fun c b => V11 m outs c b) c).arrAt 2 KernelIdeal.cfg4.N)
    (r : Fin 50000) (q : Fin 128) :
    feat (outs 12 KernelIdeal.main_v83 c) (ix2 r q) = ∑ k : Fin 128, feat (outs 10 KernelIdeal.main_v80 c) (ix2 r k) * sq (V11 m outs c KernelIdeal.main_v82) (ix2 k q) := by
  have t80 : V11 m outs c KernelIdeal.main_v80 = outs 10 KernelIdeal.main_v80 c := (KernelIdeal.Gen.V11_of m outs c KernelIdeal.main_v80 (by decide)).trans (Function.update_self ..)
  rw [← t80, ho12]
  exact KernelIdeal.Hand.arr4_2_apply (fun c b => V11 m outs c b) c r q

theorem L2_hK (ho14 : (outs 14 KernelIdeal.main_v105 c) = (KernelIdeal.Hand.dat5 (fun c b => V13 m outs c b) c).arrAt 7 KernelIdeal.cfg5.N)
    (r : Fin 50000) (q : Fin 128) :
    feat (outs 14 KernelIdeal.main_v105 c) (ix2 r q) = feat (outs 10 KernelIdeal.main_v80 c) (ix2 r q)
      + Cert.Spec.elu ((((feat (V13 m outs c KernelIdeal.main_v96) (ix2 r q) + feat (outs 12 KernelIdeal.main_v83 c) (ix2 r q) * ncol (V13 m outs c KernelIdeal.main_v29) (ix2 r (0 : Fin 1)))
            + brow (V13 m outs c KernelIdeal.main_v99) (ix2 (0 : Fin 1) q))
            + ∑ k : Fin 128, feat (outs 10 KernelIdeal.main_v80 c) (ix2 r k) * sq (V13 m outs c KernelIdeal.main_v101) (ix2 k q))
            + brow (V13 m outs c KernelIdeal.main_v104) (ix2 (0 : Fin 1) q)) := by
  have t83 : V13 m outs c KernelIdeal.main_v83 = outs 12 KernelIdeal.main_v83 c := (KernelIdeal.Gen.V13_of m outs c KernelIdeal.main_v83 (by decide)).trans (Function.update_self ..)
  have t80b : V13 m outs c KernelIdeal.main_v80 = outs 10 KernelIdeal.main_v80 c := (KernelIdeal.Gen.V13_of m outs c KernelIdeal.main_v80 (by decide)).trans ((KernelIdeal.Gen.V12_of m outs c KernelIdeal.main_v80 (by decide)).trans ((KernelIdeal.Gen.V11_of m outs c KernelIdeal.main_v80 (by decide)).trans (Function.update_self ..)))
  rw [← t83, ← t80b, ho14]
  exact KernelIdeal.Hand.arr5_7_apply (fun c b => V13 m outs c b) c r q

theorem L2_hxwR (r : Fin 50000) (q : Fin 128) :
    feat (rAt m' c ReferenceIdeal.main_v106) (ix2 r q) = ∑ k : Fin 128, feat (rAt m' c ReferenceIdeal.main_v103) (ix2 r k) * sq (R.weightMat 2 ReferenceIdeal.Facts₀.slices_S3x128x128_S1x128x128_2_0_0 (m' ((c.tc : Thread ReferenceIdeal.nD ReferenceIdeal.τ).loc ReferenceIdeal.main_arg4))) (ix2 k q) := by
  exact (congrFun (ReferenceIdeal.RefValue.read_xw2 (StableHlo.launchContents m' c)) (ix2 r q)).trans (dot_apply _ _ r q)

theorem L2_haggR :
    feat (rAt m' c ReferenceIdeal.main_v118) = (rAgg m' c) (feat (rAt m' c ReferenceIdeal.main_v106)) := by
  exact ReferenceIdeal.RefValue.read_agg2 (StableHlo.launchContents m' c)

theorem L2_hR (r : Fin 50000) (q : Fin 128) :
    feat (rAt m' c ReferenceIdeal.main_v137) (ix2 r q) = feat (rAt m' c ReferenceIdeal.main_v103) (ix2 r q)
      + Cert.Spec.elu ((((feat (rAt m' c ReferenceIdeal.main_v118) (ix2 r q)
            + (∑ k : Fin 128, feat (rAt m' c ReferenceIdeal.main_v103) (ix2 r k) * sq (R.weightMat 2 ReferenceIdeal.Facts₀.slices_S3x128x128_S1x128x128_2_0_0 (m' ((c.tc : Thread ReferenceIdeal.nD ReferenceIdeal.τ).loc ReferenceIdeal.main_arg4))) (ix2 k q)) * ncol (R.selfNorm (F := Ideal) (R.dstRaw (m' ((c.tc : Thread ReferenceIdeal.nD ReferenceIdeal.τ).loc ReferenceIdeal.main_arg1)))) (ix2 r (0 : Fin 1)))
            + bvec (R.biasFlat 2 ReferenceIdeal.Facts₀.slices_S3x128_S1x128_2_0 (m' ((c.tc : Thread ReferenceIdeal.nD ReferenceIdeal.τ).loc ReferenceIdeal.main_arg5))) (ix1 q))
            + ∑ k : Fin 128, feat (rAt m' c ReferenceIdeal.main_v103) (ix2 r k) * sq (R.weightMat 2 ReferenceIdeal.Facts₀.slices_S3x128x128_S1x128x128_2_0_0 (m' ((c.tc : Thread ReferenceIdeal.nD ReferenceIdeal.τ).loc ReferenceIdeal.main_arg6))) (ix2 k q))
            + bvec (R.biasFlat 2 ReferenceIdeal.Facts₀.slices_S3x128_S1x128_2_0 (m' ((c.tc : Thread ReferenceIdeal.nD ReferenceIdeal.τ).loc ReferenceIdeal.main_arg7))) (ix1 q)) := by
  exact (congrFun (ReferenceIdeal.RefValue.read_acc3 (StableHlo.launchContents m' c)) (ix2 r q)).trans (refLayer_apply _ _ _ _ _ _ _ r q)

theorem L2_step (ha : Agree m m' c outs)
    (ho12 : (outs 12 KernelIdeal.main_v83 c) = (KernelIdeal.Hand.dat4 (fun c b => V11 m outs c b) c).arrAt 2 KernelIdeal.cfg4.N)
    (ho14 : (outs 14 KernelIdeal.main_v105 c) = (KernelIdeal.Hand.dat5 (fun c b => V13 m outs c b) c).arrAt 7 KernelIdeal.cfg5.N)
    (hacc : feat (outs 10 KernelIdeal.main_v80 c) = feat (rAt m' c ReferenceIdeal.main_v103)) :
    feat (outs 14 KernelIdeal.main_v105 c) = feat (rAt m' c ReferenceIdeal.main_v137) :=
  layer_step Cert.Spec.elu _ _ _ _ _ _ _ _ _ _ _ _ _ _ _ _ _ _ (kAgg m c) (rAgg m' c)
    (KP.L2_hW m m' c outs ha.2.2.2.2.1) (KP.L2_hlw m m' c outs ha.2.2.2.2.2.2.1) (KP.L2_hcb m m' c outs ha.2.2.2.2.2.1) (KP.L2_hlb m m' c outs ha.2.2.2.2.2.2.2.1)
    (KP.L2_hsn m m' c outs ha.2.1) (hA m m' c outs ha)
    (L2_hxwK m m' c outs ho12) (KP.L2_haggK m m' c outs) (L2_hK m m' c outs ho14)
    (L2_hxwR m m' c outs) (L2_haggR m m' c outs) (L2_hR m m' c outs) hacc

theorem P_hK (ho16 : outs 16 KernelIdeal.main_v107 c = (KernelIdeal.Hand.dat6 (fun c b => V15 m outs c b) c).arrAt 4 KernelIdeal.cfg6.N)
    (g q : Fin 128) :
    sq (outs 16 KernelIdeal.main_v107 c) (ix2 g q)
      = ∑ i ∈ Finset.univ.filter (fun i : Fin 50000 => ((fun i : Fin 50000 => nlab (V15 m outs c KernelIdeal.main_v4) (ix2 i (0 : Fin 1))) i).toInt = (g.val : ℤ)),
          Cert.Spec.elu ((∑ k : Fin 128, feat (outs 14 KernelIdeal.main_v105 c) (ix2 i k) * sq (V15 m outs c KernelIdeal.main_arg8) (ix2 k q))
            + brow (V15 m outs c KernelIdeal.main_v106) (ix2 (0 : Fin 1) q)) := by
  have t105 : V15 m outs c KernelIdeal.main_v105 = outs 14 KernelIdeal.main_v105 c := (KernelIdeal.Gen.V15_of m outs c KernelIdeal.main_v105 (by decide)).trans (Function.update_self ..)
  rw [← t105, ho16]
  exact KernelIdeal.Hand.arr6_apply (fun c b => V15 m outs c b) c g q

theorem P_hR (g q : Fin 128) :
    sq (rAt m' c ReferenceIdeal.main_v145) (ix2 g q)
      = ∑ i ∈ Finset.univ.filter (fun i : Fin 50000 => ((fun i : Fin 50000 => nvec (m' ((c.tc : Thread ReferenceIdeal.nD ReferenceIdeal.τ).loc ReferenceIdeal.main_arg2)) (ix1 i)) i).toInt = (g.val : ℤ)),
          Cert.Spec.elu ((∑ k : Fin 128, feat (rAt m' c ReferenceIdeal.main_v137) (ix2 i k) * sq (m' ((c.tc : Thread ReferenceIdeal.nD ReferenceIdeal.τ).loc ReferenceIdeal.main_arg8)) (ix2 k q))
            + bvec (m' ((c.tc : Thread ReferenceIdeal.nD ReferenceIdeal.τ).loc ReferenceIdeal.main_arg9)) (ix1 q)) := by
  have h1 := ReferenceIdeal.RefValue.read_pooled (StableHlo.launchContents m' c)
  rw [ReferenceIdeal.RefValue.read_y (StableHlo.launchContents m' c)] at h1
  have h2 : sq (rAt m' c ReferenceIdeal.main_v145) (ix2 g q)
      = R.pooled (F := Ideal) (StableHlo.launchContents m' c (Proc.devRef .tc ReferenceIdeal.main_arg2))
          (refMlp (rAt m' c ReferenceIdeal.main_v137) (StableHlo.launchContents m' c (Proc.devRef .tc ReferenceIdeal.main_arg8)) (StableHlo.launchContents m' c (Proc.devRef .tc ReferenceIdeal.main_arg9))) (ix2 g q) :=
    congrFun h1 (ix2 g q)
  rw [h2, pooled_R_apply]
  refine Finset.sum_congr rfl fun i _ => ?_
  exact refMlp_apply _ _ _ i q

theorem P_step (ha : Agree m m' c outs)
    (ho16 : outs 16 KernelIdeal.main_v107 c = (KernelIdeal.Hand.dat6 (fun c b => V15 m outs c b) c).arrAt 4 KernelIdeal.cfg6.N)
    (hacc : feat (outs 14 KernelIdeal.main_v105 c) = feat (rAt m' c ReferenceIdeal.main_v137)) :
    sq (outs 16 KernelIdeal.main_v107 c) = sq (rAt m' c ReferenceIdeal.main_v145) :=
  pool_step Cert.Spec.elu _ _ _ _ _ _ _ _ (fun i : Fin 50000 => nlab (V15 m outs c KernelIdeal.main_v4) (ix2 i (0 : Fin 1))) (fun i : Fin 50000 => nvec (m' ((c.tc : Thread ReferenceIdeal.nD ReferenceIdeal.τ).loc ReferenceIdeal.main_arg2)) (ix1 i))
    (KP.P_hM m m' c outs ha.2.2.2.2.2.2.2.2.1) (KP.P_hmb m m' c outs ha.2.2.2.2.2.2.2.2.2.1) (KP.P_hlab m m' c outs ha.2.2.1) (P_hK m m' c outs ho16) (P_hR m m' c outs) hacc

theorem T_R :
    sq (rAt m' c ReferenceIdeal.main_v151)
      = R.tail (F := Ideal) (rAt m' c ReferenceIdeal.main_v145) (m' ((c.tc : Thread ReferenceIdeal.nD ReferenceIdeal.τ).loc ReferenceIdeal.main_arg10)) (m' ((c.tc : Thread ReferenceIdeal.nD ReferenceIdeal.τ).loc ReferenceIdeal.main_arg11)) := by
  exact ReferenceIdeal.RefValue.read_result (StableHlo.launchContents m' c)

theorem bridge (ho4 : outs 4 KernelIdeal.main_v33 c = (KernelIdeal.Hand.dat0 (fun c b => V3 m c b) c).arrAt 2 KernelIdeal.cfg0.N)
    (ho6 : outs 6 KernelIdeal.main_v55 c = (KernelIdeal.Hand.dat1 (fun c b => V5 m outs c b) c).arrAt 7 KernelIdeal.cfg1.N)
    (ho8 : outs 8 KernelIdeal.main_v58 c = (KernelIdeal.Hand.dat2 (fun c b => V7 m outs c b) c).arrAt 2 KernelIdeal.cfg2.N)
    (ho10 : outs 10 KernelIdeal.main_v80 c = (KernelIdeal.Hand.dat3 (fun c b => V9 m outs c b) c).arrAt 7 KernelIdeal.cfg3.N)
    (ho12 : outs 12 KernelIdeal.main_v83 c = (KernelIdeal.Hand.dat4 (fun c b => V11 m outs c b) c).arrAt 2 KernelIdeal.cfg4.N)
    (ho14 : outs 14 KernelIdeal.main_v105 c = (KernelIdeal.Hand.dat5 (fun c b => V13 m outs c b) c).arrAt 7 KernelIdeal.cfg5.N)
    (ho16 : outs 16 KernelIdeal.main_v107 c = (KernelIdeal.Hand.dat6 (fun c b => V15 m outs c b) c).arrAt 4 KernelIdeal.cfg6.N)
    (h0 : ∀ i, (m ((c.tc : Thread KernelIdeal.nD KernelIdeal.τ).loc KernelIdeal.main_arg0)) i = 0#32)
    (ha : Agree m m' c outs) :
    (rAt m' c ReferenceIdeal.main_v151) = V17 m outs c KernelIdeal.main_v113 := by
  have hacc0 : feat (V3 m c KernelIdeal.main_v30) = feat (rAt m' c ReferenceIdeal.main_v35) := by
    rw [KP.A0_K m m' c outs, A0_R m m' c outs, ha.2.2.2.1, ha.1]
    exact kTake_eq_rTake _ _ h0
  have hacc1 := L0_step m m' c outs ha ho4 ho6 hacc0
  have hacc2 := L1_step m m' c outs ha ho8 ho10 hacc1
  have hacc3 := L2_step m m' c outs ha ho12 ho14 hacc2
  have hpool := P_step m m' c outs ha ho16 hacc3
  show sq (rAt m' c ReferenceIdeal.main_v151) = sq (V17 m outs c KernelIdeal.main_v113)
  rw [T_R m m' c outs, KP.T_K m m' c outs, ha.2.2.2.2.2.2.2.2.2.2.1, ha.2.2.2.2.2.2.2.2.2.2.2]
  exact (tail_congr hpool _ _).symm

end Final

end Cert.Bridge

end
-- ==== Proof.lean ====
import proofs.«401955_j22634477650042_2_alg».proof.Defs
import proofs.«401955_j22634477650042_2_alg».proof.Proof.Gen.Kernel
import proofs.«401955_j22634477650042_2_alg».proof.Proof.Gen.KernelIdeal
import proofs.«401955_j22634477650042_2_alg».proof.Proof.Gen.ReferenceIdeal
import proofs.«401955_j22634477650042_2_alg».proof.Proof.Gen.Pre_finite_inputs
import proofs.«401955_j22634477650042_2_alg».proof.Proof.K.Run
import proofs.«401955_j22634477650042_2_alg».proof.Proof.KI.Run
import proofs.«401955_j22634477650042_2_alg».proof.Proof.Ref.Run
import proofs.«401955_j22634477650042_2_alg».proof.Proof.Pre
import proofs.«401955_j22634477650042_2_alg».proof.Proof.Bridge.Final

noncomputable section

namespace Cert.Proof

open Idealize.ShloMosaic Idealize.ShloMosaic.TcCoe Idealize.SL.Sem

theorem frame_k : Cert.frame_Kernel := fun m ρ _ => Cert.Kernel.Hand.run_main (F := Bits) m ρ

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.RefValue.run (F := Ideal) m ρ)

theorem algebraic : Cert.algebraic_KernelIdeal_ReferenceIdeal := by
  intro m ρ m' ρ' hpre hagree
  refine ⟨_, Cert.KernelIdeal.Hand.run_main (F := Ideal) m ρ, ?_⟩
  refine (θ_run Cert.ReferenceIdeal.defs _ _).mono (fun _ h c => ⟨(h c).1.trans ?_, (h c).2⟩)
    (Cert.ReferenceIdeal.RefValue.run (F := Ideal) m' ρ')
  exact Cert.Bridge.bridge m m' c (Cert.KernelIdeal.Hand.outs m)
    (Cert.KernelIdeal.Hand.outs_4 m c) (Cert.KernelIdeal.Hand.outs_6 m c) (Cert.KernelIdeal.Hand.outs_8 m c)
    (Cert.KernelIdeal.Hand.outs_10 m c) (Cert.KernelIdeal.Hand.outs_12 m c) (Cert.KernelIdeal.Hand.outs_14 m c)
    (Cert.KernelIdeal.Hand.outs_16 m c)
    (Cert.PreFacts.x_idx_zero _ _ _ _ _ _ _ _ _ _ _ _ (hpre c)) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
